-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v270) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x98 : Shape := ⟨2, ![20000, 98]⟩
abbrev S160000 : Shape := ⟨1, ![160000]⟩
abbrev S20000 : Shape := ⟨1, ![20000]⟩
abbrev S50 : Shape := ⟨1, ![50]⟩
abbrev S160000x64 : Shape := ⟨2, ![160000, 64]⟩
abbrev S128x98 : Shape := ⟨2, ![128, 98]⟩
abbrev S3x128x64 : Shape := ⟨3, ![3, 128, 64]⟩
abbrev S3x64x64 : Shape := ⟨3, ![3, 64, 64]⟩
abbrev S3x128x384 : Shape := ⟨3, ![3, 128, 384]⟩
abbrev S3x128x128 : Shape := ⟨3, ![3, 128, 128]⟩
abbrev S64x128 : Shape := ⟨2, ![64, 128]⟩
abbrev S32x64 : Shape := ⟨2, ![32, 64]⟩
abbrev S1x32 : Shape := ⟨2, ![1, 32]⟩
abbrev S_ : Shape := ⟨0, ![]⟩

class Facts : Prop where
  bcast_S_S20000x98 : S_.BroadcastsInDim S20000x98 (![] : Fin 0 → Fin S20000x98.rank)
  reducesTo_S20000x98_S_d0_1 : S20000x98.ReducesTo [0, 1] S_
  h_S_ : 0 < S_.numel
  bcast_S_S160000 : S_.BroadcastsInDim S160000 (![] : Fin 0 → Fin S160000.rank)
  reducesTo_S160000_S_d0 : S160000.ReducesTo [0] S_
  bcast_S_S50 : S_.BroadcastsInDim S50 (![] : Fin 0 → Fin S50.rank)
  reducesTo_S50_S_d0 : S50.ReducesTo [0] S_
  bcast_S_S160000x64 : S_.BroadcastsInDim S160000x64 (![] : Fin 0 → Fin S160000x64.rank)
  reducesTo_S160000x64_S_d0_1 : S160000x64.ReducesTo [0, 1] S_
  bcast_S_S128x98 : S_.BroadcastsInDim S128x98 (![] : Fin 0 → Fin S128x98.rank)
  reducesTo_S128x98_S_d0_1 : S128x98.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64x64 : S_.BroadcastsInDim S3x64x64 (![] : Fin 0 → Fin S3x64x64.rank)
  reducesTo_S3x64x64_S_d0_1_2 : S3x64x64.ReducesTo [0, 1, 2] S_
  bcast_S_S3x128x384 : S_.BroadcastsInDim S3x128x384 (![] : Fin 0 → Fin S3x128x384.rank)
  reducesTo_S3x128x384_S_d0_1_2 : S3x128x384.ReducesTo [0, 1, 2] S_
  bcast_S_S3x128x128 : S_.BroadcastsInDim S3x128x128 (![] : Fin 0 → Fin S3x128x128.rank)
  reducesTo_S3x128x128_S_d0_1_2 : S3x128x128.ReducesTo [0, 1, 2] S_
  bcast_S_S64x128 : S_.BroadcastsInDim S64x128 (![] : Fin 0 → Fin S64x128.rank)
  reducesTo_S64x128_S_d0_1 : S64x128.ReducesTo [0, 1] S_
  bcast_S_S32x64 : S_.BroadcastsInDim S32x64 (![] : Fin 0 → Fin S32x64.rank)
  reducesTo_S32x64_S_d0_1 : S32x64.ReducesTo [0, 1] S_
  bcast_S_S1x32 : S_.BroadcastsInDim S1x32 (![] : Fin 0 → Fin S1x32.rank)
  reducesTo_S1x32_S_d0_1 : S1x32.ReducesTo [0, 1] S_

variable [Facts]

def fn_part5 {F : FTy → Type} [FloatOps F] (main_arg3 : FVec F S160000 .f32) (main_v83 : IVec S_ 1) (main_v84 : FVec F S160000 .f32) : IVec S_ 1 :=
  let main_v85 : IVec S160000 1 := cmpf .une main_arg3 main_v84
  let main_c_33 : IVec S_ 1 := constantI S_ 1 1#1
  let main_v86 : IVec S_ 1 := (fun x v => Host.reduce IntOp.andi x v reducesTo_S160000_S_d0 h_S_) main_v85 main_c_33
  let main_v87 : IVec S_ 1 := andi main_v83 main_v86
  main_v87

def fn_part4 {F : FTy → Type} [FloatOps F] (main_arg3 : FVec F S160000 .f32) (main_arg17 : FVec F S64x128 .f32) (main_arg18 : FVec F S32x64 .f32) (main_arg19 : FVec F S1x32 .f32) (main_v63 : IVec S_ 1) (main_v67 : IVec S_ 1) : IVec S_ 1 :=
  let main_v68 : IVec S_ 1 := andi main_v63 main_v67
  let main_v69 : FVec F S64x128 .f32 := Host.absf main_arg17
  let main_cst_26 : FVec F S_ .f32 := constant S_ .f32 0x7F800000#32
  let main_v70 : FVec F S64x128 .f32 := broadcastInDim S64x128 ![] bcast_S_S64x128 main_cst_26
  let main_v71 : IVec S64x128 1 := cmpf .olt main_v69 main_v70
  let main_c_27 : IVec S_ 1 := constantI S_ 1 1#1
  let main_v72 : IVec S_ 1 := (fun x v => Host.reduce IntOp.andi x v reducesTo_S64x128_S_d0_1 h_S_) main_v71 main_c_27
  let main_v73 : IVec S_ 1 := andi main_v68 main_v72
  let main_v74 : FVec F S32x64 .f32 := Host.absf main_arg18
  let main_cst_28 : FVec F S_ .f32 := constant S_ .f32 0x7F800000#32
  let main_v75 : FVec F S32x64 .f32 := broadcastInDim S32x64 ![] bcast_S_S32x64 main_cst_28
  let main_v76 : IVec S32x64 1 := cmpf .olt main_v74 main_v75
  let main_c_29 : IVec S_ 1 := constantI S_ 1 1#1
  let main_v77 : IVec S_ 1 := (fun x v => Host.reduce IntOp.andi x v reducesTo_S32x64_S_d0_1 h_S_) main_v76 main_c_29
  let main_v78 : IVec S_ 1 := andi main_v73 main_v77
  let main_v79 : FVec F S1x32 .f32 := Host.absf main_arg19
  let main_cst_30 : FVec F S_ .f32 := constant S_ .f32 0x7F800000#32
  let main_v80 : FVec F S1x32 .f32 := broadcastInDim S1x32 ![] bcast_S_S1x32 main_cst_30
  let main_v81 : IVec S1x32 1 := cmpf .olt main_v79 main_v80
  let main_c_31 : IVec S_ 1 := constantI S_ 1 1#1
  let main_v82 : IVec S_ 1 := (fun x v => Host.reduce IntOp.andi x v reducesTo_S1x32_S_d0_1 h_S_) main_v81 main_c_31
  let main_v83 : IVec S_ 1 := andi main_v78 main_v82
  let main_cst_32 : FVec F S_ .f32 := constant S_ .f32 0x00000000#32
  let main_v84 : FVec F S160000 .f32 := broadcastInDim S160000 ![] bcast_S_S160000 main_cst_32
  fn_part5 (F := F) main_arg3 main_v83 main_v84

def fn_part3 {F : FTy → Type} [FloatOps F] (main_arg3 : FVec F S160000 .f32) (main_arg14 : FVec F S3x128x128 .f32) (main_arg15 : FVec F S3x128x128 .f32) (main_arg16 : FVec F S3x128x128 .f32) (main_arg17 : FVec F S64x128 .f32) (main_arg18 : FVec F S32x64 .f32) (main_arg19 : FVec F S1x32 .f32) (main_v48 : IVec S_ 1) (main_v49 : FVec F S3x128x384 .f32) (main_v50 : FVec F S3x128x384 .f32) : IVec S_ 1 :=
  let main_v51 : IVec S3x128x384 1 := cmpf .olt main_v49 main_v50
  let main_c_19 : IVec S_ 1 := constantI S_ 1 1#1
  let main_v52 : IVec S_ 1 := (fun x v => Host.reduce IntOp.andi x v reducesTo_S3x128x384_S_d0_1_2 h_S_) main_v51 main_c_19
  let main_v53 : IVec S_ 1 := andi main_v48 main_v52
  let main_v54 : FVec F S3x128x128 .f32 := Host.absf main_arg14
  let main_cst_20 : FVec F S_ .f32 := constant S_ .f32 0x7F800000#32
  let main_v55 : FVec F S3x128x128 .f32 := broadcastInDim S3x128x128 ![] bcast_S_S3x128x128 main_cst_20
  let main_v56 : IVec S3x128x128 1 := cmpf .olt main_v54 main_v55
  let main_c_21 : IVec S_ 1 := constantI S_ 1 1#1
  let main_v57 : IVec S_ 1 := (fun x v => Host.reduce IntOp.andi x v reducesTo_S3x128x128_S_d0_1_2 h_S_) main_v56 main_c_21
  let main_v58 : IVec S_ 1 := andi main_v53 main_v57
  let main_v59 : FVec F S3x128x128 .f32 := Host.absf main_arg15
  let main_cst_22 : FVec F S_ .f32 := constant S_ .f32 0x7F800000#32
  let main_v60 : FVec F S3x128x128 .f32 := broadcastInDim S3x128x128 ![] bcast_S_S3x128x128 main_cst_22
  let main_v61 : IVec S3x128x128 1 := cmpf .olt main_v59 main_v60
  let main_c_23 : IVec S_ 1 := constantI S_ 1 1#1
  let main_v62 : IVec S_ 1 := (fun x v => Host.reduce IntOp.andi x v reducesTo_S3x128x128_S_d0_1_2 h_S_) main_v61 main_c_23
  let main_v63 : IVec S_ 1 := andi main_v58 main_v62
  let main_v64 : FVec F S3x128x128 .f32 := Host.absf main_arg16
  let main_cst_24 : FVec F S_ .f32 := constant S_ .f32 0x7F800000#32
  let main_v65 : FVec F S3x128x128 .f32 := broadcastInDim S3x128x128 ![] bcast_S_S3x128x128 main_cst_24
  let main_v66 : IVec S3x128x128 1 := cmpf .olt main_v64 main_v65
  let main_c_25 : IVec S_ 1 := constantI S_ 1 1#1
  let main_v67 : IVec S_ 1 := (fun x v => Host.reduce IntOp.andi x v reducesTo_S3x128x128_S_d0_1_2 h_S_) main_v66 main_c_25
  fn_part4 (F := F) main_arg3 main_arg17 main_arg18 main_arg19 main_v63 main_v67

def fn_part2 {F : FTy → Type} [FloatOps F] (main_arg3 : FVec F S160000 .f32) (main_arg10 : FVec F S3x128x64 .f32) (main_arg11 : FVec F S3x64x64 .f32) (main_arg12 : FVec F S3x128x384 .f32) (main_arg13 : FVec F S3x128x384 .f32) (main_arg14 : FVec F S3x128x128 .f32) (main_arg15 : FVec F S3x128x128 .f32) (main_arg16 : FVec F S3x128x128 .f32) (main_arg17 : FVec F S64x128 .f32) (main_arg18 : FVec F S32x64 .f32) (main_arg19 : FVec F S1x32 .f32) (main_v33 : IVec S_ 1) : IVec S_ 1 :=
  let main_v34 : FVec F S3x128x64 .f32 := Host.absf main_arg10
  let main_cst_12 : FVec F S_ .f32 := constant S_ .f32 0x7F800000#32
  let main_v35 : FVec F S3x128x64 .f32 := broadcastInDim S3x128x64 ![] bcast_S_S3x128x64 main_cst_12
  let main_v36 : IVec S3x128x64 1 := cmpf .olt main_v34 main_v35
  let main_c_13 : IVec S_ 1 := constantI S_ 1 1#1
  let main_v37 : IVec S_ 1 := (fun x v => Host.reduce IntOp.andi x v reducesTo_S3x128x64_S_d0_1_2 h_S_) main_v36 main_c_13
  let main_v38 : IVec S_ 1 := andi main_v33 main_v37
  let main_v39 : FVec F S3x64x64 .f32 := Host.absf main_arg11
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x128x384 .f32 := Host.absf main_arg12
  let main_cst_16 : FVec F S_ .f32 := constant S_ .f32 0x7F800000#32
  let main_v45 : FVec F S3x128x384 .f32 := broadcastInDim S3x128x384 ![] bcast_S_S3x128x384 main_cst_16
  let main_v46 : IVec S3x128x384 1 := cmpf .olt main_v44 main_v45
  let main_c_17 : IVec S_ 1 := constantI S_ 1 1#1
  let main_v47 : IVec S_ 1 := (fun x v => Host.reduce IntOp.andi x v reducesTo_S3x128x384_S_d0_1_2 h_S_) main_v46 main_c_17
  let main_v48 : IVec S_ 1 := andi main_v43 main_v47
  let main_v49 : FVec F S3x128x384 .f32 := Host.absf main_arg13
  let main_cst_18 : FVec F S_ .f32 := constant S_ .f32 0x7F800000#32
  let main_v50 : FVec F S3x128x384 .f32 := broadcastInDim S3x128x384 ![] bcast_S_S3x128x384 main_cst_18
  fn_part3 (F := F) main_arg3 main_arg14 main_arg15 main_arg16 main_arg17 main_arg18 main_arg19 main_v48 main_v49 main_v50

def fn_part1 {F : FTy → Type} [FloatOps F] (main_arg3 : FVec F S160000 .f32) (main_arg7 : FVec F S160000x64 .f32) (main_arg8 : FVec F S128x98 .f32) (main_arg9 : FVec F S3x128x64 .f32) (main_arg10 : FVec F S3x128x64 .f32) (main_arg11 : FVec F S3x64x64 .f32) (main_arg12 : FVec F S3x128x384 .f32) (main_arg13 : FVec F S3x128x384 .f32) (main_arg14 : FVec F S3x128x128 .f32) (main_arg15 : FVec F S3x128x128 .f32) (main_arg16 : FVec F S3x128x128 .f32) (main_arg17 : FVec F S64x128 .f32) (main_arg18 : FVec F S32x64 .f32) (main_arg19 : FVec F S1x32 .f32) (main_v13 : IVec S_ 1) (main_v16 : IVec S160000x64 1) : IVec S_ 1 :=
  let main_c_5 : IVec S_ 1 := constantI S_ 1 1#1
  let main_v17 : IVec S_ 1 := (fun x v => Host.reduce IntOp.andi x v reducesTo_S160000x64_S_d0_1 h_S_) main_v16 main_c_5
  let main_v18 : IVec S_ 1 := andi main_v13 main_v17
  let main_v19 : FVec F S160000x64 .f32 := Host.absf main_arg7
  let main_cst_6 : FVec F S_ .f32 := constant S_ .f32 0x7F800000#32
  let main_v20 : FVec F S160000x64 .f32 := broadcastInDim S160000x64 ![] bcast_S_S160000x64 main_cst_6
  let main_v21 : IVec S160000x64 1 := cmpf .olt main_v19 main_v20
  let main_c_7 : IVec S_ 1 := constantI S_ 1 1#1
  let main_v22 : IVec S_ 1 := (fun x v => Host.reduce IntOp.andi x v reducesTo_S160000x64_S_d0_1 h_S_) main_v21 main_c_7
  let main_v23 : IVec S_ 1 := andi main_v18 main_v22
  let main_v24 : FVec F S128x98 .f32 := Host.absf main_arg8
  let main_cst_8 : FVec F S_ .f32 := constant S_ .f32 0x7F800000#32
  let main_v25 : FVec F S128x98 .f32 := broadcastInDim S128x98 ![] bcast_S_S128x98 main_cst_8
  let main_v26 : IVec S128x98 1 := cmpf .olt main_v24 main_v25
  let main_c_9 : IVec S_ 1 := constantI S_ 1 1#1
  let main_v27 : IVec S_ 1 := (fun x v => Host.reduce IntOp.andi x v reducesTo_S128x98_S_d0_1 h_S_) main_v26 main_c_9
  let main_v28 : IVec S_ 1 := andi main_v23 main_v27
  let main_v29 : FVec F S3x128x64 .f32 := Host.absf main_arg9
  let main_cst_10 : FVec F S_ .f32 := constant S_ .f32 0x7F800000#32
  let main_v30 : FVec F S3x128x64 .f32 := broadcastInDim S3x128x64 ![] bcast_S_S3x128x64 main_cst_10
  let main_v31 : IVec S3x128x64 1 := cmpf .olt main_v29 main_v30
  let main_c_11 : IVec S_ 1 := constantI S_ 1 1#1
  let main_v32 : IVec S_ 1 := (fun x v => Host.reduce IntOp.andi x v reducesTo_S3x128x64_S_d0_1_2 h_S_) main_v31 main_c_11
  let main_v33 : IVec S_ 1 := andi main_v28 main_v32
  fn_part2 (F := F) main_arg3 main_arg10 main_arg11 main_arg12 main_arg13 main_arg14 main_arg15 main_arg16 main_arg17 main_arg18 main_arg19 main_v33

def fn {F : FTy → Type} [FloatOps F] (main_arg0 : FVec F S20000x98 .f32) (main_arg1 : IVec S160000 32) (main_arg2 : IVec S160000 32) (main_arg3 : FVec F S160000 .f32) (main_arg4 : IVec S20000 32) (main_arg5 : FVec F S50 .f32) (main_arg6 : FVec F S160000x64 .f32) (main_arg7 : FVec F S160000x64 .f32) (main_arg8 : FVec F S128x98 .f32) (main_arg9 : FVec F S3x128x64 .f32) (main_arg10 : FVec F S3x128x64 .f32) (main_arg11 : FVec F S3x64x64 .f32) (main_arg12 : FVec F S3x128x384 .f32) (main_arg13 : FVec F S3x128x384 .f32) (main_arg14 : FVec F S3x128x128 .f32) (main_arg15 : FVec F S3x128x128 .f32) (main_arg16 : FVec F S3x128x128 .f32) (main_arg17 : FVec F S64x128 .f32) (main_arg18 : FVec F S32x64 .f32) (main_arg19 : FVec F S1x32 .f32) : IVec S_ 1 :=
  let main_v0 : FVec F S20000x98 .f32 := Host.absf main_arg0
  let main_cst : FVec F S_ .f32 := constant S_ .f32 0x7F800000#32
  let main_v1 : FVec F S20000x98 .f32 := broadcastInDim S20000x98 ![] bcast_S_S20000x98 main_cst
  let main_v2 : IVec S20000x98 1 := cmpf .olt main_v0 main_v1
  let main_c : IVec S_ 1 := constantI S_ 1 1#1
  let main_v3 : IVec S_ 1 := (fun x v => Host.reduce IntOp.andi x v reducesTo_S20000x98_S_d0_1 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S50 .f32 := Host.absf main_arg5
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S160000x64 .f32 := Host.absf main_arg6
  let main_cst_4 : FVec F S_ .f32 := constant S_ .f32 0x7F800000#32
  let main_v15 : FVec F S160000x64 .f32 := broadcastInDim S160000x64 ![] bcast_S_S160000x64 main_cst_4
  let main_v16 : IVec S160000x64 1 := cmpf .olt main_v14 main_v15
  fn_part1 (F := F) main_arg3 main_arg7 main_arg8 main_arg9 main_arg10 main_arg11 main_arg12 main_arg13 main_arg14 main_arg15 main_arg16 main_arg17 main_arg18 main_arg19 main_v13 main_v16
-- ==== Kernel.lean ====
abbrev S20000x98 : Shape := ⟨2, ![20000, 98]⟩
abbrev S160000 : Shape := ⟨1, ![160000]⟩
abbrev S20000 : Shape := ⟨1, ![20000]⟩
abbrev S50 : Shape := ⟨1, ![50]⟩
abbrev S160000x64 : Shape := ⟨2, ![160000, 64]⟩
abbrev S128x98 : Shape := ⟨2, ![128, 98]⟩
abbrev S3x128x64 : Shape := ⟨3, ![3, 128, 64]⟩
abbrev S3x64x64 : Shape := ⟨3, ![3, 64, 64]⟩
abbrev S3x128x384 : Shape := ⟨3, ![3, 128, 384]⟩
abbrev S3x128x128 : Shape := ⟨3, ![3, 128, 128]⟩
abbrev S64x128 : Shape := ⟨2, ![64, 128]⟩
abbrev S32x64 : Shape := ⟨2, ![32, 64]⟩
abbrev S1x32 : Shape := ⟨2, ![1, 32]⟩
abbrev S98x128 : Shape := ⟨2, ![98, 128]⟩
abbrev S20000x128 : Shape := ⟨2, ![20000, 128]⟩
abbrev S4000x98 : Shape := ⟨2, ![4000, 98]⟩
abbrev S4000x128 : Shape := ⟨2, ![4000, 128]⟩
abbrev S160000x1 : Shape := ⟨2, ![160000, 1]⟩
abbrev S20000x1 : Shape := ⟨2, ![20000, 1]⟩
abbrev S_ : Shape := ⟨0, ![]⟩
abbrev S50x128 : Shape := ⟨2, ![50, 128]⟩
abbrev S3x384x128 : Shape := ⟨3, ![3, 384, 128]⟩
abbrev S3x64x128 : Shape := ⟨3, ![3, 64, 128]⟩
abbrev S160000x128 : Shape := ⟨2, ![160000, 128]⟩
abbrev S1x384x128 : Shape := ⟨3, ![1, 384, 128]⟩
abbrev S384x128 : Shape := ⟨2, ![384, 128]⟩
abbrev S1x64x128 : Shape := ⟨3, ![1, 64, 128]⟩
abbrev S1x64x64 : Shape := ⟨3, ![1, 64, 64]⟩
abbrev S64x64 : Shape := ⟨2, ![64, 64]⟩
abbrev S8000x128 : Shape := ⟨2, ![8000, 128]⟩
abbrev S8000x1 : Shape := ⟨2, ![8000, 1]⟩
abbrev S8000x64 : Shape := ⟨2, ![8000, 64]⟩
abbrev S128x128 : Shape := ⟨2, ![128, 128]⟩
abbrev S1x128x128 : Shape := ⟨3, ![1, 128, 128]⟩
abbrev S5x50x128 : Shape := ⟨3, ![5, 50, 128]⟩
abbrev S4000x1 : Shape := ⟨2, ![4000, 1]⟩
abbrev S1x50x128 : Shape := ⟨3, ![1, 50, 128]⟩
abbrev S4000x50 : Shape := ⟨2, ![4000, 50]⟩
abbrev S128x64 : Shape := ⟨2, ![128, 64]⟩
abbrev S50x64 : Shape := ⟨2, ![50, 64]⟩
abbrev S64x32 : Shape := ⟨2, ![64, 32]⟩
abbrev S50x32 : Shape := ⟨2, ![50, 32]⟩
abbrev S32x1 : Shape := ⟨2, ![32, 1]⟩
abbrev S50x1 : Shape := ⟨2, ![50, 1]⟩

abbrev nBuf : Space → Nat
  | .hbm => 231
  | .vmem => 89
  | .smem => 0
  | _ => 0

abbrev hbmTy0_0 (i : Nat) : BufTy := match i % 128 with
  | 0 => ⟨S20000x98, .f32⟩
  | 1 => ⟨S160000, .i32⟩
  | 2 => ⟨S160000, .i32⟩
  | 3 => ⟨S160000, .f32⟩
  | 4 => ⟨S20000, .i32⟩
  | 5 => ⟨S50, .f32⟩
  | 6 => ⟨S160000x64, .f32⟩
  | 7 => ⟨S160000x64, .f32⟩
  | 8 => ⟨S128x98, .f32⟩
  | 9 => ⟨S3x128x64, .f32⟩
  | 10 => ⟨S3x128x64, .f32⟩
  | 11 => ⟨S3x64x64, .f32⟩
  | 12 => ⟨S3x128x384, .f32⟩
  | 13 => ⟨S3x128x384, .f32⟩
  | 14 => ⟨S3x128x128, .f32⟩
  | 15 => ⟨S3x128x128, .f32⟩
  | 16 => ⟨S3x128x128, .f32⟩
  | 17 => ⟨S64x128, .f32⟩
  | 18 => ⟨S32x64, .f32⟩
  | 19 => ⟨S1x32, .f32⟩
  | 20 => ⟨S98x128, .f32⟩
  | 21 => ⟨S20000x128, .f32⟩
  | 22 => ⟨S160000x1, .f32⟩
  | 23 => ⟨S20000x1, .i32⟩
  | 24 => ⟨S_, .f32⟩
  | 25 => ⟨S50x128, .f32⟩
  | 26 => ⟨S3x384x128, .f32⟩
  | 27 => ⟨S3x384x128, .bf16⟩
  | 28 => ⟨S3x384x128, .f32⟩
  | 29 => ⟨S3x384x128, .bf16⟩
  | 30 => ⟨S3x64x128, .f32⟩
  | 31 => ⟨S3x64x128, .bf16⟩
  | 32 => ⟨S3x64x64, .f32⟩
  | 33 => ⟨S3x64x64, .bf16⟩
  | 34 => ⟨S3x64x128, .f32⟩
  | 35 => ⟨S3x64x128, .bf16⟩
  | 36 => ⟨S3x128x128, .f32⟩
  | 37 => ⟨S3x128x128, .f32⟩
  | 38 => ⟨S3x128x128, .f32⟩
  | 39 => ⟨S160000x64, .bf16⟩
  | 40 => ⟨S160000x64, .bf16⟩
  | 41 => ⟨S20000x128, .bf16⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x128, .bf16⟩
  | 51 => ⟨S_, .i32⟩
  | 52 => ⟨S160000, .i32⟩
  | 53 => ⟨S160000, .i1⟩
  | 54 => ⟨S_, .i32⟩
  | 55 => ⟨S160000, .i32⟩
  | 56 => ⟨S160000, .i32⟩
  | 57 => ⟨S160000, .i32⟩
  | 58 => ⟨S160000x1, .i32⟩
  | 59 => ⟨S160000x128, .bf16⟩
  | 60 => ⟨S1x384x128, .bf16⟩
  | 61 => ⟨S384x128, .bf16⟩
  | 62 => ⟨S1x384x128, .bf16⟩
  | 63 => ⟨S384x128, .bf16⟩
  | 64 => ⟨S1x64x128, .bf16⟩
  | 65 => ⟨S64x128, .bf16⟩
  | 66 => ⟨S1x64x64, .bf16⟩
  | 67 => ⟨S64x64, .bf16⟩
  | 68 => ⟨S1x64x128, .bf16⟩
  | 69 => ⟨S64x128, .bf16⟩
  | 70 => ⟨S160000x128, .bf16⟩
  | 71 => ⟨S160000x128, .f32⟩
  | 72 => ⟨S_, .i32⟩
  | 73 => ⟨S160000, .i32⟩
  | 74 => ⟨S160000, .i1⟩
  | 75 => ⟨S_, .i32⟩
  | 76 => ⟨S160000, .i32⟩
  | 77 => ⟨S160000, .i32⟩
  | 78 => ⟨S160000, .i32⟩
  | 79 => ⟨S160000x1, .i32⟩
  | 80 => ⟨S20000x128, .f32⟩
  | 81 => ⟨S1x128x128, .f32⟩
  | 82 => ⟨S128x128, .f32⟩
  | 83 => ⟨S1x128x128, .f32⟩
  | 84 => ⟨S128x128, .f32⟩
  | 85 => ⟨S1x128x128, .f32⟩
  | 86 => ⟨S128x128, .f32⟩
  | 87 => ⟨S5x50x128, .f32⟩
  | 88 => ⟨S20000x128, .f32⟩
  | 89 => ⟨S_, .f32⟩
  | 90 => ⟨S50x128, .f32⟩
  | 91 => ⟨S50x128, .f32⟩
  | 92 => ⟨S20000x128, .bf16⟩
  | 93 => ⟨S_, .i32⟩
  | 94 => ⟨S160000, .i32⟩
  | 95 => ⟨S160000, .i1⟩
  | 96 => ⟨S_, .i32⟩
  | 97 => ⟨S160000, .i32⟩
  | 98 => ⟨S160000, .i32⟩
  | 99 => ⟨S160000, .i32⟩
  | 100 => ⟨S160000x1, .i32⟩
  | 101 => ⟨S160000x128, .bf16⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S160000x128, .bf16⟩
  | 111 => ⟨S1x384x128, .bf16⟩
  | 112 => ⟨S384x128, .bf16⟩
  | 113 => ⟨S1x384x128, .bf16⟩
  | 114 => ⟨S384x128, .bf16⟩
  | 115 => ⟨S1x64x128, .bf16⟩
  | 116 => ⟨S64x128, .bf16⟩
  | 117 => ⟨S1x64x64, .bf16⟩
  | 118 => ⟨S64x64, .bf16⟩
  | 119 => ⟨S1x64x128, .bf16⟩
  | 120 => ⟨S64x128, .bf16⟩
  | 121 => ⟨S160000x128, .bf16⟩
  | 122 => ⟨S160000x128, .f32⟩
  | 123 => ⟨S_, .i32⟩
  | 124 => ⟨S160000, .i32⟩
  | 125 => ⟨S160000, .i1⟩
  | 126 => ⟨S_, .i32⟩
  | 127 => ⟨S160000, .i32⟩
  | _ => ⟨S20000x98, .f32⟩

abbrev hbmTy0_1 (i : Nat) : BufTy := match i % 128 with
  | 0 => ⟨S160000, .i32⟩
  | 1 => ⟨S160000, .i32⟩
  | 2 => ⟨S160000x1, .i32⟩
  | 3 => ⟨S20000x128, .f32⟩
  | 4 => ⟨S1x128x128, .f32⟩
  | 5 => ⟨S128x128, .f32⟩
  | 6 => ⟨S1x128x128, .f32⟩
  | 7 => ⟨S128x128, .f32⟩
  | 8 => ⟨S1x128x128, .f32⟩
  | 9 => ⟨S128x128, .f32⟩
  | 10 => ⟨S5x50x128, .f32⟩
  | 11 => ⟨S20000x128, .f32⟩
  | 12 => ⟨S_, .f32⟩
  | 13 => ⟨S50x128, .f32⟩
  | 14 => ⟨S50x128, .f32⟩
  | 15 => ⟨S20000x128, .bf16⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x128, .bf16⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x128, .bf16⟩
  | 34 => ⟨S1x384x128, .bf16⟩
  | 35 => ⟨S384x128, .bf16⟩
  | 36 => ⟨S1x384x128, .bf16⟩
  | 37 => ⟨S384x128, .bf16⟩
  | 38 => ⟨S1x64x128, .bf16⟩
  | 39 => ⟨S64x128, .bf16⟩
  | 40 => ⟨S1x64x64, .bf16⟩
  | 41 => ⟨S64x64, .bf16⟩
  | 42 => ⟨S1x64x128, .bf16⟩
  | 43 => ⟨S64x128, .bf16⟩
  | 44 => ⟨S160000x128, .bf16⟩
  | 45 => ⟨S160000x128, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S20000x128, .f32⟩
  | 55 => ⟨S1x128x128, .f32⟩
  | 56 => ⟨S128x128, .f32⟩
  | 57 => ⟨S1x128x128, .f32⟩
  | 58 => ⟨S128x128, .f32⟩
  | 59 => ⟨S1x128x128, .f32⟩
  | 60 => ⟨S128x128, .f32⟩
  | 61 => ⟨S5x50x128, .f32⟩
  | 62 => ⟨S20000x128, .f32⟩
  | 63 => ⟨S_, .f32⟩
  | 64 => ⟨S50x128, .f32⟩
  | 65 => ⟨S50x128, .f32⟩
  | 66 => ⟨S128x64, .f32⟩
  | 67 => ⟨S50x64, .f32⟩
  | 68 => ⟨S_, .f32⟩
  | 69 => ⟨S50x64, .f32⟩
  | 70 => ⟨S50x64, .i1⟩
  | 71 => ⟨S_, .f32⟩
  | 72 => ⟨S50x64, .f32⟩
  | 73 => ⟨S50x64, .i1⟩
  | 74 => ⟨S_, .f32⟩
  | 75 => ⟨S_, .f32⟩
  | 76 => ⟨S50x64, .f32⟩
  | 77 => ⟨S50x64, .f32⟩
  | 78 => ⟨S50x64, .f32⟩
  | 79 => ⟨S_, .f32⟩
  | 80 => ⟨S50x64, .f32⟩
  | 81 => ⟨S50x64, .f32⟩
  | 82 => ⟨S50x64, .f32⟩
  | 83 => ⟨S64x32, .f32⟩
  | 84 => ⟨S50x32, .f32⟩
  | 85 => ⟨S_, .f32⟩
  | 86 => ⟨S50x32, .f32⟩
  | 87 => ⟨S50x32, .i1⟩
  | 88 => ⟨S_, .f32⟩
  | 89 => ⟨S50x32, .f32⟩
  | 90 => ⟨S50x32, .i1⟩
  | 91 => ⟨S_, .f32⟩
  | 92 => ⟨S_, .f32⟩
  | 93 => ⟨S50x32, .f32⟩
  | 94 => ⟨S50x32, .f32⟩
  | 95 => ⟨S50x32, .f32⟩
  | 96 => ⟨S_, .f32⟩
  | 97 => ⟨S50x32, .f32⟩
  | 98 => ⟨S50x32, .f32⟩
  | 99 => ⟨S50x32, .f32⟩
  | 100 => ⟨S32x1, .f32⟩
  | 101 => ⟨S50x1, .f32⟩
  | 102 => ⟨S50, .f32⟩
  | _ => ⟨S20000x98, .f32⟩

abbrev hbmTy (i : Nat) : BufTy := match i / 128 with
  | 0 => hbmTy0_0 i
  | 1 => hbmTy0_1 i
  | _ => ⟨S20000x98, .f32⟩

abbrev bufTy : (tb : Table) → Fin (tcTables nBuf tb) → BufTy
  | .hbm, ⟨i, _⟩ => hbmTy i
  | .local _ .vmem, ⟨0, _⟩ => ⟨S4000x98, .f32⟩
  | .local _ .vmem, ⟨1, _⟩ => ⟨S4000x98, .f32⟩
  | .local _ .vmem, ⟨2, _⟩ => ⟨S98x128, .f32⟩
  | .local _ .vmem, ⟨3, _⟩ => ⟨S4000x128, .f32⟩
  | .local _ .vmem, ⟨4, _⟩ => ⟨S4000x128, .f32⟩
  | .local _ .vmem, ⟨5, _⟩ => ⟨S8000x128, .bf16⟩
  | .local _ .vmem, ⟨6, _⟩ => ⟨S8000x128, .bf16⟩
  | .local _ .vmem, ⟨7, _⟩ => ⟨S8000x128, .bf16⟩
  | .local _ .vmem, ⟨8, _⟩ => ⟨S8000x128, .bf16⟩
  | .local _ .vmem, ⟨9, _⟩ => ⟨S8000x1, .f32⟩
  | .local _ .vmem, ⟨10, _⟩ => ⟨S8000x1, .f32⟩
  | .local _ .vmem, ⟨11, _⟩ => ⟨S8000x64, .bf16⟩
  | .local _ .vmem, ⟨12, _⟩ => ⟨S8000x64, .bf16⟩
  | .local _ .vmem, ⟨13, _⟩ => ⟨S8000x64, .bf16⟩
  | .local _ .vmem, ⟨14, _⟩ => ⟨S8000x64, .bf16⟩
  | .local _ .vmem, ⟨15, _⟩ => ⟨S384x128, .bf16⟩
  | .local _ .vmem, ⟨16, _⟩ => ⟨S384x128, .bf16⟩
  | .local _ .vmem, ⟨17, _⟩ => ⟨S64x128, .bf16⟩
  | .local _ .vmem, ⟨18, _⟩ => ⟨S64x64, .bf16⟩
  | .local _ .vmem, ⟨19, _⟩ => ⟨S64x128, .bf16⟩
  | .local _ .vmem, ⟨20, _⟩ => ⟨S8000x128, .bf16⟩
  | .local _ .vmem, ⟨21, _⟩ => ⟨S8000x128, .bf16⟩
  | .local _ .vmem, ⟨22, _⟩ => ⟨S4000x128, .f32⟩
  | .local _ .vmem, ⟨23, _⟩ => ⟨S4000x128, .f32⟩
  | .local _ .vmem, ⟨24, _⟩ => ⟨S4000x1, .i32⟩
  | .local _ .vmem, ⟨25, _⟩ => ⟨S4000x1, .i32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S1x50x128, .f32⟩
  | .local _ .vmem, ⟨30, _⟩ => ⟨S1x50x128, .f32⟩
  | .local _ .vmem, ⟨31, _⟩ => ⟨S4000x128, .f32⟩
  | .local _ .vmem, ⟨32, _⟩ => ⟨S4000x128, .f32⟩
  | .local _ .vmem, ⟨33, _⟩ => ⟨S8000x128, .bf16⟩
  | .local _ .vmem, ⟨34, _⟩ => ⟨S8000x128, .bf16⟩
  | .local _ .vmem, ⟨35, _⟩ => ⟨S8000x128, .bf16⟩
  | .local _ .vmem, ⟨36, _⟩ => ⟨S8000x128, .bf16⟩
  | .local _ .vmem, ⟨37, _⟩ => ⟨S8000x1, .f32⟩
  | .local _ .vmem, ⟨38, _⟩ => ⟨S8000x1, .f32⟩
  | .local _ .vmem, ⟨39, _⟩ => ⟨S8000x64, .bf16⟩
  | .local _ .vmem, ⟨40, _⟩ => ⟨S8000x64, .bf16⟩
  | .local _ .vmem, ⟨41, _⟩ => ⟨S8000x64, .bf16⟩
  | .local _ .vmem, ⟨42, _⟩ => ⟨S8000x64, .bf16⟩
  | .local _ .vmem, ⟨43, _⟩ => ⟨S384x128, .bf16⟩
  | .local _ .vmem, ⟨44, _⟩ => ⟨S384x128, .bf16⟩
  | .local _ .vmem, ⟨45, _⟩ => ⟨S64x128, .bf16⟩
  | .local _ .vmem, ⟨46, _⟩ => ⟨S64x64, .bf16⟩
  | .local _ .vmem, ⟨47, _⟩ => ⟨S64x128, .bf16⟩
  | .local _ .vmem, ⟨48, _⟩ => ⟨S8000x128, .bf16⟩
  | .local _ .vmem, ⟨49, _⟩ => ⟨S8000x128, .bf16⟩
  | .local _ .vmem, ⟨50, _⟩ => ⟨S4000x128, .f32⟩
  | .local _ .vmem, ⟨51, _⟩ => ⟨S4000x128, .f32⟩
  | .local _ .vmem, ⟨52, _⟩ => ⟨S4000x1, .i32⟩
  | .local _ .vmem, ⟨53, _⟩ => ⟨S4000x1, .i32⟩
  | .local _ .vmem, ⟨54, _⟩ => ⟨S128x128, .f32⟩
  | .local _ .vmem, ⟨55, _⟩ => ⟨S128x128, .f32⟩
  | .local _ .vmem, ⟨56, _⟩ => ⟨S128x128, .f32⟩
  | .local _ .vmem, ⟨57, _⟩ => ⟨S1x50x128, .f32⟩
  | .local _ .vmem, ⟨58, _⟩ => ⟨S1x50x128, .f32⟩
  | .local _ .vmem, ⟨59, _⟩ => ⟨S4000x128, .f32⟩
  | .local _ .vmem, ⟨60, _⟩ => ⟨S4000x128, .f32⟩
  | .local _ .vmem, ⟨61, _⟩ => ⟨S8000x128, .bf16⟩
  | .local _ .vmem, ⟨62, _⟩ => ⟨S8000x128, .bf16⟩
  | .local _ .vmem, ⟨63, _⟩ => ⟨S8000x128, .bf16⟩
  | .local _ .vmem, ⟨64, _⟩ => ⟨S8000x128, .bf16⟩
  | .local _ .vmem, ⟨65, _⟩ => ⟨S8000x1, .f32⟩
  | .local _ .vmem, ⟨66, _⟩ => ⟨S8000x1, .f32⟩
  | .local _ .vmem, ⟨67, _⟩ => ⟨S8000x64, .bf16⟩
  | .local _ .vmem, ⟨68, _⟩ => ⟨S8000x64, .bf16⟩
  | .local _ .vmem, ⟨69, _⟩ => ⟨S8000x64, .bf16⟩
  | .local _ .vmem, ⟨70, _⟩ => ⟨S8000x64, .bf16⟩
  | .local _ .vmem, ⟨71, _⟩ => ⟨S384x128, .bf16⟩
  | .local _ .vmem, ⟨72, _⟩ => ⟨S384x128, .bf16⟩
  | .local _ .vmem, ⟨73, _⟩ => ⟨S64x128, .bf16⟩
  | .local _ .vmem, ⟨74, _⟩ => ⟨S64x64, .bf16⟩
  | .local _ .vmem, ⟨75, _⟩ => ⟨S64x128, .bf16⟩
  | .local _ .vmem, ⟨76, _⟩ => ⟨S8000x128, .bf16⟩
  | .local _ .vmem, ⟨77, _⟩ => ⟨S8000x128, .bf16⟩
  | .local _ .vmem, ⟨78, _⟩ => ⟨S4000x128, .f32⟩
  | .local _ .vmem, ⟨79, _⟩ => ⟨S4000x128, .f32⟩
  | .local _ .vmem, ⟨80, _⟩ => ⟨S4000x1, .i32⟩
  | .local _ .vmem, ⟨81, _⟩ => ⟨S4000x1, .i32⟩
  | .local _ .vmem, ⟨82, _⟩ => ⟨S128x128, .f32⟩
  | .local _ .vmem, ⟨83, _⟩ => ⟨S128x128, .f32⟩
  | .local _ .vmem, ⟨84, _⟩ => ⟨S128x128, .f32⟩
  | .local _ .vmem, ⟨85, _⟩ => ⟨S1x50x128, .f32⟩
  | .local _ .vmem, ⟨86, _⟩ => ⟨S1x50x128, .f32⟩
  | .local _ .vmem, ⟨87, _⟩ => ⟨S4000x128, .f32⟩
  | .local _ .vmem, ⟨88, _⟩ => ⟨S4000x128, .f32⟩
  | _, _ => ⟨S20000x98, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_1 : Ref sig .tc := ⟨.hbm, 51, rfl⟩
abbrev main_v28 : Ref sig .tc := ⟨.hbm, 52, rfl⟩
abbrev main_v29 : Ref sig .tc := ⟨.hbm, 53, rfl⟩
abbrev main_c_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_3 : Ref sig .tc := ⟨.hbm, 72, rfl⟩
abbrev main_v47 : Ref sig .tc := ⟨.hbm, 73, rfl⟩
abbrev main_v48 : Ref sig .tc := ⟨.hbm, 74, rfl⟩
abbrev main_c_4 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60_0 : Ref sig .tc := ⟨.hbm, 87, rfl⟩
abbrev main_v60_1 : Ref sig .tc := ⟨.hbm, 88, rfl⟩
abbrev main_cst_5 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_6 : Ref sig .tc := ⟨.hbm, 93, rfl⟩
abbrev main_v64 : Ref sig .tc := ⟨.hbm, 94, rfl⟩
abbrev main_v65 : Ref sig .tc := ⟨.hbm, 95, rfl⟩
abbrev main_c_7 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_8 : Ref sig .tc := ⟨.hbm, 102, rfl⟩
abbrev main_v71 : Ref sig .tc := ⟨.hbm, 103, rfl⟩
abbrev main_v72 : Ref sig .tc := ⟨.hbm, 104, rfl⟩
abbrev main_c_9 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_10 : Ref sig .tc := ⟨.hbm, 123, rfl⟩
abbrev main_v90 : Ref sig .tc := ⟨.hbm, 124, rfl⟩
abbrev main_v91 : Ref sig .tc := ⟨.hbm, 125, rfl⟩
abbrev main_c_11 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103_0 : Ref sig .tc := ⟨.hbm, 138, rfl⟩
abbrev main_v103_1 : Ref sig .tc := ⟨.hbm, 139, rfl⟩
abbrev main_cst_12 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_13 : Ref sig .tc := ⟨.hbm, 144, rfl⟩
abbrev main_v107 : Ref sig .tc := ⟨.hbm, 145, rfl⟩
abbrev main_v108 : Ref sig .tc := ⟨.hbm, 146, rfl⟩
abbrev main_c_14 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_c_15 : Ref sig .tc := ⟨.hbm, 153, rfl⟩
abbrev main_v114 : Ref sig .tc := ⟨.hbm, 154, rfl⟩
abbrev main_v115 : Ref sig .tc := ⟨.hbm, 155, rfl⟩
abbrev main_c_16 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_17 : Ref sig .tc := ⟨.hbm, 174, rfl⟩
abbrev main_v133 : Ref sig .tc := ⟨.hbm, 175, rfl⟩
abbrev main_v134 : Ref sig .tc := ⟨.hbm, 176, rfl⟩
abbrev main_c_18 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146_0 : Ref sig .tc := ⟨.hbm, 189, rfl⟩
abbrev main_v146_1 : Ref sig .tc := ⟨.hbm, 190, rfl⟩
abbrev main_cst_19 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_call0_cst : Ref sig .tc := ⟨.hbm, 196, rfl⟩
abbrev main_call0_v0 : Ref sig .tc := ⟨.hbm, 197, rfl⟩
abbrev main_call0_v1 : Ref sig .tc := ⟨.hbm, 198, rfl⟩
abbrev main_call0_cst_0 : Ref sig .tc := ⟨.hbm, 199, rfl⟩
abbrev main_call0_v2 : Ref sig .tc := ⟨.hbm, 200, rfl⟩
abbrev main_call0_v3 : Ref sig .tc := ⟨.hbm, 201, rfl⟩
abbrev main_call0_cst_1 : Ref sig .tc := ⟨.hbm, 202, rfl⟩
abbrev main_call0_call0_v0 : Ref sig .tc := ⟨.hbm, 203, rfl⟩
abbrev main_call0_call0_v1 : Ref sig .tc := ⟨.hbm, 204, rfl⟩
abbrev main_call0_v4 : Ref sig .tc := ⟨.hbm, 205, rfl⟩
abbrev main_call0_v5 : Ref sig .tc := ⟨.hbm, 206, rfl⟩
abbrev main_call0_cst_2 : Ref sig .tc := ⟨.hbm, 207, rfl⟩
abbrev main_call0_v6 : Ref sig .tc := ⟨.hbm, 208, rfl⟩
abbrev main_call0_v7 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_call1_cst : Ref sig .tc := ⟨.hbm, 213, rfl⟩
abbrev main_call1_v0 : Ref sig .tc := ⟨.hbm, 214, rfl⟩
abbrev main_call1_v1 : Ref sig .tc := ⟨.hbm, 215, rfl⟩
abbrev main_call1_cst_0 : Ref sig .tc := ⟨.hbm, 216, rfl⟩
abbrev main_call1_v2 : Ref sig .tc := ⟨.hbm, 217, rfl⟩
abbrev main_call1_v3 : Ref sig .tc := ⟨.hbm, 218, rfl⟩
abbrev main_call1_cst_1 : Ref sig .tc := ⟨.hbm, 219, rfl⟩
abbrev main_call1_call0_v0 : Ref sig .tc := ⟨.hbm, 220, rfl⟩
abbrev main_call1_call0_v1 : Ref sig .tc := ⟨.hbm, 221, rfl⟩
abbrev main_call1_v4 : Ref sig .tc := ⟨.hbm, 222, rfl⟩
abbrev main_call1_v5 : Ref sig .tc := ⟨.hbm, 223, rfl⟩
abbrev main_call1_cst_2 : Ref sig .tc := ⟨.hbm, 224, rfl⟩
abbrev main_call1_v6 : Ref sig .tc := ⟨.hbm, 225, rfl⟩
abbrev main_call1_v7 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg10_0 : Ref sig .tc := ⟨.vmem, 48, rfl⟩
abbrev cc3_stg10_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg5_1 : Ref sig .tc := ⟨.vmem, 58, rfl⟩
abbrev cc4_stg6_0 : Ref sig .tc := ⟨.vmem, 59, rfl⟩
abbrev cc4_stg6_1 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg1_1 : Ref sig .tc := ⟨.vmem, 64, rfl⟩
abbrev cc5_stg2_0 : Ref sig .tc := ⟨.vmem, 65, rfl⟩
abbrev cc5_stg2_1 : Ref sig .tc := ⟨.vmem, 66, rfl⟩
abbrev cc5_stg3_0 : Ref sig .tc := ⟨.vmem, 67, rfl⟩
abbrev cc5_stg3_1 : Ref sig .tc := ⟨.vmem, 68, rfl⟩
abbrev cc5_stg4_0 : Ref sig .tc := ⟨.vmem, 69, rfl⟩
abbrev cc5_stg4_1 : Ref sig .tc := ⟨.vmem, 70, rfl⟩
abbrev cc5_stg5_0 : Ref sig .tc := ⟨.vmem, 71, rfl⟩
abbrev cc5_stg6_0 : Ref sig .tc := ⟨.vmem, 72, rfl⟩
abbrev cc5_stg7_0 : Ref sig .tc := ⟨.vmem, 73, rfl⟩
abbrev cc5_stg8_0 : Ref sig .tc := ⟨.vmem, 74, rfl⟩
abbrev cc5_stg9_0 : Ref sig .tc := ⟨.vmem, 75, rfl⟩
abbrev cc5_stg10_0 : Ref sig .tc := ⟨.vmem, 76, rfl⟩
abbrev cc5_stg10_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg3_0 : Ref sig .tc := ⟨.vmem, 83, rfl⟩
abbrev cc6_stg4_0 : Ref sig .tc := ⟨.vmem, 84, rfl⟩
abbrev cc6_stg5_0 : Ref sig .tc := ⟨.vmem, 85, rfl⟩
abbrev cc6_stg5_1 : Ref sig .tc := ⟨.vmem, 86, rfl⟩
abbrev cc6_stg6_0 : Ref sig .tc := ⟨.vmem, 87, rfl⟩
abbrev cc6_stg6_1 : Ref sig .tc := ⟨.vmem, 88, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem10_0 : DmaSem sig := 48
abbrev cc3_sem10_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem3_0 : DmaSem sig := 55
abbrev cc4_sem4_0 : DmaSem sig := 56
abbrev cc4_sem5_0 : DmaSem sig := 57
abbrev cc4_sem5_1 : DmaSem sig := 58
abbrev cc4_sem6_0 : DmaSem sig := 59
abbrev cc4_sem6_1 : DmaSem sig := 60
abbrev cc5_sem0_0 : DmaSem sig := 61
abbrev cc5_sem0_1 : DmaSem sig := 62
abbrev cc5_sem1_0 : DmaSem sig := 63
abbrev cc5_sem1_1 : DmaSem sig := 64
abbrev cc5_sem2_0 : DmaSem sig := 65
abbrev cc5_sem2_1 : DmaSem sig := 66
abbrev cc5_sem3_0 : DmaSem sig := 67
abbrev cc5_sem3_1 : DmaSem sig := 68
abbrev cc5_sem4_0 : DmaSem sig := 69
abbrev cc5_sem4_1 : DmaSem sig := 70
abbrev cc5_sem5_0 : DmaSem sig := 71
abbrev cc5_sem6_0 : DmaSem sig := 72
abbrev cc5_sem7_0 : DmaSem sig := 73
abbrev cc5_sem8_0 : DmaSem sig := 74
abbrev cc5_sem9_0 : DmaSem sig := 75
abbrev cc5_sem10_0 : DmaSem sig := 76
abbrev cc5_sem10_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem3_0 : DmaSem sig := 83
abbrev cc6_sem4_0 : DmaSem sig := 84
abbrev cc6_sem5_0 : DmaSem sig := 85
abbrev cc6_sem5_1 : DmaSem sig := 86
abbrev cc6_sem6_0 : DmaSem sig := 87
abbrev cc6_sem6_1 : DmaSem sig := 88

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x98 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S98x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S384x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S384x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S8000x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x50x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8000x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S8000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S384x128 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S384x128 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64x64 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x128 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S8000x128 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1x50x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S8000x64 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S8000x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S384x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S384x128 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x128 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64x64 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S64x128 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S8000x128 .bf16 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S1x50x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  transposes_S128x98_S98x128_1_0 : S128x98.Transposes [1, 0] S98x128
  inb_S4000x98_S4000x98_0_0 : ∀ a, (![0, 0] : Fin 2 → Nat) a + S4000x98.size a ≤ S4000x98.size a
  h_S4000x98 : 0 < S4000x98.numel
  inb_S98x128_S98x128_0_0 : ∀ a, (![0, 0] : Fin 2 → Nat) a + S98x128.size a ≤ S98x128.size a
  h_S98x128 : 0 < S98x128.numel
  shapeCasts_S98x128_S98x128 : S98x128.ShapeCasts S98x128
  inb_S4000x128_S4000x128_0_0 : ∀ a, (![0, 0] : Fin 2 → Nat) a + S4000x128.size a ≤ S4000x128.size a
  h_S4000x128 : 0 < S4000x128.numel
  bcast_S160000_S160000x1_0 : S160000.BroadcastsInDim S160000x1 (![0] : Fin 1 → Fin S160000x1.rank)
  bcast_S20000_S20000x1_0 : S20000.BroadcastsInDim S20000x1 (![0] : Fin 1 → Fin S20000x1.rank)
  bcast_S_S50x128 : S_.BroadcastsInDim S50x128 (![] : Fin 0 → Fin S50x128.rank)
  transposes_S3x128x384_S3x384x128_0_2_1 : S3x128x384.Transposes [0, 2, 1] S3x384x128
  bitsLt_bf16_f32 : FTy.bits .bf16 < FTy.bits .f32
  transposes_S3x128x64_S3x64x128_0_2_1 : S3x128x64.Transposes [0, 2, 1] S3x64x128
  transposes_S3x64x64_S3x64x64_0_2_1 : S3x64x64.Transposes [0, 2, 1] S3x64x64
  transposes_S3x128x128_S3x128x128_0_2_1 : S3x128x128.Transposes [0, 2, 1] S3x128x128
  bcast_S_S160000 : S_.BroadcastsInDim S160000 (![] : Fin 0 → Fin S160000.rank)
  slices_S3x384x128_S1x384x128_0_0_0 : S3x384x128.Slices ![0, 0, 0] S1x384x128
  shapeCasts_S1x384x128_S384x128 : S1x384x128.ShapeCasts S384x128
  slices_S3x64x128_S1x64x128_0_0_0 : S3x64x128.Slices ![0, 0, 0] S1x64x128
  shapeCasts_S1x64x128_S64x128 : S1x64x128.ShapeCasts S64x128
  slices_S3x64x64_S1x64x64_0_0_0 : S3x64x64.Slices ![0, 0, 0] S1x64x64
  shapeCasts_S1x64x64_S64x64 : S1x64x64.ShapeCasts S64x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  natLt_1_32 : 1 < 32
  broadcasts_S8000x1_S8000x128 : S8000x1.Broadcasts S8000x128
  inb_S384x128_S128x128_0_0 : ∀ a, (![0, 0] : Fin 2 → Nat) a + S128x128.size a ≤ S384x128.size a
  h_S128x128 : 0 < S128x128.numel
  shapeCasts_S128x128_S128x128 : S128x128.ShapeCasts S128x128
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x64_S64x64_0_0 : ∀ a, (![0, 0] : Fin 2 → Nat) a + S64x64.size a ≤ S64x64.size a
  h_S64x64 : 0 < S64x64.numel
  shapeCasts_S64x64_S64x64 : S64x64.ShapeCasts S64x64
  packedbf16_S8000x128_S8000x128_0_0 : (Rect.unit (s := S8000x128) ![0, 0] S8000x128.size inb_S8000x128_S8000x128_0_0).PackedRows (EltTy.packing .bf16)
  slices_S3x128x128_S1x128x128_0_0_0 : S3x128x128.Slices ![0, 0, 0] S1x128x128
  shapeCasts_S1x128x128_S128x128 : S1x128x128.ShapeCasts S128x128
  shapeCasts_S4000x128_S4000x128 : S4000x128.ShapeCasts S4000x128
  inb_S128x128_S128x128_0_0 : ∀ a, (![0, 0] : Fin 2 → Nat) a + S128x128.size a ≤ S128x128.size a
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x50_d1_w32 : S4000x50.Iotas .tc 32 [1]
  broadcasts_S4000x1_S4000x50 : S4000x1.Broadcasts S4000x50
  shapeCasts_S50x128_S1x50x128 : S50x128.ShapeCasts S1x50x128
  inb_S1x50x128_S1x50x128_0_0_0 : ∀ a, (![0, 0, 0] : Fin 3 → Nat) a + S1x50x128.size a ≤ S1x50x128.size a
  h_S1x50x128 : 0 < S1x50x128.numel
  reducesTo_S5x50x128_S50x128_d0 : S5x50x128.ReducesTo [0] S50x128
  h_S_ : 0 < S_.numel
  slices_S3x384x128_S1x384x128_1_0_0 : S3x384x128.Slices ![1, 0, 0] S1x384x128
  slices_S3x64x128_S1x64x128_1_0_0 : S3x64x128.Slices ![1, 0, 0] S1x64x128
  slices_S3x64x64_S1x64x64_1_0_0 : S3x64x64.Slices ![1, 0, 0] S1x64x64
  slices_S3x128x128_S1x128x128_1_0_0 : S3x128x128.Slices ![1, 0, 0] S1x128x128
  slices_S3x384x128_S1x384x128_2_0_0 : S3x384x128.Slices ![2, 0, 0] S1x384x128
  slices_S3x64x128_S1x64x128_2_0_0 : S3x64x128.Slices ![2, 0, 0] S1x64x128
  slices_S3x64x64_S1x64x64_2_0_0 : S3x64x64.Slices ![2, 0, 0] S1x64x64
  slices_S3x128x128_S1x128x128_2_0_0 : S3x128x128.Slices ![2, 0, 0] S1x128x128
  transposes_S64x128_S128x64_1_0 : S64x128.Transposes [1, 0] S128x64
  bcast_S_S50x64 : S_.BroadcastsInDim S50x64 (![] : Fin 0 → Fin S50x64.rank)
  transposes_S32x64_S64x32_1_0 : S32x64.Transposes [1, 0] S64x32
  bcast_S_S50x32 : S_.BroadcastsInDim S50x32 (![] : Fin 0 → Fin S50x32.rank)
  transposes_S1x32_S32x1_1_0 : S1x32.Transposes [1, 0] S32x1
  shapeCasts_S50x1_S50 : S50x1.ShapeCasts S50
  dot_S4000x98_S98x128_S4000x128_1_0_0_1_n_n_wf : DotDims.WF S4000x98 S98x128 S4000x128 [1] [0] [0] [1] [] []
  gather_S20000x128_S160000x1_S160000x128_1_0_n_n_0_1_1128_wf : GatherDims.WF S20000x128 S160000x1 S160000x128 [1] [0] [] [0] [] 1 ![1, 128]
  dot_S8000x128_S128x128_S8000x128_1_0_0_1_n_n_wf : DotDims.WF S8000x128 S128x128 S8000x128 [1] [0] [0] [1] [] []
  dot_S8000x64_S64x128_S8000x128_1_0_0_1_n_n_wf : DotDims.WF S8000x64 S64x128 S8000x128 [1] [0] [0] [1] [] []
  dot_S8000x64_S64x64_S8000x64_1_0_0_1_n_n_wf : DotDims.WF S8000x64 S64x64 S8000x64 [1] [0] [0] [1] [] []
  scatter_S20000x128_S160000x1_S160000x128_1_0_0_1_wf : ScatterDims.WF S20000x128 S160000x1 S160000x128 [1] [0] [0] 1
  dot_S4000x128_S128x128_S4000x128_1_0_0_1_n_n_wf : DotDims.WF S4000x128 S128x128 S4000x128 [1] [0] [0] [1] [] []
  dot_S4000x50_S4000x128_S50x128_0_0_1_1_n_n_wf : DotDims.WF S4000x50 S4000x128 S50x128 [0] [0] [1] [1] [] []
  dot_S50x128_S128x64_S50x64_1_0_0_1_n_n_wf : DotDims.WF S50x128 S128x64 S50x64 [1] [0] [0] [1] [] []
  dot_S50x64_S64x32_S50x32_1_0_0_1_n_n_wf : DotDims.WF S50x64 S64x32 S50x32 [1] [0] [0] [1] [] []
  dot_S50x32_S32x1_S50x1_1_0_0_1_n_n_wf : DotDims.WF S50x32 S32x1 S50x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x98.size a ≤ S20000x98.size a
  hwx0_0 : ∀ i : grid0.Coords, EltTy.bits .f32 = 32 ∨ (Rect.block (s := S20000x98) S4000x98.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S98x128.size a ≤ S98x128.size a
  hwx0_1 : ∀ i : grid0.Coords, EltTy.bits .f32 = 32 ∨ (Rect.block (s := S98x128) S98x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S20000x128.size a
  hwx0_2 : ∀ i : grid0.Coords, EltTy.bits .f32 = 32 ∨ (Rect.block (s := S20000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S160000x128.size a
  hwx1_0 : ∀ i : grid1.Coords, EltTy.bits .bf16 = 32 ∨ (Rect.block (s := S160000x128) S8000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S160000x128.size a
  hwx1_1 : ∀ i : grid1.Coords, EltTy.bits .bf16 = 32 ∨ (Rect.block (s := S160000x128) S8000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S160000x1.size a
  hwx1_2 : ∀ i : grid1.Coords, EltTy.bits .f32 = 32 ∨ (Rect.block (s := S160000x1) S8000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S160000x64.size a
  hwx1_3 : ∀ i : grid1.Coords, EltTy.bits .bf16 = 32 ∨ (Rect.block (s := S160000x64) S8000x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S160000x64.size a
  hwx1_4 : ∀ i : grid1.Coords, EltTy.bits .bf16 = 32 ∨ (Rect.block (s := S160000x64) S8000x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384x128.size a ≤ S384x128.size a
  hwx1_5 : ∀ i : grid1.Coords, EltTy.bits .bf16 = 32 ∨ (Rect.block (s := S384x128) S384x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S384x128.size a ≤ S384x128.size a
  hwx1_6 : ∀ i : grid1.Coords, EltTy.bits .bf16 = 32 ∨ (Rect.block (s := S384x128) S384x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x128.size a ≤ S64x128.size a
  hwx1_7 : ∀ i : grid1.Coords, EltTy.bits .bf16 = 32 ∨ (Rect.block (s := S64x128) S64x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .bf16 = 32 ∨ (Rect.block (s := S64x64) S64x64.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x128.size a ≤ S64x128.size a
  hwx1_9 : ∀ i : grid1.Coords, EltTy.bits .bf16 = 32 ∨ (Rect.block (s := S64x128) S64x128.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8000x128.size a ≤ S160000x128.size a
  hwx1_10 : ∀ i : grid1.Coords, EltTy.bits .bf16 = 32 ∨ (Rect.block (s := S160000x128) S8000x128.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S20000x128.size a
  hwx2_0 : ∀ i : grid2.Coords, EltTy.bits .f32 = 32 ∨ (Rect.block (s := S20000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S20000x1.size a
  hwx2_1 : ∀ i : grid2.Coords, EltTy.bits .i32 = 32 ∨ (Rect.block (s := S20000x1) S4000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x50x128.size a ≤ S5x50x128.size a
  hwx2_5 : ∀ i : grid2.Coords, EltTy.bits .f32 = 32 ∨ (Rect.block (s := S5x50x128) S1x50x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S20000x128.size a
  hwx2_6 : ∀ i : grid2.Coords, EltTy.bits .f32 = 32 ∨ (Rect.block (s := S20000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S160000x128.size a
  hwx3_0 : ∀ i : grid3.Coords, EltTy.bits .bf16 = 32 ∨ (Rect.block (s := S160000x128) S8000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S160000x128.size a
  hwx3_1 : ∀ i : grid3.Coords, EltTy.bits .bf16 = 32 ∨ (Rect.block (s := S160000x128) S8000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x1.size a ≤ S160000x1.size a
  hwx3_2 : ∀ i : grid3.Coords, EltTy.bits .f32 = 32 ∨ (Rect.block (s := S160000x1) S8000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x64.size a ≤ S160000x64.size a
  hwx3_3 : ∀ i : grid3.Coords, EltTy.bits .bf16 = 32 ∨ (Rect.block (s := S160000x64) S8000x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x64.size a ≤ S160000x64.size a
  hwx3_4 : ∀ i : grid3.Coords, EltTy.bits .bf16 = 32 ∨ (Rect.block (s := S160000x64) S8000x64.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S384x128.size a ≤ S384x128.size a
  hwx3_5 : ∀ i : grid3.Coords, EltTy.bits .bf16 = 32 ∨ (Rect.block (s := S384x128) S384x128.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S384x128.size a ≤ S384x128.size a
  hwx3_6 : ∀ i : grid3.Coords, EltTy.bits .bf16 = 32 ∨ (Rect.block (s := S384x128) S384x128.size (cc3_transform_6 i) (hinb3_6 i)).WholeWords (EltTy.packing .bf16)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x128.size a ≤ S64x128.size a
  hwx3_7 : ∀ i : grid3.Coords, EltTy.bits .bf16 = 32 ∨ (Rect.block (s := S64x128) S64x128.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64x64.size a ≤ S64x64.size a
  hwx3_8 : ∀ i : grid3.Coords, EltTy.bits .bf16 = 32 ∨ (Rect.block (s := S64x64) S64x64.size (cc3_transform_8 i) (hinb3_8 i)).WholeWords (EltTy.packing .bf16)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x128.size a ≤ S64x128.size a
  hwx3_9 : ∀ i : grid3.Coords, EltTy.bits .bf16 = 32 ∨ (Rect.block (s := S64x128) S64x128.size (cc3_transform_9 i) (hinb3_9 i)).WholeWords (EltTy.packing .bf16)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S8000x128.size a ≤ S160000x128.size a
  hwx3_10 : ∀ i : grid3.Coords, EltTy.bits .bf16 = 32 ∨ (Rect.block (s := S160000x128) S8000x128.size (cc3_transform_10 i) (hinb3_10 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S20000x128.size a
  hwx4_0 : ∀ i : grid4.Coords, EltTy.bits .f32 = 32 ∨ (Rect.block (s := S20000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S20000x1.size a
  hwx4_1 : ∀ i : grid4.Coords, EltTy.bits .i32 = 32 ∨ (Rect.block (s := S20000x1) S4000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x50x128.size a ≤ S5x50x128.size a
  hwx4_5 : ∀ i : grid4.Coords, EltTy.bits .f32 = 32 ∨ (Rect.block (s := S5x50x128) S1x50x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S20000x128.size a
  hwx4_6 : ∀ i : grid4.Coords, EltTy.bits .f32 = 32 ∨ (Rect.block (s := S20000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x128.size a ≤ S160000x128.size a
  hwx5_0 : ∀ i : grid5.Coords, EltTy.bits .bf16 = 32 ∨ (Rect.block (s := S160000x128) S8000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x128.size a ≤ S160000x128.size a
  hwx5_1 : ∀ i : grid5.Coords, EltTy.bits .bf16 = 32 ∨ (Rect.block (s := S160000x128) S8000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8000x1.size a ≤ S160000x1.size a
  hwx5_2 : ∀ i : grid5.Coords, EltTy.bits .f32 = 32 ∨ (Rect.block (s := S160000x1) S8000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x64.size a ≤ S160000x64.size a
  hwx5_3 : ∀ i : grid5.Coords, EltTy.bits .bf16 = 32 ∨ (Rect.block (s := S160000x64) S8000x64.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8000x64.size a ≤ S160000x64.size a
  hwx5_4 : ∀ i : grid5.Coords, EltTy.bits .bf16 = 32 ∨ (Rect.block (s := S160000x64) S8000x64.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S384x128.size a ≤ S384x128.size a
  hwx5_5 : ∀ i : grid5.Coords, EltTy.bits .bf16 = 32 ∨ (Rect.block (s := S384x128) S384x128.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S384x128.size a ≤ S384x128.size a
  hwx5_6 : ∀ i : grid5.Coords, EltTy.bits .bf16 = 32 ∨ (Rect.block (s := S384x128) S384x128.size (cc5_transform_6 i) (hinb5_6 i)).WholeWords (EltTy.packing .bf16)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x128.size a ≤ S64x128.size a
  hwx5_7 : ∀ i : grid5.Coords, EltTy.bits .bf16 = 32 ∨ (Rect.block (s := S64x128) S64x128.size (cc5_transform_7 i) (hinb5_7 i)).WholeWords (EltTy.packing .bf16)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64x64.size a ≤ S64x64.size a
  hwx5_8 : ∀ i : grid5.Coords, EltTy.bits .bf16 = 32 ∨ (Rect.block (s := S64x64) S64x64.size (cc5_transform_8 i) (hinb5_8 i)).WholeWords (EltTy.packing .bf16)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S64x128.size a ≤ S64x128.size a
  hwx5_9 : ∀ i : grid5.Coords, EltTy.bits .bf16 = 32 ∨ (Rect.block (s := S64x128) S64x128.size (cc5_transform_9 i) (hinb5_9 i)).WholeWords (EltTy.packing .bf16)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S8000x128.size a ≤ S160000x128.size a
  hwx5_10 : ∀ i : grid5.Coords, EltTy.bits .bf16 = 32 ∨ (Rect.block (s := S160000x128) S8000x128.size (cc5_transform_10 i) (hinb5_10 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S20000x128.size a
  hwx6_0 : ∀ i : grid6.Coords, EltTy.bits .f32 = 32 ∨ (Rect.block (s := S20000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S20000x1.size a
  hwx6_1 : ∀ i : grid6.Coords, EltTy.bits .i32 = 32 ∨ (Rect.block (s := S20000x1) S4000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S1x50x128.size a ≤ S5x50x128.size a
  hwx6_5 : ∀ i : grid6.Coords, EltTy.bits .f32 = 32 ∨ (Rect.block (s := S5x50x128) S1x50x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x128.size a ≤ S20000x128.size a
  hwx6_6 : ∀ i : grid6.Coords, EltTy.bits .f32 = 32 ∨ (Rect.block (s := S20000x128) S4000x128.size (cc6_transform_6 i) (hinb6_6 i)).WholeWords (EltTy.packing .f32)

variable [Facts₀]

def dot_S4000x98_S98x128_S4000x128_1_0_0_1_n_n : DotDims S4000x98 S98x128 S4000x128 where
  lhsContracting := [1]
  rhsContracting := [0]
  lhsNonContracting := [0]
  rhsNonContracting := [1]
  lhsBatch := []
  rhsBatch := []
  wf := dot_S4000x98_S98x128_S4000x128_1_0_0_1_n_n_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x50_S4000x128_S50x128_0_0_1_1_n_n : DotDims S4000x50 S4000x128 S50x128 where
  lhsContracting := [0]
  rhsContracting := [0]
  lhsNonContracting := [1]
  rhsNonContracting := [1]
  lhsBatch := []
  rhsBatch := []
  wf := dot_S4000x50_S4000x128_S50x128_0_0_1_1_n_n_wf
def dot_S50x128_S128x64_S50x64_1_0_0_1_n_n : DotDims S50x128 S128x64 S50x64 where
  lhsContracting := [1]
  rhsContracting := [0]
  lhsNonContracting := [0]
  rhsNonContracting := [1]
  lhsBatch := []
  rhsBatch := []
  wf := dot_S50x128_S128x64_S50x64_1_0_0_1_n_n_wf
def dot_S50x64_S64x32_S50x32_1_0_0_1_n_n : DotDims S50x64 S64x32 S50x32 where
  lhsContracting := [1]
  rhsContracting := [0]
  lhsNonContracting := [0]
  rhsNonContracting := [1]
  lhsBatch := []
  rhsBatch := []
  wf := dot_S50x64_S64x32_S50x32_1_0_0_1_n_n_wf
def dot_S50x32_S32x1_S50x1_1_0_0_1_n_n : DotDims S50x32 S32x1 S50x1 where
  lhsContracting := [1]
  rhsContracting := [0]
  lhsNonContracting := [0]
  rhsNonContracting := [1]
  lhsBatch := []
  rhsBatch := []
  wf := dot_S50x32_S32x1_S50x1_1_0_0_1_n_n_wf

abbrev win0_0 : Pipeline.Window sig grid0 :=
  Pipeline.Window.ofSpec (Memref.whole main_arg0) S4000x98.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S98x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S8000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S8000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v36) S384x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S384x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S64x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S64x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v45) S8000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v53) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S1x50x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v70) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S8000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S8000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v19) S8000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v79) S384x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v81) S384x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v83) S64x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v85) S64x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v87) S64x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v88) S8000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v96) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v98) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v102) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v103_0) S1x50x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v103_1) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v113) S8000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v120) S8000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v2) S8000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v18) S8000x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v19) S8000x64.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v122) S384x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v124) S384x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v126) S64x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v128) S64x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v130) S64x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v131) S8000x128.size cc5_transform_10 reads5_10 true false 2 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.ofSpec (Memref.whole main_v139) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v3) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v141) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v143) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v145) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v146_0) S1x50x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v146_1) S4000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S20000x98 : Shape := ⟨2, ![20000, 98]⟩
abbrev S160000 : Shape := ⟨1, ![160000]⟩
abbrev S20000 : Shape := ⟨1, ![20000]⟩
abbrev S50 : Shape := ⟨1, ![50]⟩
abbrev S160000x64 : Shape := ⟨2, ![160000, 64]⟩
abbrev S128x98 : Shape := ⟨2, ![128, 98]⟩
abbrev S3x128x64 : Shape := ⟨3, ![3, 128, 64]⟩
abbrev S3x64x64 : Shape := ⟨3, ![3, 64, 64]⟩
abbrev S3x128x384 : Shape := ⟨3, ![3, 128, 384]⟩
abbrev S3x128x128 : Shape := ⟨3, ![3, 128, 128]⟩
abbrev S64x128 : Shape := ⟨2, ![64, 128]⟩
abbrev S32x64 : Shape := ⟨2, ![32, 64]⟩
abbrev S1x32 : Shape := ⟨2, ![1, 32]⟩
abbrev S98x128 : Shape := ⟨2, ![98, 128]⟩
abbrev S20000x128 : Shape := ⟨2, ![20000, 128]⟩
abbrev S_ : Shape := ⟨0, ![]⟩
abbrev S160000x1 : Shape := ⟨2, ![160000, 1]⟩
abbrev S50x128 : Shape := ⟨2, ![50, 128]⟩
abbrev S160000x128 : Shape := ⟨2, ![160000, 128]⟩
abbrev S160000x384 : Shape := ⟨2, ![160000, 384]⟩
abbrev S1x128x384 : Shape := ⟨3, ![1, 128, 384]⟩
abbrev S128x384 : Shape := ⟨2, ![128, 384]⟩
abbrev S384x128 : Shape := ⟨2, ![384, 128]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S1x128x128 : Shape := ⟨3, ![1, 128, 128]⟩
abbrev S128x128 : Shape := ⟨2, ![128, 128]⟩
abbrev S20000x1 : Shape := ⟨2, ![20000, 1]⟩
abbrev S50x64 : Shape := ⟨2, ![50, 64]⟩
abbrev S64x32 : Shape := ⟨2, ![64, 32]⟩
abbrev S50x32 : Shape := ⟨2, ![50, 32]⟩
abbrev S32x1 : Shape := ⟨2, ![32, 1]⟩
abbrev S50x1 : Shape := ⟨2, ![50, 1]⟩

abbrev nBuf : Space → Nat
  | .hbm => 482
  | .vmem => 0
  | .smem => 0
  | _ => 0

abbrev hbmTy0_0 (i : Nat) : BufTy := match i % 128 with
  | 0 => ⟨S20000x98, .f32⟩
  | 1 => ⟨S160000, .i32⟩
  | 2 => ⟨S160000, .i32⟩
  | 3 => ⟨S160000, .f32⟩
  | 4 => ⟨S20000, .i32⟩
  | 5 => ⟨S50, .f32⟩
  | 6 => ⟨S160000x64, .f32⟩
  | 7 => ⟨S160000x64, .f32⟩
  | 8 => ⟨S128x98, .f32⟩
  | 9 => ⟨S3x128x64, .f32⟩
  | 10 => ⟨S3x128x64, .f32⟩
  | 11 => ⟨S3x64x64, .f32⟩
  | 12 => ⟨S3x128x384, .f32⟩
  | 13 => ⟨S3x128x384, .f32⟩
  | 14 => ⟨S3x128x128, .f32⟩
  | 15 => ⟨S3x128x128, .f32⟩
  | 16 => ⟨S3x128x128, .f32⟩
  | 17 => ⟨S64x128, .f32⟩
  | 18 => ⟨S32x64, .f32⟩
  | 19 => ⟨S1x32, .f32⟩
  | 20 => ⟨S98x128, .f32⟩
  | 21 => ⟨S20000x128, .f32⟩
  | 22 => ⟨S20000x128, .f32⟩
  | 23 => ⟨S20000x128, .f32⟩
  | 24 => ⟨S_, .f32⟩
  | 25 => ⟨S20000x128, .f32⟩
  | 26 => ⟨S20000x128, .f32⟩
  | 27 => ⟨S_, .f32⟩
  | 28 => ⟨S20000x128, .f32⟩
  | 29 => ⟨S20000x128, .f32⟩
  | 30 => ⟨S160000x1, .f32⟩
  | 31 => ⟨S_, .f32⟩
  | 32 => ⟨S160000x1, .f32⟩
  | 33 => ⟨S160000x1, .i1⟩
  | 34 => ⟨S160000x1, .f32⟩
  | 35 => ⟨S_, .f32⟩
  | 36 => ⟨S50x128, .f32⟩
  | 37 => ⟨S_, .i32⟩
  | 38 => ⟨S160000, .i32⟩
  | 39 => ⟨S160000, .i1⟩
  | 40 => ⟨S_, .i32⟩
  | 41 => ⟨S160000, .i32⟩
  | 42 => ⟨S160000, .i32⟩
  | 43 => ⟨S160000, .i32⟩
  | 44 => ⟨S160000x1, .i32⟩
  | 45 => ⟨S160000x128, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x128, .f32⟩
  | 55 => ⟨S160000x128, .f32⟩
  | 56 => ⟨S160000x128, .f32⟩
  | 57 => ⟨S160000x128, .f32⟩
  | 58 => ⟨S160000x384, .f32⟩
  | 59 => ⟨S1x128x384, .f32⟩
  | 60 => ⟨S128x384, .f32⟩
  | 61 => ⟨S384x128, .f32⟩
  | 62 => ⟨S160000x128, .f32⟩
  | 63 => ⟨S160000x128, .f32⟩
  | 64 => ⟨S160000x128, .f32⟩
  | 65 => ⟨S_, .f32⟩
  | 66 => ⟨S160000x128, .f32⟩
  | 67 => ⟨S160000x128, .f32⟩
  | 68 => ⟨S_, .f32⟩
  | 69 => ⟨S160000x128, .f32⟩
  | 70 => ⟨S160000x128, .f32⟩
  | 71 => ⟨S1x128x384, .f32⟩
  | 72 => ⟨S128x384, .f32⟩
  | 73 => ⟨S384x128, .f32⟩
  | 74 => ⟨S160000x128, .f32⟩
  | 75 => ⟨S_, .f32⟩
  | 76 => ⟨S160000x128, .f32⟩
  | 77 => ⟨S160000x128, .i1⟩
  | 78 => ⟨S_, .f32⟩
  | 79 => ⟨S160000x128, .f32⟩
  | 80 => ⟨S160000x128, .i1⟩
  | 81 => ⟨S_, .f32⟩
  | 82 => ⟨S_, .f32⟩
  | 83 => ⟨S160000x128, .f32⟩
  | 84 => ⟨S160000x128, .f32⟩
  | 85 => ⟨S160000x128, .f32⟩
  | 86 => ⟨S_, .f32⟩
  | 87 => ⟨S160000x128, .f32⟩
  | 88 => ⟨S160000x128, .f32⟩
  | 89 => ⟨S160000x128, .f32⟩
  | 90 => ⟨S1x128x64, .f32⟩
  | 91 => ⟨S128x64, .f32⟩
  | 92 => ⟨S64x128, .f32⟩
  | 93 => ⟨S160000x128, .f32⟩
  | 94 => ⟨S1x64x64, .f32⟩
  | 95 => ⟨S64x64, .f32⟩
  | 96 => ⟨S64x64, .f32⟩
  | 97 => ⟨S160000x64, .f32⟩
  | 98 => ⟨S160000x64, .f32⟩
  | 99 => ⟨S160000x64, .f32⟩
  | 100 => ⟨S_, .f32⟩
  | 101 => ⟨S160000x64, .f32⟩
  | 102 => ⟨S160000x64, .f32⟩
  | 103 => ⟨S_, .f32⟩
  | 104 => ⟨S160000x64, .f32⟩
  | 105 => ⟨S160000x64, .f32⟩
  | 106 => ⟨S160000x64, .f32⟩
  | 107 => ⟨S1x128x64, .f32⟩
  | 108 => ⟨S128x64, .f32⟩
  | 109 => ⟨S64x128, .f32⟩
  | 110 => ⟨S160000x128, .f32⟩
  | 111 => ⟨S160000x128, .f32⟩
  | 112 => ⟨S160000x128, .f32⟩
  | 113 => ⟨S160000x128, .f32⟩
  | 114 => ⟨S160000x128, .f32⟩
  | 115 => ⟨S160000x128, .f32⟩
  | 116 => ⟨S_, .i32⟩
  | 117 => ⟨S160000, .i32⟩
  | 118 => ⟨S160000, .i1⟩
  | 119 => ⟨S_, .i32⟩
  | 120 => ⟨S160000, .i32⟩
  | 121 => ⟨S160000, .i32⟩
  | 122 => ⟨S160000, .i32⟩
  | 123 => ⟨S160000x1, .i32⟩
  | 124 => ⟨S20000x128, .f32⟩
  | 125 => ⟨S1x128x128, .f32⟩
  | 126 => ⟨S128x128, .f32⟩
  | 127 => ⟨S128x128, .f32⟩
  | _ => ⟨S20000x98, .f32⟩

abbrev hbmTy0_1 (i : Nat) : BufTy := match i % 128 with
  | 0 => ⟨S20000x128, .f32⟩
  | 1 => ⟨S_, .f32⟩
  | 2 => ⟨S20000x128, .f32⟩
  | 3 => ⟨S20000x128, .i1⟩
  | 4 => ⟨S_, .f32⟩
  | 5 => ⟨S20000x128, .f32⟩
  | 6 => ⟨S20000x128, .i1⟩
  | 7 => ⟨S_, .f32⟩
  | 8 => ⟨S_, .f32⟩
  | 9 => ⟨S20000x128, .f32⟩
  | 10 => ⟨S20000x128, .f32⟩
  | 11 => ⟨S20000x128, .f32⟩
  | 12 => ⟨S_, .f32⟩
  | 13 => ⟨S20000x128, .f32⟩
  | 14 => ⟨S20000x128, .f32⟩
  | 15 => ⟨S20000x128, .f32⟩
  | 16 => ⟨S1x128x128, .f32⟩
  | 17 => ⟨S128x128, .f32⟩
  | 18 => ⟨S128x128, .f32⟩
  | 19 => ⟨S20000x128, .f32⟩
  | 20 => ⟨S20000x128, .f32⟩
  | 21 => ⟨S_, .f32⟩
  | 22 => ⟨S50x128, .f32⟩
  | 23 => ⟨S20000x1, .i32⟩
  | 24 => ⟨S50x128, .f32⟩
  | 25 => ⟨S50x128, .f32⟩
  | 26 => ⟨S1x128x128, .f32⟩
  | 27 => ⟨S128x128, .f32⟩
  | 28 => ⟨S128x128, .f32⟩
  | 29 => ⟨S20000x128, .f32⟩
  | 30 => ⟨S_, .f32⟩
  | 31 => ⟨S20000x128, .f32⟩
  | 32 => ⟨S20000x128, .i1⟩
  | 33 => ⟨S_, .f32⟩
  | 34 => ⟨S20000x128, .f32⟩
  | 35 => ⟨S20000x128, .i1⟩
  | 36 => ⟨S_, .f32⟩
  | 37 => ⟨S_, .f32⟩
  | 38 => ⟨S20000x128, .f32⟩
  | 39 => ⟨S20000x128, .f32⟩
  | 40 => ⟨S20000x128, .f32⟩
  | 41 => ⟨S_, .f32⟩
  | 42 => ⟨S20000x128, .f32⟩
  | 43 => ⟨S20000x128, .f32⟩
  | 44 => ⟨S20000x128, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000x128, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000x128, .f32⟩
  | 63 => ⟨S160000x128, .f32⟩
  | 64 => ⟨S160000x128, .f32⟩
  | 65 => ⟨S160000x128, .f32⟩
  | 66 => ⟨S160000x384, .f32⟩
  | 67 => ⟨S1x128x384, .f32⟩
  | 68 => ⟨S128x384, .f32⟩
  | 69 => ⟨S384x128, .f32⟩
  | 70 => ⟨S160000x128, .f32⟩
  | 71 => ⟨S160000x128, .f32⟩
  | 72 => ⟨S160000x128, .f32⟩
  | 73 => ⟨S_, .f32⟩
  | 74 => ⟨S160000x128, .f32⟩
  | 75 => ⟨S160000x128, .f32⟩
  | 76 => ⟨S_, .f32⟩
  | 77 => ⟨S160000x128, .f32⟩
  | 78 => ⟨S160000x128, .f32⟩
  | 79 => ⟨S1x128x384, .f32⟩
  | 80 => ⟨S128x384, .f32⟩
  | 81 => ⟨S384x128, .f32⟩
  | 82 => ⟨S160000x128, .f32⟩
  | 83 => ⟨S_, .f32⟩
  | 84 => ⟨S160000x128, .f32⟩
  | 85 => ⟨S160000x128, .i1⟩
  | 86 => ⟨S_, .f32⟩
  | 87 => ⟨S160000x128, .f32⟩
  | 88 => ⟨S160000x128, .i1⟩
  | 89 => ⟨S_, .f32⟩
  | 90 => ⟨S_, .f32⟩
  | 91 => ⟨S160000x128, .f32⟩
  | 92 => ⟨S160000x128, .f32⟩
  | 93 => ⟨S160000x128, .f32⟩
  | 94 => ⟨S_, .f32⟩
  | 95 => ⟨S160000x128, .f32⟩
  | 96 => ⟨S160000x128, .f32⟩
  | 97 => ⟨S160000x128, .f32⟩
  | 98 => ⟨S1x128x64, .f32⟩
  | 99 => ⟨S128x64, .f32⟩
  | 100 => ⟨S64x128, .f32⟩
  | 101 => ⟨S160000x128, .f32⟩
  | 102 => ⟨S1x64x64, .f32⟩
  | 103 => ⟨S64x64, .f32⟩
  | 104 => ⟨S64x64, .f32⟩
  | 105 => ⟨S160000x64, .f32⟩
  | 106 => ⟨S160000x64, .f32⟩
  | 107 => ⟨S160000x64, .f32⟩
  | 108 => ⟨S_, .f32⟩
  | 109 => ⟨S160000x64, .f32⟩
  | 110 => ⟨S160000x64, .f32⟩
  | 111 => ⟨S_, .f32⟩
  | 112 => ⟨S160000x64, .f32⟩
  | 113 => ⟨S160000x64, .f32⟩
  | 114 => ⟨S160000x64, .f32⟩
  | 115 => ⟨S1x128x64, .f32⟩
  | 116 => ⟨S128x64, .f32⟩
  | 117 => ⟨S64x128, .f32⟩
  | 118 => ⟨S160000x128, .f32⟩
  | 119 => ⟨S160000x128, .f32⟩
  | 120 => ⟨S160000x128, .f32⟩
  | 121 => ⟨S160000x128, .f32⟩
  | 122 => ⟨S160000x128, .f32⟩
  | 123 => ⟨S160000x128, .f32⟩
  | 124 => ⟨S_, .i32⟩
  | 125 => ⟨S160000, .i32⟩
  | 126 => ⟨S160000, .i1⟩
  | 127 => ⟨S_, .i32⟩
  | _ => ⟨S20000x98, .f32⟩

abbrev hbmTy0_2 (i : Nat) : BufTy := match i % 128 with
  | 0 => ⟨S160000, .i32⟩
  | 1 => ⟨S160000, .i32⟩
  | 2 => ⟨S160000, .i32⟩
  | 3 => ⟨S160000x1, .i32⟩
  | 4 => ⟨S20000x128, .f32⟩
  | 5 => ⟨S1x128x128, .f32⟩
  | 6 => ⟨S128x128, .f32⟩
  | 7 => ⟨S128x128, .f32⟩
  | 8 => ⟨S20000x128, .f32⟩
  | 9 => ⟨S_, .f32⟩
  | 10 => ⟨S20000x128, .f32⟩
  | 11 => ⟨S20000x128, .i1⟩
  | 12 => ⟨S_, .f32⟩
  | 13 => ⟨S20000x128, .f32⟩
  | 14 => ⟨S20000x128, .i1⟩
  | 15 => ⟨S_, .f32⟩
  | 16 => ⟨S_, .f32⟩
  | 17 => ⟨S20000x128, .f32⟩
  | 18 => ⟨S20000x128, .f32⟩
  | 19 => ⟨S20000x128, .f32⟩
  | 20 => ⟨S_, .f32⟩
  | 21 => ⟨S20000x128, .f32⟩
  | 22 => ⟨S20000x128, .f32⟩
  | 23 => ⟨S20000x128, .f32⟩
  | 24 => ⟨S1x128x128, .f32⟩
  | 25 => ⟨S128x128, .f32⟩
  | 26 => ⟨S128x128, .f32⟩
  | 27 => ⟨S20000x128, .f32⟩
  | 28 => ⟨S20000x128, .f32⟩
  | 29 => ⟨S_, .f32⟩
  | 30 => ⟨S50x128, .f32⟩
  | 31 => ⟨S20000x1, .i32⟩
  | 32 => ⟨S50x128, .f32⟩
  | 33 => ⟨S50x128, .f32⟩
  | 34 => ⟨S1x128x128, .f32⟩
  | 35 => ⟨S128x128, .f32⟩
  | 36 => ⟨S128x128, .f32⟩
  | 37 => ⟨S20000x128, .f32⟩
  | 38 => ⟨S_, .f32⟩
  | 39 => ⟨S20000x128, .f32⟩
  | 40 => ⟨S20000x128, .i1⟩
  | 41 => ⟨S_, .f32⟩
  | 42 => ⟨S20000x128, .f32⟩
  | 43 => ⟨S20000x128, .i1⟩
  | 44 => ⟨S_, .f32⟩
  | 45 => ⟨S_, .f32⟩
  | 46 => ⟨S20000x128, .f32⟩
  | 47 => ⟨S20000x128, .f32⟩
  | 48 => ⟨S20000x128, .f32⟩
  | 49 => ⟨S_, .f32⟩
  | 50 => ⟨S20000x128, .f32⟩
  | 51 => ⟨S20000x128, .f32⟩
  | 52 => ⟨S20000x128, .f32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x128, .f32⟩
  | 62 => ⟨S_, .i32⟩
  | 63 => ⟨S160000, .i32⟩
  | 64 => ⟨S160000, .i1⟩
  | 65 => ⟨S_, .i32⟩
  | 66 => ⟨S160000, .i32⟩
  | 67 => ⟨S160000, .i32⟩
  | 68 => ⟨S160000, .i32⟩
  | 69 => ⟨S160000x1, .i32⟩
  | 70 => ⟨S160000x128, .f32⟩
  | 71 => ⟨S160000x128, .f32⟩
  | 72 => ⟨S160000x128, .f32⟩
  | 73 => ⟨S160000x128, .f32⟩
  | 74 => ⟨S160000x384, .f32⟩
  | 75 => ⟨S1x128x384, .f32⟩
  | 76 => ⟨S128x384, .f32⟩
  | 77 => ⟨S384x128, .f32⟩
  | 78 => ⟨S160000x128, .f32⟩
  | 79 => ⟨S160000x128, .f32⟩
  | 80 => ⟨S160000x128, .f32⟩
  | 81 => ⟨S_, .f32⟩
  | 82 => ⟨S160000x128, .f32⟩
  | 83 => ⟨S160000x128, .f32⟩
  | 84 => ⟨S_, .f32⟩
  | 85 => ⟨S160000x128, .f32⟩
  | 86 => ⟨S160000x128, .f32⟩
  | 87 => ⟨S1x128x384, .f32⟩
  | 88 => ⟨S128x384, .f32⟩
  | 89 => ⟨S384x128, .f32⟩
  | 90 => ⟨S160000x128, .f32⟩
  | 91 => ⟨S_, .f32⟩
  | 92 => ⟨S160000x128, .f32⟩
  | 93 => ⟨S160000x128, .i1⟩
  | 94 => ⟨S_, .f32⟩
  | 95 => ⟨S160000x128, .f32⟩
  | 96 => ⟨S160000x128, .i1⟩
  | 97 => ⟨S_, .f32⟩
  | 98 => ⟨S_, .f32⟩
  | 99 => ⟨S160000x128, .f32⟩
  | 100 => ⟨S160000x128, .f32⟩
  | 101 => ⟨S160000x128, .f32⟩
  | 102 => ⟨S_, .f32⟩
  | 103 => ⟨S160000x128, .f32⟩
  | 104 => ⟨S160000x128, .f32⟩
  | 105 => ⟨S160000x128, .f32⟩
  | 106 => ⟨S1x128x64, .f32⟩
  | 107 => ⟨S128x64, .f32⟩
  | 108 => ⟨S64x128, .f32⟩
  | 109 => ⟨S160000x128, .f32⟩
  | 110 => ⟨S1x64x64, .f32⟩
  | 111 => ⟨S64x64, .f32⟩
  | 112 => ⟨S64x64, .f32⟩
  | 113 => ⟨S160000x64, .f32⟩
  | 114 => ⟨S160000x64, .f32⟩
  | 115 => ⟨S160000x64, .f32⟩
  | 116 => ⟨S_, .f32⟩
  | 117 => ⟨S160000x64, .f32⟩
  | 118 => ⟨S160000x64, .f32⟩
  | 119 => ⟨S_, .f32⟩
  | 120 => ⟨S160000x64, .f32⟩
  | 121 => ⟨S160000x64, .f32⟩
  | 122 => ⟨S160000x64, .f32⟩
  | 123 => ⟨S1x128x64, .f32⟩
  | 124 => ⟨S128x64, .f32⟩
  | 125 => ⟨S64x128, .f32⟩
  | 126 => ⟨S160000x128, .f32⟩
  | 127 => ⟨S160000x128, .f32⟩
  | _ => ⟨S20000x98, .f32⟩

abbrev hbmTy0_3 (i : Nat) : BufTy := match i % 128 with
  | 0 => ⟨S160000x128, .f32⟩
  | 1 => ⟨S160000x128, .f32⟩
  | 2 => ⟨S160000x128, .f32⟩
  | 3 => ⟨S160000x128, .f32⟩
  | 4 => ⟨S_, .i32⟩
  | 5 => ⟨S160000, .i32⟩
  | 6 => ⟨S160000, .i1⟩
  | 7 => ⟨S_, .i32⟩
  | 8 => ⟨S160000, .i32⟩
  | 9 => ⟨S160000, .i32⟩
  | 10 => ⟨S160000, .i32⟩
  | 11 => ⟨S160000x1, .i32⟩
  | 12 => ⟨S20000x128, .f32⟩
  | 13 => ⟨S1x128x128, .f32⟩
  | 14 => ⟨S128x128, .f32⟩
  | 15 => ⟨S128x128, .f32⟩
  | 16 => ⟨S20000x128, .f32⟩
  | 17 => ⟨S_, .f32⟩
  | 18 => ⟨S20000x128, .f32⟩
  | 19 => ⟨S20000x128, .i1⟩
  | 20 => ⟨S_, .f32⟩
  | 21 => ⟨S20000x128, .f32⟩
  | 22 => ⟨S20000x128, .i1⟩
  | 23 => ⟨S_, .f32⟩
  | 24 => ⟨S_, .f32⟩
  | 25 => ⟨S20000x128, .f32⟩
  | 26 => ⟨S20000x128, .f32⟩
  | 27 => ⟨S20000x128, .f32⟩
  | 28 => ⟨S_, .f32⟩
  | 29 => ⟨S20000x128, .f32⟩
  | 30 => ⟨S20000x128, .f32⟩
  | 31 => ⟨S20000x128, .f32⟩
  | 32 => ⟨S1x128x128, .f32⟩
  | 33 => ⟨S128x128, .f32⟩
  | 34 => ⟨S128x128, .f32⟩
  | 35 => ⟨S20000x128, .f32⟩
  | 36 => ⟨S20000x128, .f32⟩
  | 37 => ⟨S_, .f32⟩
  | 38 => ⟨S50x128, .f32⟩
  | 39 => ⟨S20000x1, .i32⟩
  | 40 => ⟨S50x128, .f32⟩
  | 41 => ⟨S50x128, .f32⟩
  | 42 => ⟨S1x128x128, .f32⟩
  | 43 => ⟨S128x128, .f32⟩
  | 44 => ⟨S128x128, .f32⟩
  | 45 => ⟨S20000x128, .f32⟩
  | 46 => ⟨S_, .f32⟩
  | 47 => ⟨S20000x128, .f32⟩
  | 48 => ⟨S20000x128, .i1⟩
  | 49 => ⟨S_, .f32⟩
  | 50 => ⟨S20000x128, .f32⟩
  | 51 => ⟨S20000x128, .i1⟩
  | 52 => ⟨S_, .f32⟩
  | 53 => ⟨S_, .f32⟩
  | 54 => ⟨S20000x128, .f32⟩
  | 55 => ⟨S20000x128, .f32⟩
  | 56 => ⟨S20000x128, .f32⟩
  | 57 => ⟨S_, .f32⟩
  | 58 => ⟨S20000x128, .f32⟩
  | 59 => ⟨S20000x128, .f32⟩
  | 60 => ⟨S20000x128, .f32⟩
  | 61 => ⟨S128x64, .f32⟩
  | 62 => ⟨S50x64, .f32⟩
  | 63 => ⟨S_, .f32⟩
  | 64 => ⟨S50x64, .f32⟩
  | 65 => ⟨S50x64, .i1⟩
  | 66 => ⟨S_, .f32⟩
  | 67 => ⟨S50x64, .f32⟩
  | 68 => ⟨S50x64, .i1⟩
  | 69 => ⟨S_, .f32⟩
  | 70 => ⟨S_, .f32⟩
  | 71 => ⟨S50x64, .f32⟩
  | 72 => ⟨S50x64, .f32⟩
  | 73 => ⟨S50x64, .f32⟩
  | 74 => ⟨S_, .f32⟩
  | 75 => ⟨S50x64, .f32⟩
  | 76 => ⟨S50x64, .f32⟩
  | 77 => ⟨S50x64, .f32⟩
  | 78 => ⟨S64x32, .f32⟩
  | 79 => ⟨S50x32, .f32⟩
  | 80 => ⟨S_, .f32⟩
  | 81 => ⟨S50x32, .f32⟩
  | 82 => ⟨S50x32, .i1⟩
  | 83 => ⟨S_, .f32⟩
  | 84 => ⟨S50x32, .f32⟩
  | 85 => ⟨S50x32, .i1⟩
  | 86 => ⟨S_, .f32⟩
  | 87 => ⟨S_, .f32⟩
  | 88 => ⟨S50x32, .f32⟩
  | 89 => ⟨S50x32, .f32⟩
  | 90 => ⟨S50x32, .f32⟩
  | 91 => ⟨S_, .f32⟩
  | 92 => ⟨S50x32, .f32⟩
  | 93 => ⟨S50x32, .f32⟩
  | 94 => ⟨S50x32, .f32⟩
  | 95 => ⟨S32x1, .f32⟩
  | 96 => ⟨S50x1, .f32⟩
  | 97 => ⟨S50, .f32⟩
  | _ => ⟨S20000x98, .f32⟩

abbrev hbmTy (i : Nat) : BufTy := match i / 128 with
  | 0 => hbmTy0_0 i
  | 1 => hbmTy0_1 i
  | 2 => hbmTy0_2 i
  | 3 => hbmTy0_3 i
  | _ => ⟨S20000x98, .f32⟩

abbrev bufTy : (tb : Table) → Fin (tcTables nBuf tb) → BufTy
  | .hbm, ⟨i, _⟩ => hbmTy i
  | _, _ => ⟨S20000x98, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_c : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_cst_0 : Ref sig .tc := ⟨.hbm, 78, rfl⟩
abbrev main_call0_v2 : Ref sig .tc := ⟨.hbm, 79, rfl⟩
abbrev main_call0_v3 : Ref sig .tc := ⟨.hbm, 80, rfl⟩
abbrev main_call0_cst_1 : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_v4 : Ref sig .tc := ⟨.hbm, 84, rfl⟩
abbrev main_call0_v5 : Ref sig .tc := ⟨.hbm, 85, rfl⟩
abbrev main_call0_cst_2 : Ref sig .tc := ⟨.hbm, 86, rfl⟩
abbrev main_call0_v6 : Ref sig .tc := ⟨.hbm, 87, rfl⟩
abbrev main_call0_v7 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_8 : Ref sig .tc := ⟨.hbm, 100, rfl⟩
abbrev main_v56 : Ref sig .tc := ⟨.hbm, 101, rfl⟩
abbrev main_v57 : Ref sig .tc := ⟨.hbm, 102, rfl⟩
abbrev main_cst_9 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_10 : Ref sig .tc := ⟨.hbm, 116, rfl⟩
abbrev main_v70 : Ref sig .tc := ⟨.hbm, 117, rfl⟩
abbrev main_v71 : Ref sig .tc := ⟨.hbm, 118, rfl⟩
abbrev main_c_11 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_call1_cst : Ref sig .tc := ⟨.hbm, 129, rfl⟩
abbrev main_call1_v0 : Ref sig .tc := ⟨.hbm, 130, rfl⟩
abbrev main_call1_v1 : Ref sig .tc := ⟨.hbm, 131, rfl⟩
abbrev main_call1_cst_0 : Ref sig .tc := ⟨.hbm, 132, rfl⟩
abbrev main_call1_v2 : Ref sig .tc := ⟨.hbm, 133, rfl⟩
abbrev main_call1_v3 : Ref sig .tc := ⟨.hbm, 134, rfl⟩
abbrev main_call1_cst_1 : Ref sig .tc := ⟨.hbm, 135, rfl⟩
abbrev main_call1_call0_v0 : Ref sig .tc := ⟨.hbm, 136, rfl⟩
abbrev main_call1_call0_v1 : Ref sig .tc := ⟨.hbm, 137, rfl⟩
abbrev main_call1_v4 : Ref sig .tc := ⟨.hbm, 138, rfl⟩
abbrev main_call1_v5 : Ref sig .tc := ⟨.hbm, 139, rfl⟩
abbrev main_call1_cst_2 : Ref sig .tc := ⟨.hbm, 140, rfl⟩
abbrev main_call1_v6 : Ref sig .tc := ⟨.hbm, 141, rfl⟩
abbrev main_call1_v7 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_12 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_cst_0 : Ref sig .tc := ⟨.hbm, 161, rfl⟩
abbrev main_call2_v2 : Ref sig .tc := ⟨.hbm, 162, rfl⟩
abbrev main_call2_v3 : Ref sig .tc := ⟨.hbm, 163, rfl⟩
abbrev main_call2_cst_1 : Ref sig .tc := ⟨.hbm, 164, rfl⟩
abbrev main_call2_call0_v0 : Ref sig .tc := ⟨.hbm, 165, rfl⟩
abbrev main_call2_call0_v1 : Ref sig .tc := ⟨.hbm, 166, rfl⟩
abbrev main_call2_v4 : Ref sig .tc := ⟨.hbm, 167, rfl⟩
abbrev main_call2_v5 : Ref sig .tc := ⟨.hbm, 168, rfl⟩
abbrev main_call2_cst_2 : Ref sig .tc := ⟨.hbm, 169, rfl⟩
abbrev main_call2_v6 : Ref sig .tc := ⟨.hbm, 170, rfl⟩
abbrev main_call2_v7 : Ref sig .tc := ⟨.hbm, 171, rfl⟩
abbrev main_v95 : Ref sig .tc := ⟨.hbm, 172, rfl⟩
abbrev main_c_13 : Ref sig .tc := ⟨.hbm, 173, rfl⟩
abbrev main_v96 : Ref sig .tc := ⟨.hbm, 174, rfl⟩
abbrev main_v97 : Ref sig .tc := ⟨.hbm, 175, rfl⟩
abbrev main_c_14 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_c_15 : Ref sig .tc := ⟨.hbm, 182, rfl⟩
abbrev main_v103 : Ref sig .tc := ⟨.hbm, 183, rfl⟩
abbrev main_v104 : Ref sig .tc := ⟨.hbm, 184, rfl⟩
abbrev main_c_16 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_cst_17 : Ref sig .tc := ⟨.hbm, 201, rfl⟩
abbrev main_v120 : Ref sig .tc := ⟨.hbm, 202, rfl⟩
abbrev main_v121 : Ref sig .tc := ⟨.hbm, 203, rfl⟩
abbrev main_cst_18 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_call3_cst : Ref sig .tc := ⟨.hbm, 211, rfl⟩
abbrev main_call3_v0 : Ref sig .tc := ⟨.hbm, 212, rfl⟩
abbrev main_call3_v1 : Ref sig .tc := ⟨.hbm, 213, rfl⟩
abbrev main_call3_cst_0 : Ref sig .tc := ⟨.hbm, 214, rfl⟩
abbrev main_call3_v2 : Ref sig .tc := ⟨.hbm, 215, rfl⟩
abbrev main_call3_v3 : Ref sig .tc := ⟨.hbm, 216, rfl⟩
abbrev main_call3_cst_1 : Ref sig .tc := ⟨.hbm, 217, rfl⟩
abbrev main_call3_call0_v0 : Ref sig .tc := ⟨.hbm, 218, rfl⟩
abbrev main_call3_call0_v1 : Ref sig .tc := ⟨.hbm, 219, rfl⟩
abbrev main_call3_v4 : Ref sig .tc := ⟨.hbm, 220, rfl⟩
abbrev main_call3_v5 : Ref sig .tc := ⟨.hbm, 221, rfl⟩
abbrev main_call3_cst_2 : Ref sig .tc := ⟨.hbm, 222, rfl⟩
abbrev main_call3_v6 : Ref sig .tc := ⟨.hbm, 223, rfl⟩
abbrev main_call3_v7 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_cst_19 : Ref sig .tc := ⟨.hbm, 236, rfl⟩
abbrev main_v139 : Ref sig .tc := ⟨.hbm, 237, rfl⟩
abbrev main_v140 : Ref sig .tc := ⟨.hbm, 238, rfl⟩
abbrev main_cst_20 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_c_21 : Ref sig .tc := ⟨.hbm, 252, rfl⟩
abbrev main_v153 : Ref sig .tc := ⟨.hbm, 253, rfl⟩
abbrev main_v154 : Ref sig .tc := ⟨.hbm, 254, rfl⟩
abbrev main_c_22 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_call4_cst : Ref sig .tc := ⟨.hbm, 265, rfl⟩
abbrev main_call4_v0 : Ref sig .tc := ⟨.hbm, 266, rfl⟩
abbrev main_call4_v1 : Ref sig .tc := ⟨.hbm, 267, rfl⟩
abbrev main_call4_cst_0 : Ref sig .tc := ⟨.hbm, 268, rfl⟩
abbrev main_call4_v2 : Ref sig .tc := ⟨.hbm, 269, rfl⟩
abbrev main_call4_v3 : Ref sig .tc := ⟨.hbm, 270, rfl⟩
abbrev main_call4_cst_1 : Ref sig .tc := ⟨.hbm, 271, rfl⟩
abbrev main_call4_call0_v0 : Ref sig .tc := ⟨.hbm, 272, rfl⟩
abbrev main_call4_call0_v1 : Ref sig .tc := ⟨.hbm, 273, rfl⟩
abbrev main_call4_v4 : Ref sig .tc := ⟨.hbm, 274, rfl⟩
abbrev main_call4_v5 : Ref sig .tc := ⟨.hbm, 275, rfl⟩
abbrev main_call4_cst_2 : Ref sig .tc := ⟨.hbm, 276, rfl⟩
abbrev main_call4_v6 : Ref sig .tc := ⟨.hbm, 277, rfl⟩
abbrev main_call4_v7 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_cst_23 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_call5_cst : Ref sig .tc := ⟨.hbm, 294, rfl⟩
abbrev main_call5_v0 : Ref sig .tc := ⟨.hbm, 295, rfl⟩
abbrev main_call5_v1 : Ref sig .tc := ⟨.hbm, 296, rfl⟩
abbrev main_call5_cst_0 : Ref sig .tc := ⟨.hbm, 297, rfl⟩
abbrev main_call5_v2 : Ref sig .tc := ⟨.hbm, 298, rfl⟩
abbrev main_call5_v3 : Ref sig .tc := ⟨.hbm, 299, rfl⟩
abbrev main_call5_cst_1 : Ref sig .tc := ⟨.hbm, 300, rfl⟩
abbrev main_call5_call0_v0 : Ref sig .tc := ⟨.hbm, 301, rfl⟩
abbrev main_call5_call0_v1 : Ref sig .tc := ⟨.hbm, 302, rfl⟩
abbrev main_call5_v4 : Ref sig .tc := ⟨.hbm, 303, rfl⟩
abbrev main_call5_v5 : Ref sig .tc := ⟨.hbm, 304, rfl⟩
abbrev main_call5_cst_2 : Ref sig .tc := ⟨.hbm, 305, rfl⟩
abbrev main_call5_v6 : Ref sig .tc := ⟨.hbm, 306, rfl⟩
abbrev main_call5_v7 : Ref sig .tc := ⟨.hbm, 307, rfl⟩
abbrev main_v178 : Ref sig .tc := ⟨.hbm, 308, rfl⟩
abbrev main_c_24 : Ref sig .tc := ⟨.hbm, 309, rfl⟩
abbrev main_v179 : Ref sig .tc := ⟨.hbm, 310, rfl⟩
abbrev main_v180 : Ref sig .tc := ⟨.hbm, 311, rfl⟩
abbrev main_c_25 : Ref sig .tc := ⟨.hbm, 312, rfl⟩
abbrev main_v181 : Ref sig .tc := ⟨.hbm, 313, rfl⟩
abbrev main_v182 : Ref sig .tc := ⟨.hbm, 314, rfl⟩
abbrev main_v183 : Ref sig .tc := ⟨.hbm, 315, rfl⟩
abbrev main_v184 : Ref sig .tc := ⟨.hbm, 316, rfl⟩
abbrev main_v185 : Ref sig .tc := ⟨.hbm, 317, rfl⟩
abbrev main_c_26 : Ref sig .tc := ⟨.hbm, 318, rfl⟩
abbrev main_v186 : Ref sig .tc := ⟨.hbm, 319, rfl⟩
abbrev main_v187 : Ref sig .tc := ⟨.hbm, 320, rfl⟩
abbrev main_c_27 : Ref sig .tc := ⟨.hbm, 321, rfl⟩
abbrev main_v188 : Ref sig .tc := ⟨.hbm, 322, rfl⟩
abbrev main_v189 : Ref sig .tc := ⟨.hbm, 323, rfl⟩
abbrev main_v190 : Ref sig .tc := ⟨.hbm, 324, rfl⟩
abbrev main_v191 : Ref sig .tc := ⟨.hbm, 325, rfl⟩
abbrev main_v192 : Ref sig .tc := ⟨.hbm, 326, rfl⟩
abbrev main_v193 : Ref sig .tc := ⟨.hbm, 327, rfl⟩
abbrev main_v194 : Ref sig .tc := ⟨.hbm, 328, rfl⟩
abbrev main_v195 : Ref sig .tc := ⟨.hbm, 329, rfl⟩
abbrev main_v196 : Ref sig .tc := ⟨.hbm, 330, rfl⟩
abbrev main_v197 : Ref sig .tc := ⟨.hbm, 331, rfl⟩
abbrev main_v198 : Ref sig .tc := ⟨.hbm, 332, rfl⟩
abbrev main_v199 : Ref sig .tc := ⟨.hbm, 333, rfl⟩
abbrev main_v200 : Ref sig .tc := ⟨.hbm, 334, rfl⟩
abbrev main_v201 : Ref sig .tc := ⟨.hbm, 335, rfl⟩
abbrev main_v202 : Ref sig .tc := ⟨.hbm, 336, rfl⟩
abbrev main_cst_28 : Ref sig .tc := ⟨.hbm, 337, rfl⟩
abbrev main_v203 : Ref sig .tc := ⟨.hbm, 338, rfl⟩
abbrev main_v204 : Ref sig .tc := ⟨.hbm, 339, rfl⟩
abbrev main_cst_29 : Ref sig .tc := ⟨.hbm, 340, rfl⟩
abbrev main_v205 : Ref sig .tc := ⟨.hbm, 341, rfl⟩
abbrev main_v206 : Ref sig .tc := ⟨.hbm, 342, rfl⟩
abbrev main_v207 : Ref sig .tc := ⟨.hbm, 343, rfl⟩
abbrev main_v208 : Ref sig .tc := ⟨.hbm, 344, rfl⟩
abbrev main_v209 : Ref sig .tc := ⟨.hbm, 345, rfl⟩
abbrev main_v210 : Ref sig .tc := ⟨.hbm, 346, rfl⟩
abbrev main_call6_cst : Ref sig .tc := ⟨.hbm, 347, rfl⟩
abbrev main_call6_v0 : Ref sig .tc := ⟨.hbm, 348, rfl⟩
abbrev main_call6_v1 : Ref sig .tc := ⟨.hbm, 349, rfl⟩
abbrev main_call6_cst_0 : Ref sig .tc := ⟨.hbm, 350, rfl⟩
abbrev main_call6_v2 : Ref sig .tc := ⟨.hbm, 351, rfl⟩
abbrev main_call6_v3 : Ref sig .tc := ⟨.hbm, 352, rfl⟩
abbrev main_call6_cst_1 : Ref sig .tc := ⟨.hbm, 353, rfl⟩
abbrev main_call6_call0_v0 : Ref sig .tc := ⟨.hbm, 354, rfl⟩
abbrev main_call6_call0_v1 : Ref sig .tc := ⟨.hbm, 355, rfl⟩
abbrev main_call6_v4 : Ref sig .tc := ⟨.hbm, 356, rfl⟩
abbrev main_call6_v5 : Ref sig .tc := ⟨.hbm, 357, rfl⟩
abbrev main_call6_cst_2 : Ref sig .tc := ⟨.hbm, 358, rfl⟩
abbrev main_call6_v6 : Ref sig .tc := ⟨.hbm, 359, rfl⟩
abbrev main_call6_v7 : Ref sig .tc := ⟨.hbm, 360, rfl⟩
abbrev main_v211 : Ref sig .tc := ⟨.hbm, 361, rfl⟩
abbrev main_v212 : Ref sig .tc := ⟨.hbm, 362, rfl⟩
abbrev main_v213 : Ref sig .tc := ⟨.hbm, 363, rfl⟩
abbrev main_v214 : Ref sig .tc := ⟨.hbm, 364, rfl⟩
abbrev main_v215 : Ref sig .tc := ⟨.hbm, 365, rfl⟩
abbrev main_v216 : Ref sig .tc := ⟨.hbm, 366, rfl⟩
abbrev main_v217 : Ref sig .tc := ⟨.hbm, 367, rfl⟩
abbrev main_v218 : Ref sig .tc := ⟨.hbm, 368, rfl⟩
abbrev main_v219 : Ref sig .tc := ⟨.hbm, 369, rfl⟩
abbrev main_v220 : Ref sig .tc := ⟨.hbm, 370, rfl⟩
abbrev main_v221 : Ref sig .tc := ⟨.hbm, 371, rfl⟩
abbrev main_cst_30 : Ref sig .tc := ⟨.hbm, 372, rfl⟩
abbrev main_v222 : Ref sig .tc := ⟨.hbm, 373, rfl⟩
abbrev main_v223 : Ref sig .tc := ⟨.hbm, 374, rfl⟩
abbrev main_cst_31 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_c_32 : Ref sig .tc := ⟨.hbm, 388, rfl⟩
abbrev main_v236 : Ref sig .tc := ⟨.hbm, 389, rfl⟩
abbrev main_v237 : Ref sig .tc := ⟨.hbm, 390, rfl⟩
abbrev main_c_33 : Ref sig .tc := ⟨.hbm, 391, rfl⟩
abbrev main_v238 : Ref sig .tc := ⟨.hbm, 392, rfl⟩
abbrev main_v239 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩
abbrev main_v243 : Ref sig .tc := ⟨.hbm, 397, rfl⟩
abbrev main_v244 : Ref sig .tc := ⟨.hbm, 398, rfl⟩
abbrev main_v245 : Ref sig .tc := ⟨.hbm, 399, rfl⟩
abbrev main_v246 : Ref sig .tc := ⟨.hbm, 400, rfl⟩
abbrev main_call7_cst : Ref sig .tc := ⟨.hbm, 401, rfl⟩
abbrev main_call7_v0 : Ref sig .tc := ⟨.hbm, 402, rfl⟩
abbrev main_call7_v1 : Ref sig .tc := ⟨.hbm, 403, rfl⟩
abbrev main_call7_cst_0 : Ref sig .tc := ⟨.hbm, 404, rfl⟩
abbrev main_call7_v2 : Ref sig .tc := ⟨.hbm, 405, rfl⟩
abbrev main_call7_v3 : Ref sig .tc := ⟨.hbm, 406, rfl⟩
abbrev main_call7_cst_1 : Ref sig .tc := ⟨.hbm, 407, rfl⟩
abbrev main_call7_call0_v0 : Ref sig .tc := ⟨.hbm, 408, rfl⟩
abbrev main_call7_call0_v1 : Ref sig .tc := ⟨.hbm, 409, rfl⟩
abbrev main_call7_v4 : Ref sig .tc := ⟨.hbm, 410, rfl⟩
abbrev main_call7_v5 : Ref sig .tc := ⟨.hbm, 411, rfl⟩
abbrev main_call7_cst_2 : Ref sig .tc := ⟨.hbm, 412, rfl⟩
abbrev main_call7_v6 : Ref sig .tc := ⟨.hbm, 413, rfl⟩
abbrev main_call7_v7 : Ref sig .tc := ⟨.hbm, 414, rfl⟩
abbrev main_v247 : Ref sig .tc := ⟨.hbm, 415, rfl⟩
abbrev main_v248 : Ref sig .tc := ⟨.hbm, 416, rfl⟩
abbrev main_v249 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_cst_34 : Ref sig .tc := ⟨.hbm, 421, rfl⟩
abbrev main_v253 : Ref sig .tc := ⟨.hbm, 422, rfl⟩
abbrev main_v254 : Ref sig .tc := ⟨.hbm, 423, rfl⟩
abbrev main_v255 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_v259 : Ref sig .tc := ⟨.hbm, 428, rfl⟩
abbrev main_v260 : Ref sig .tc := ⟨.hbm, 429, rfl⟩
abbrev main_call8_cst : Ref sig .tc := ⟨.hbm, 430, rfl⟩
abbrev main_call8_v0 : Ref sig .tc := ⟨.hbm, 431, rfl⟩
abbrev main_call8_v1 : Ref sig .tc := ⟨.hbm, 432, rfl⟩
abbrev main_call8_cst_0 : Ref sig .tc := ⟨.hbm, 433, rfl⟩
abbrev main_call8_v2 : Ref sig .tc := ⟨.hbm, 434, rfl⟩
abbrev main_call8_v3 : Ref sig .tc := ⟨.hbm, 435, rfl⟩
abbrev main_call8_cst_1 : Ref sig .tc := ⟨.hbm, 436, rfl⟩
abbrev main_call8_call0_v0 : Ref sig .tc := ⟨.hbm, 437, rfl⟩
abbrev main_call8_call0_v1 : Ref sig .tc := ⟨.hbm, 438, rfl⟩
abbrev main_call8_v4 : Ref sig .tc := ⟨.hbm, 439, rfl⟩
abbrev main_call8_v5 : Ref sig .tc := ⟨.hbm, 440, rfl⟩
abbrev main_call8_cst_2 : Ref sig .tc := ⟨.hbm, 441, rfl⟩
abbrev main_call8_v6 : Ref sig .tc := ⟨.hbm, 442, rfl⟩
abbrev main_call8_v7 : Ref sig .tc := ⟨.hbm, 443, rfl⟩
abbrev main_v261 : Ref sig .tc := ⟨.hbm, 444, rfl⟩
abbrev main_v262 : Ref sig .tc := ⟨.hbm, 445, rfl⟩
abbrev main_v263 : Ref sig .tc := ⟨.hbm, 446, rfl⟩
abbrev main_call9_cst : Ref sig .tc := ⟨.hbm, 447, rfl⟩
abbrev main_call9_v0 : Ref sig .tc := ⟨.hbm, 448, rfl⟩
abbrev main_call9_v1 : Ref sig .tc := ⟨.hbm, 449, rfl⟩
abbrev main_call9_cst_0 : Ref sig .tc := ⟨.hbm, 450, rfl⟩
abbrev main_call9_v2 : Ref sig .tc := ⟨.hbm, 451, rfl⟩
abbrev main_call9_v3 : Ref sig .tc := ⟨.hbm, 452, rfl⟩
abbrev main_call9_cst_1 : Ref sig .tc := ⟨.hbm, 453, rfl⟩
abbrev main_call9_call0_v0 : Ref sig .tc := ⟨.hbm, 454, rfl⟩
abbrev main_call9_call0_v1 : Ref sig .tc := ⟨.hbm, 455, rfl⟩
abbrev main_call9_v4 : Ref sig .tc := ⟨.hbm, 456, rfl⟩
abbrev main_call9_v5 : Ref sig .tc := ⟨.hbm, 457, rfl⟩
abbrev main_call9_cst_2 : Ref sig .tc := ⟨.hbm, 458, rfl⟩
abbrev main_call9_v6 : Ref sig .tc := ⟨.hbm, 459, rfl⟩
abbrev main_call9_v7 : Ref sig .tc := ⟨.hbm, 460, rfl⟩
abbrev main_v264 : Ref sig .tc := ⟨.hbm, 461, rfl⟩
abbrev main_v265 : Ref sig .tc := ⟨.hbm, 462, rfl⟩
abbrev main_v266 : Ref sig .tc := ⟨.hbm, 463, rfl⟩
abbrev main_call10_cst : Ref sig .tc := ⟨.hbm, 464, rfl⟩
abbrev main_call10_v0 : Ref sig .tc := ⟨.hbm, 465, rfl⟩
abbrev main_call10_v1 : Ref sig .tc := ⟨.hbm, 466, rfl⟩
abbrev main_call10_cst_0 : Ref sig .tc := ⟨.hbm, 467, rfl⟩
abbrev main_call10_v2 : Ref sig .tc := ⟨.hbm, 468, rfl⟩
abbrev main_call10_v3 : Ref sig .tc := ⟨.hbm, 469, rfl⟩
abbrev main_call10_cst_1 : Ref sig .tc := ⟨.hbm, 470, rfl⟩
abbrev main_call10_call0_v0 : Ref sig .tc := ⟨.hbm, 471, rfl⟩
abbrev main_call10_call0_v1 : Ref sig .tc := ⟨.hbm, 472, rfl⟩
abbrev main_call10_v4 : Ref sig .tc := ⟨.hbm, 473, rfl⟩
abbrev main_call10_v5 : Ref sig .tc := ⟨.hbm, 474, rfl⟩
abbrev main_call10_cst_2 : Ref sig .tc := ⟨.hbm, 475, rfl⟩
abbrev main_call10_v6 : Ref sig .tc := ⟨.hbm, 476, rfl⟩
abbrev main_call10_v7 : Ref sig .tc := ⟨.hbm, 477, rfl⟩
abbrev main_v267 : Ref sig .tc := ⟨.hbm, 478, rfl⟩
abbrev main_v268 : Ref sig .tc := ⟨.hbm, 479, rfl⟩
abbrev main_v269 : Ref sig .tc := ⟨.hbm, 480, rfl⟩
abbrev main_v270 : Ref sig .tc := ⟨.hbm, 481, rfl⟩

abbrev nD : Nat := 1
abbrev τ : Topo := Topo.v7x

variable {F : FTy → Type} [FloatOps F]

class Facts₀ : Prop where
  transposes_S128x98_S98x128_1_0 : S128x98.Transposes [1, 0] S98x128
  bcast_S_S20000x128 : S_.BroadcastsInDim S20000x128 (![] : Fin 0 → Fin S20000x128.rank)
  bcast_S160000_S160000x1_0 : S160000.BroadcastsInDim S160000x1 (![0] : Fin 1 → Fin S160000x1.rank)
  bcast_S_S160000x1 : S_.BroadcastsInDim S160000x1 (![] : Fin 0 → Fin S160000x1.rank)
  bcast_S_S50x128 : S_.BroadcastsInDim S50x128 (![] : Fin 0 → Fin S50x128.rank)
  bcast_S_S160000 : S_.BroadcastsInDim S160000 (![] : Fin 0 → Fin S160000.rank)
  bcast_S160000x1_S160000x128_0_1 : S160000x1.BroadcastsInDim S160000x128 (![0, 1] : Fin 2 → Fin S160000x128.rank)
  concatenates_S160000x128_S160000x128_S160000x128_S160000x384_d1 : Shape.Concatenates [S160000x128, S160000x128, S160000x128] S160000x384 1
  slices_S3x128x384_S1x128x384_0_0_0 : S3x128x384.Slices ![0, 0, 0] S1x128x384
  shapeCasts_S1x128x384_S128x384 : S1x128x384.ShapeCasts S128x384
  transposes_S128x384_S384x128_1_0 : S128x384.Transposes [1, 0] S384x128
  bcast_S_S160000x128 : S_.BroadcastsInDim S160000x128 (![] : Fin 0 → Fin S160000x128.rank)
  slices_S3x128x64_S1x128x64_0_0_0 : S3x128x64.Slices ![0, 0, 0] S1x128x64
  shapeCasts_S1x128x64_S128x64 : S1x128x64.ShapeCasts S128x64
  transposes_S128x64_S64x128_1_0 : S128x64.Transposes [1, 0] S64x128
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  bcast_S_S160000x64 : S_.BroadcastsInDim S160000x64 (![] : Fin 0 → Fin S160000x64.rank)
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  bcast_S20000_S20000x1_0 : S20000.BroadcastsInDim S20000x1 (![0] : Fin 1 → Fin S20000x1.rank)
  slices_S3x128x384_S1x128x384_1_0_0 : S3x128x384.Slices ![1, 0, 0] S1x128x384
  slices_S3x128x64_S1x128x64_1_0_0 : S3x128x64.Slices ![1, 0, 0] S1x128x64
  slices_S3x64x64_S1x64x64_1_0_0 : S3x64x64.Slices ![1, 0, 0] S1x64x64
  slices_S3x128x128_S1x128x128_1_0_0 : S3x128x128.Slices ![1, 0, 0] S1x128x128
  slices_S3x128x384_S1x128x384_2_0_0 : S3x128x384.Slices ![2, 0, 0] S1x128x384
  slices_S3x128x64_S1x128x64_2_0_0 : S3x128x64.Slices ![2, 0, 0] S1x128x64
  slices_S3x64x64_S1x64x64_2_0_0 : S3x64x64.Slices ![2, 0, 0] S1x64x64
  slices_S3x128x128_S1x128x128_2_0_0 : S3x128x128.Slices ![2, 0, 0] S1x128x128
  transposes_S64x128_S128x64_1_0 : S64x128.Transposes [1, 0] S128x64
  bcast_S_S50x64 : S_.BroadcastsInDim S50x64 (![] : Fin 0 → Fin S50x64.rank)
  transposes_S32x64_S64x32_1_0 : S32x64.Transposes [1, 0] S64x32
  bcast_S_S50x32 : S_.BroadcastsInDim S50x32 (![] : Fin 0 → Fin S50x32.rank)
  transposes_S1x32_S32x1_1_0 : S1x32.Transposes [1, 0] S32x1
  shapeCasts_S50x1_S50 : S50x1.ShapeCasts S50
  dot_S20000x98_S98x128_S20000x128_1_0_0_1_n_n_wf : DotDims.WF S20000x98 S98x128 S20000x128 [1] [0] [0] [1] [] []
  gather_S20000x128_S160000x1_S160000x128_1_0_n_n_0_1_1128_wf : GatherDims.WF S20000x128 S160000x1 S160000x128 [1] [0] [] [0] [] 1 ![1, 128]
  dot_S160000x384_S384x128_S160000x128_1_0_0_1_n_n_wf : DotDims.WF S160000x384 S384x128 S160000x128 [1] [0] [0] [1] [] []
  dot_S160000x64_S64x128_S160000x128_1_0_0_1_n_n_wf : DotDims.WF S160000x64 S64x128 S160000x128 [1] [0] [0] [1] [] []
  dot_S160000x64_S64x64_S160000x64_1_0_0_1_n_n_wf : DotDims.WF S160000x64 S64x64 S160000x64 [1] [0] [0] [1] [] []
  scatter_S20000x128_S160000x1_S160000x128_1_0_0_1_wf : ScatterDims.WF S20000x128 S160000x1 S160000x128 [1] [0] [0] 1
  dot_S20000x128_S128x128_S20000x128_1_0_0_1_n_n_wf : DotDims.WF S20000x128 S128x128 S20000x128 [1] [0] [0] [1] [] []
  scatter_S50x128_S20000x1_S20000x128_1_0_0_1_wf : ScatterDims.WF S50x128 S20000x1 S20000x128 [1] [0] [0] 1
  dot_S50x128_S128x64_S50x64_1_0_0_1_n_n_wf : DotDims.WF S50x128 S128x64 S50x64 [1] [0] [0] [1] [] []
  dot_S50x64_S64x32_S50x32_1_0_0_1_n_n_wf : DotDims.WF S50x64 S64x32 S50x32 [1] [0] [0] [1] [] []
  dot_S50x32_S32x1_S50x1_1_0_0_1_n_n_wf : DotDims.WF S50x32 S32x1 S50x1 [1] [0] [0] [1] [] []

variable [Facts₀]

def dot_S20000x98_S98x128_S20000x128_1_0_0_1_n_n : DotDims S20000x98 S98x128 S20000x128 where
  lhsContracting := [1]
  rhsContracting := [0]
  lhsNonContracting := [0]
  rhsNonContracting := [1]
  lhsBatch := []
  rhsBatch := []
  wf := dot_S20000x98_S98x128_S20000x128_1_0_0_1_n_n_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def dot_S160000x384_S384x128_S160000x128_1_0_0_1_n_n : DotDims S160000x384 S384x128 S160000x128 where
  lhsContracting := [1]
  rhsContracting := [0]
  lhsNonContracting := [0]
  rhsNonContracting := [1]
  lhsBatch := []
  rhsBatch := []
  wf := dot_S160000x384_S384x128_S160000x128_1_0_0_1_n_n_wf
def dot_S160000x64_S64x128_S160000x128_1_0_0_1_n_n : DotDims S160000x64 S64x128 S160000x128 where
  lhsContracting := [1]
  rhsContracting := [0]
  lhsNonContracting := [0]
  rhsNonContracting := [1]
  lhsBatch := []
  rhsBatch := []
  wf := dot_S160000x64_S64x128_S160000x128_1_0_0_1_n_n_wf
def dot_S160000x64_S64x64_S160000x64_1_0_0_1_n_n : DotDims S160000x64 S64x64 S160000x64 where
  lhsContracting := [1]
  rhsContracting := [0]
  lhsNonContracting := [0]
  rhsNonContracting := [1]
  lhsBatch := []
  rhsBatch := []
  wf := dot_S160000x64_S64x64_S160000x64_1_0_0_1_n_n_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S50x128_S20000x1_S20000x128_1_0_0_1 : ScatterDims S50x128 S20000x1 S20000x128 where
  updateWindowDims := [1]
  insertedWindowDims := [0]
  scatterDimsToOperandDims := [0]
  indexVectorDim := 1
  wf := scatter_S50x128_S20000x1_S20000x128_1_0_0_1_wf
def dot_S50x128_S128x64_S50x64_1_0_0_1_n_n : DotDims S50x128 S128x64 S50x64 where
  lhsContracting := [1]
  rhsContracting := [0]
  lhsNonContracting := [0]
  rhsNonContracting := [1]
  lhsBatch := []
  rhsBatch := []
  wf := dot_S50x128_S128x64_S50x64_1_0_0_1_n_n_wf
def dot_S50x64_S64x32_S50x32_1_0_0_1_n_n : DotDims S50x64 S64x32 S50x32 where
  lhsContracting := [1]
  rhsContracting := [0]
  lhsNonContracting := [0]
  rhsNonContracting := [1]
  lhsBatch := []
  rhsBatch := []
  wf := dot_S50x64_S64x32_S50x32_1_0_0_1_n_n_wf
def dot_S50x32_S32x1_S50x1_1_0_0_1_n_n : DotDims S50x32 S32x1 S50x1 where
  lhsContracting := [1]
  rhsContracting := [0]
  lhsNonContracting := [0]
  rhsNonContracting := [1]
  lhsBatch := []
  rhsBatch := []
  wf := dot_S50x32_S32x1_S50x1_1_0_0_1_n_n_wf

class Facts : Prop extends Facts₀ where

variable [Facts]
-- ==== Proof.Net.lean ====
import Idealize.ShloMosaic.PureOps.Ideal
import Idealize.ShloMosaic.Lib.ValueIdx

noncomputable section

open scoped BigOperators

namespace Cert.Net

open Idealize.ShloMosaic Idealize.ShloMosaic.ValueIdx

abbrev Mat (a b : Nat) : Type := (⟨2, ![a, b]⟩ : Shape).Idx → EReal

abbrev ICol (a : Nat) : Type := (⟨2, ![a, 1]⟩ : Shape).Idx → BitVec 32

def sig (x : EReal) : EReal := Ideal.logistic x

def elu (x : EReal) : EReal := if 0 < x then x else Ideal.exp x - 1

def cutoff : EReal := Ideal.ofBits .f32 0x41000000#32

def mask (r : EReal) : EReal := if r < cutoff then 1 else 0

/-- Entry `(r, h)` of a row-by-column product; every function below depends on row `r` of its row-indexed operands only. -/
def dotRow {R K C : Nat} (x : Mat R K) (M : Mat K C) (r : Fin R) (h : Fin C) : EReal :=
  ∑ k : Fin K, x (ix2 r k) * M (ix2 k h)

def lo (k : Fin 128) : Fin 384 := ⟨k.val, by omega⟩
def mid (k : Fin 128) : Fin 384 := ⟨128 + k.val, by omega⟩
def hi (k : Fin 128) : Fin 384 := ⟨256 + k.val, by omega⟩

def embed {R : Nat} (nodes : Mat R 98) (WT : Mat 98 128) : Mat R 128 :=
  fun j => sig (dotRow nodes WT (j 0) (j 1))

def diff {R : Nat} (ni nj : Mat R 128) (r : Mat R 1) (e : Fin R) (k : Fin 128) : EReal :=
  (ni (ix2 e k) - nj (ix2 e k)) * Ideal.div 1 (r (ix2 e 0))

/-- The 384-wide contraction of `[nᵢ, nⱼ, (nᵢ − nⱼ) · (1 / r)]` as its three 128-wide parts. -/
def pre3 {R : Nat} (ni nj : Mat R 128) (r : Mat R 1) (M : Mat 384 128) (e : Fin R) (h : Fin 128) : EReal :=
  (∑ k : Fin 128, ni (ix2 e k) * M (ix2 (lo k) h)) + (∑ k : Fin 128, nj (ix2 e k) * M (ix2 (mid k) h))
    + ∑ k : Fin 128, diff ni nj r e k * M (ix2 (hi k) h)

def pwScaled {R : Nat} (pw : Mat R 64) (M2g : Mat 64 64) : Mat R 64 :=
  fun j => pw (ix2 (j 0) (j 1)) * sig (dotRow pw M2g (j 0) (j 1))

/-- One block's edge message: gate · branch · (two 64-wide contractions) · cutoff mask. -/
def edge {R : Nat} (ni nj : Mat R 128) (r : Mat R 1) (comb pw : Mat R 64)
    (Mg Mm : Mat 384 128) (M1 : Mat 64 128) (M2g : Mat 64 64) (M2 : Mat 64 128) : Mat R 128 :=
  fun j =>
    sig (pre3 ni nj r Mg (j 0) (j 1)) * elu (pre3 ni nj r Mm (j 0) (j 1))
      * (dotRow comb M1 (j 0) (j 1) + dotRow (pwScaled pw M2g) M2 (j 0) (j 1))
      * mask (r (ix2 (j 0) 0))

def zp {R : Nat} (x : Mat R 128) (P1 P2 : Mat 128 128) : Mat R 128 :=
  fun j => elu (dotRow x P1 (j 0) (j 1)) * dotRow x P2 (j 0) (j 1)

def onehot {R : Nat} (gid : ICol R) (n : Fin R) (g : Fin 50) : EReal :=
  if gid (ix2 n 0) = BitVec.ofNat 32 g.val then 1 else 0

/-- The gated rows summed into their graphs: entry `(g, h)` adds the rows whose graph id is `g`. -/
def poolTile {R : Nat} (x : Mat R 128) (gid : ICol R) (P1 P2 : Mat 128 128) : Mat 50 128 :=
  fun j => ∑ n : Fin R, onehot gid n (j 0) * zp x P1 P2 (ix2 n (j 1))

def poolNew {R : Nat} (x : Mat R 128) (P : Mat 128 128) : Mat R 128 :=
  fun j => elu (dotRow x P (j 0) (j 1))

def tileIdx (t : Fin 5) (n : Fin 4000) : Fin 20000 := ⟨4000 * t.val + n.val, by omega⟩

def tileRows {C : Nat} (x : Mat 20000 C) (t : Fin 5) : Mat 4000 C := fun j => x (ix2 (tileIdx t (j 0)) (j 1))

def tileICol (gid : ICol 20000) (t : Fin 5) : ICol 4000 := fun j => gid (ix2 (tileIdx t (j 0)) 0)

/-- The five tiles' partial sums, stacked. -/
def poolParts (x : Mat 20000 128) (gid : ICol 20000) (P1 P2 : Mat 128 128) : (⟨3, ![5, 50, 128]⟩ : Shape).Idx → EReal :=
  fun j => poolTile (tileRows x (j 0)) (tileICol gid (j 0)) P1 P2 (ix2 (j 1) (j 2))

end Cert.Net

end
-- ==== Proof.NetAll.lean ====
import proofs.«410384_j15272903704942_3_alg».proof.Proof.Net

noncomputable section

namespace Cert.Net

open Idealize.ShloMosaic Idealize.ShloMosaic.ValueIdx

structure Args where
  nodes : Mat 20000 98
  esN : ICol 160000
  etN : ICol 160000
  r : Mat 160000 1
  gid : ICol 20000
  comb : Mat 160000 64
  pw : Mat 160000 64
  WembT : Mat 98 128
  Mg : Fin 3 → Mat 384 128
  Mm : Fin 3 → Mat 384 128
  M1 : Fin 3 → Mat 64 128
  M2g : Fin 3 → Mat 64 64
  M2 : Fin 3 → Mat 64 128
  P1 : Fin 3 → Mat 128 128
  P2 : Fin 3 → Mat 128 128
  Ppsi : Fin 3 → Mat 128 128

variable (g : Mat 20000 128 → ICol 160000 → Mat 160000 128)
  (s : Mat 20000 128 → ICol 160000 → Mat 160000 128 → Mat 20000 128) (A : Args)

def x0 : Mat 20000 128 := embed A.nodes A.WembT

def z (b : Fin 3) (x : Mat 20000 128) : Mat 160000 128 :=
  edge (g x A.esN) (g x A.etN) A.r A.comb A.pw (A.Mg b) (A.Mm b) (A.M1 b) (A.M2g b) (A.M2 b)

def xs (b : Fin 3) (x : Mat 20000 128) : Mat 20000 128 := s x A.esN (z g A b x)

def pooledOf (b : Fin 3) (x : Mat 20000 128) : Mat 50 128 := poolTile (xs g s A b x) A.gid (A.P1 b) (A.P2 b)

def xn (b : Fin 3) (x : Mat 20000 128) : Mat 20000 128 := poolNew (xs g s A b x) (A.Ppsi b)

def x1 : Mat 20000 128 := xn g s A 0 (x0 A)
def x2 : Mat 20000 128 := xn g s A 1 (x1 g s A)

def pooled0 : Mat 50 128 := fun j => 0 + pooledOf g s A 0 (x0 A) j
def pooled1 : Mat 50 128 := fun j => pooled0 g s A j + pooledOf g s A 1 (x1 g s A) j
/-- Three message-passing blocks over an abstract row gather `g` and row scatter-add `s`: the sum of the blocks' pooled contributions. -/
def pooled2 : Mat 50 128 := fun j => pooled1 g s A j + pooledOf g s A 2 (x2 g s A) j

end Cert.Net

end
-- ==== Proof.KDefs.lean ====
import proofs.«410384_j15272903704942_3_alg».proof.KernelIdeal
import proofs.«410384_j15272903704942_3_alg».proof.Proof.Gen.KernelIdeal
import proofs.«410384_j15272903704942_3_alg».proof.Proof.NetAll

noncomputable section

namespace Cert.KernelIdeal.KVal

open Idealize.ShloMosaic Cert.KernelIdeal Cert.KernelIdeal.Gen

def gK (x : Cert.Net.Mat 20000 128) (i : Cert.Net.ICol 160000) : Cert.Net.Mat 160000 128 :=
  Host.gather gather_S20000x128_S160000x1_S160000x128_1_0_n_n_0_1_1128 x i

def sK (x : Cert.Net.Mat 20000 128) (i : Cert.Net.ICol 160000) (u : Cert.Net.Mat 160000 128) : Cert.Net.Mat 20000 128 :=
  Host.scatterAdd (F := Ideal) (φ := .f32) scatter_S20000x128_S160000x1_S160000x128_1_0_0_1 x i u

def normCol (a : Vec Ideal S160000 .i32) : Cert.Net.ICol 160000 :=
  broadcastInDim S160000x1 ![0] bcast_S160000_S160000x1_0
    (select (cmpi .slt a (broadcastInDim S160000 ![] bcast_S_S160000 (constantI S_ 32 0#32)))
      (addi a (broadcastInDim S160000 ![] bcast_S_S160000 (constantI S_ 32 20000#32))) a)

/-- Block `b` of a stacked weight array, as the `[in, out]` matrix the block multiplies by. -/
def w384K (a : Vec Ideal S3x128x384 .f32) : Fin 3 → Cert.Net.Mat 384 128
  | 0 => shapeCast S384x128 (extractStridedSlice S1x384x128 ![0, 0, 0] (transpose S3x384x128 [0, 2, 1] a transposes_S3x128x384_S3x384x128_0_2_1) slices_S3x384x128_S1x384x128_0_0_0) shapeCasts_S1x384x128_S384x128
  | 1 => shapeCast S384x128 (extractStridedSlice S1x384x128 ![1, 0, 0] (transpose S3x384x128 [0, 2, 1] a transposes_S3x128x384_S3x384x128_0_2_1) slices_S3x384x128_S1x384x128_1_0_0) shapeCasts_S1x384x128_S384x128
  | 2 => shapeCast S384x128 (extractStridedSlice S1x384x128 ![2, 0, 0] (transpose S3x384x128 [0, 2, 1] a transposes_S3x128x384_S3x384x128_0_2_1) slices_S3x384x128_S1x384x128_2_0_0) shapeCasts_S1x384x128_S384x128
  | ⟨_ + 3, h⟩ => absurd h (Nat.not_lt.2 (Nat.le_add_left _ _))

def w64K (a : Vec Ideal S3x128x64 .f32) : Fin 3 → Cert.Net.Mat 64 128
  | 0 => shapeCast S64x128 (extractStridedSlice S1x64x128 ![0, 0, 0] (transpose S3x64x128 [0, 2, 1] a transposes_S3x128x64_S3x64x128_0_2_1) slices_S3x64x128_S1x64x128_0_0_0) shapeCasts_S1x64x128_S64x128
  | 1 => shapeCast S64x128 (extractStridedSlice S1x64x128 ![1, 0, 0] (transpose S3x64x128 [0, 2, 1] a transposes_S3x128x64_S3x64x128_0_2_1) slices_S3x64x128_S1x64x128_1_0_0) shapeCasts_S1x64x128_S64x128
  | 2 => shapeCast S64x128 (extractStridedSlice S1x64x128 ![2, 0, 0] (transpose S3x64x128 [0, 2, 1] a transposes_S3x128x64_S3x64x128_0_2_1) slices_S3x64x128_S1x64x128_2_0_0) shapeCasts_S1x64x128_S64x128
  | ⟨_ + 3, h⟩ => absurd h (Nat.not_lt.2 (Nat.le_add_left _ _))

def w64x64K (a : Vec Ideal S3x64x64 .f32) : Fin 3 → Cert.Net.Mat 64 64
  | 0 => shapeCast S64x64 (extractStridedSlice S1x64x64 ![0, 0, 0] (transpose S3x64x64 [0, 2, 1] a transposes_S3x64x64_S3x64x64_0_2_1) slices_S3x64x64_S1x64x64_0_0_0) shapeCasts_S1x64x64_S64x64
  | 1 => shapeCast S64x64 (extractStridedSlice S1x64x64 ![1, 0, 0] (transpose S3x64x64 [0, 2, 1] a transposes_S3x64x64_S3x64x64_0_2_1) slices_S3x64x64_S1x64x64_1_0_0) shapeCasts_S1x64x64_S64x64
  | 2 => shapeCast S64x64 (extractStridedSlice S1x64x64 ![2, 0, 0] (transpose S3x64x64 [0, 2, 1] a transposes_S3x64x64_S3x64x64_0_2_1) slices_S3x64x64_S1x64x64_2_0_0) shapeCasts_S1x64x64_S64x64
  | ⟨_ + 3, h⟩ => absurd h (Nat.not_lt.2 (Nat.le_add_left _ _))

def w128K (a : Vec Ideal S3x128x128 .f32) : Fin 3 → Cert.Net.Mat 128 128
  | 0 => shapeCast S128x128 (extractStridedSlice S1x128x128 ![0, 0, 0] (transpose S3x128x128 [0, 2, 1] a transposes_S3x128x128_S3x128x128_0_2_1) slices_S3x128x128_S1x128x128_0_0_0) shapeCasts_S1x128x128_S128x128
  | 1 => shapeCast S128x128 (extractStridedSlice S1x128x128 ![1, 0, 0] (transpose S3x128x128 [0, 2, 1] a transposes_S3x128x128_S3x128x128_0_2_1) slices_S3x128x128_S1x128x128_1_0_0) shapeCasts_S1x128x128_S128x128
  | 2 => shapeCast S128x128 (extractStridedSlice S1x128x128 ![2, 0, 0] (transpose S3x128x128 [0, 2, 1] a transposes_S3x128x128_S3x128x128_0_2_1) slices_S3x128x128_S1x128x128_2_0_0) shapeCasts_S1x128x128_S128x128
  | ⟨_ + 3, h⟩ => absurd h (Nat.not_lt.2 (Nat.le_add_left _ _))

abbrev MgK := w384K
abbrev MmK := w384K
abbrev M1K := w64K
abbrev M2K := w64K
abbrev M2gK := w64x64K
abbrev P1K := w128K
abbrev P2K := w128K
abbrev PpsiK := w128K

def argsK (a0 : Vec Ideal S20000x98 .f32) (a1 a2 : Vec Ideal S160000 .i32) (a3 : Vec Ideal S160000 .f32)
    (a4 : Vec Ideal S20000 .i32) (a6 a7 : Vec Ideal S160000x64 .f32) (a8 : Vec Ideal S128x98 .f32)
    (a9 a10 : Vec Ideal S3x128x64 .f32) (a11 : Vec Ideal S3x64x64 .f32) (a12 a13 : Vec Ideal S3x128x384 .f32)
    (a14 a15 a16 : Vec Ideal S3x128x128 .f32) : Cert.Net.Args where
  nodes := a0
  esN := normCol a1
  etN := normCol a2
  r := broadcastInDim S160000x1 ![0] bcast_S160000_S160000x1_0 a3
  gid := broadcastInDim S20000x1 ![0] bcast_S20000_S20000x1_0 a4
  comb := a6
  pw := a7
  WembT := transpose S98x128 [1, 0] a8 transposes_S128x98_S98x128_1_0
  Mg := MgK a12
  Mm := MmK a13
  M1 := M1K a9
  M2g := M2gK a11
  M2 := M2K a10
  P1 := P1K a15
  P2 := P2K a16
  Ppsi := PpsiK a14

def eluK {S : Shape} (hb : S_.BroadcastsInDim S (![] : Fin 0 → Fin S.rank)) (x : Vec Ideal S .f32) : Vec Ideal S .f32 :=
  select (cmpf (F := Ideal) (φ := .f32) .ogt x (broadcastInDim S ![] hb (constant (F := Ideal) S_ .f32 0x00000000#32))) x
    (mulf (F := Ideal) (φ := .f32) (broadcastInDim S ![] hb (constant (F := Ideal) S_ .f32 0x3F800000#32))
      (Host.expm1 (F := Ideal) (φ := .f32)
        (select (cmpf (F := Ideal) (φ := .f32) .ogt x (broadcastInDim S ![] hb (constant (F := Ideal) S_ .f32 0x00000000#32)))
          (broadcastInDim S ![] hb (id (constant (F := Ideal) S_ .f32 0x00000000#32))) x)))

def tailK (p : Cert.Net.Mat 50 128) (a17 : Vec Ideal S64x128 .f32) (a18 : Vec Ideal S32x64 .f32)
    (a19 : Vec Ideal S1x32 .f32) : Vec Ideal S50 .f32 :=
  shapeCast S50
    (Host.dotGeneral (F := Ideal) (φ₁ := .f32) (φ₂ := .f32) dot_S50x32_S32x1_S50x1_1_0_0_1_n_n none
      (eluK bcast_S_S50x32
        (Host.dotGeneral (F := Ideal) (φ₁ := .f32) (φ₂ := .f32) dot_S50x64_S64x32_S50x32_1_0_0_1_n_n none
          (eluK bcast_S_S50x64
            (Host.dotGeneral (F := Ideal) (φ₁ := .f32) (φ₂ := .f32) dot_S50x128_S128x64_S50x64_1_0_0_1_n_n none p
              (transpose S128x64 [1, 0] a17 transposes_S64x128_S128x64_1_0)))
          (transpose S64x32 [1, 0] a18 transposes_S32x64_S64x32_1_0)))
      (transpose S32x1 [1, 0] a19 transposes_S1x32_S32x1_1_0))
    shapeCasts_S50x1_S50

end Cert.KernelIdeal.KVal

end
-- ==== Proof.RDefs.lean ====
import proofs.«410384_j15272903704942_3_alg».proof.ReferenceIdeal
import proofs.«410384_j15272903704942_3_alg».proof.Proof.Gen.ReferenceIdeal
import proofs.«410384_j15272903704942_3_alg».proof.Proof.NetAll

noncomputable section

namespace Cert.ReferenceIdeal.RVal

open Idealize.ShloMosaic Cert.ReferenceIdeal Cert.ReferenceIdeal.Gen

def gR (x : Net.Mat 20000 128) (i : Net.ICol 160000) : Net.Mat 160000 128 :=
  Host.gather gather_S20000x128_S160000x1_S160000x128_1_0_n_n_0_1_1128 x i

def sR (x : Net.Mat 20000 128) (i : Net.ICol 160000) (u : Net.Mat 160000 128) : Net.Mat 20000 128 :=
  Host.scatterAdd (F := Ideal) (φ := .f32) scatter_S20000x128_S160000x1_S160000x128_1_0_0_1 x i u

def normColR (a : IVec S160000 32) : Net.ICol 160000 :=
  broadcastInDim S160000x1 ![0] bcast_S160000_S160000x1_0
    (select (cmpi .slt a (broadcastInDim S160000 ![] bcast_S_S160000 (constantI S_ 32 0#32)))
      (addi a (broadcastInDim S160000 ![] bcast_S_S160000 (constantI S_ 32 20000#32))) a)

def w384T (a : FVec Ideal S3x128x384 .f32) : Fin 3 → Net.Mat 384 128
  | 0 => transpose S384x128 [1, 0] (shapeCast S128x384 (extractStridedSlice S1x128x384 ![0, 0, 0] a slices_S3x128x384_S1x128x384_0_0_0) shapeCasts_S1x128x384_S128x384) transposes_S128x384_S384x128_1_0
  | 1 => transpose S384x128 [1, 0] (shapeCast S128x384 (extractStridedSlice S1x128x384 ![1, 0, 0] a slices_S3x128x384_S1x128x384_1_0_0) shapeCasts_S1x128x384_S128x384) transposes_S128x384_S384x128_1_0
  | 2 => transpose S384x128 [1, 0] (shapeCast S128x384 (extractStridedSlice S1x128x384 ![2, 0, 0] a slices_S3x128x384_S1x128x384_2_0_0) shapeCasts_S1x128x384_S128x384) transposes_S128x384_S384x128_1_0

def w64T (a : FVec Ideal S3x128x64 .f32) : Fin 3 → Net.Mat 64 128
  | 0 => transpose S64x128 [1, 0] (shapeCast S128x64 (extractStridedSlice S1x128x64 ![0, 0, 0] a slices_S3x128x64_S1x128x64_0_0_0) shapeCasts_S1x128x64_S128x64) transposes_S128x64_S64x128_1_0
  | 1 => transpose S64x128 [1, 0] (shapeCast S128x64 (extractStridedSlice S1x128x64 ![1, 0, 0] a slices_S3x128x64_S1x128x64_1_0_0) shapeCasts_S1x128x64_S128x64) transposes_S128x64_S64x128_1_0
  | 2 => transpose S64x128 [1, 0] (shapeCast S128x64 (extractStridedSlice S1x128x64 ![2, 0, 0] a slices_S3x128x64_S1x128x64_2_0_0) shapeCasts_S1x128x64_S128x64) transposes_S128x64_S64x128_1_0

def w64x64T (a : FVec Ideal S3x64x64 .f32) : Fin 3 → Net.Mat 64 64
  | 0 => transpose S64x64 [1, 0] (shapeCast S64x64 (extractStridedSlice S1x64x64 ![0, 0, 0] a slices_S3x64x64_S1x64x64_0_0_0) shapeCasts_S1x64x64_S64x64) transposes_S64x64_S64x64_1_0
  | 1 => transpose S64x64 [1, 0] (shapeCast S64x64 (extractStridedSlice S1x64x64 ![1, 0, 0] a slices_S3x64x64_S1x64x64_1_0_0) shapeCasts_S1x64x64_S64x64) transposes_S64x64_S64x64_1_0
  | 2 => transpose S64x64 [1, 0] (shapeCast S64x64 (extractStridedSlice S1x64x64 ![2, 0, 0] a slices_S3x64x64_S1x64x64_2_0_0) shapeCasts_S1x64x64_S64x64) transposes_S64x64_S64x64_1_0

def w128T (a : FVec Ideal S3x128x128 .f32) : Fin 3 → Net.Mat 128 128
  | 0 => transpose S128x128 [1, 0] (shapeCast S128x128 (extractStridedSlice S1x128x128 ![0, 0, 0] a slices_S3x128x128_S1x128x128_0_0_0) shapeCasts_S1x128x128_S128x128) transposes_S128x128_S128x128_1_0
  | 1 => transpose S128x128 [1, 0] (shapeCast S128x128 (extractStridedSlice S1x128x128 ![1, 0, 0] a slices_S3x128x128_S1x128x128_1_0_0) shapeCasts_S1x128x128_S128x128) transposes_S128x128_S128x128_1_0
  | 2 => transpose S128x128 [1, 0] (shapeCast S128x128 (extractStridedSlice S1x128x128 ![2, 0, 0] a slices_S3x128x128_S1x128x128_2_0_0) shapeCasts_S1x128x128_S128x128) transposes_S128x128_S128x128_1_0

abbrev MgR (a12 : FVec Ideal S3x128x384 .f32) : Fin 3 → Net.Mat 384 128 := w384T a12
abbrev MmR (a13 : FVec Ideal S3x128x384 .f32) : Fin 3 → Net.Mat 384 128 := w384T a13
abbrev M1R (a9 : FVec Ideal S3x128x64 .f32) : Fin 3 → Net.Mat 64 128 := w64T a9
abbrev M2R (a10 : FVec Ideal S3x128x64 .f32) : Fin 3 → Net.Mat 64 128 := w64T a10
abbrev M2gR (a11 : FVec Ideal S3x64x64 .f32) : Fin 3 → Net.Mat 64 64 := w64x64T a11
abbrev P1R (a15 : FVec Ideal S3x128x128 .f32) : Fin 3 → Net.Mat 128 128 := w128T a15
abbrev P2R (a16 : FVec Ideal S3x128x128 .f32) : Fin 3 → Net.Mat 128 128 := w128T a16
abbrev PpsiR (a14 : FVec Ideal S3x128x128 .f32) : Fin 3 → Net.Mat 128 128 := w128T a14

def argsR (a0 : FVec Ideal S20000x98 .f32) (a1 a2 : IVec S160000 32) (a3 : FVec Ideal S160000 .f32) (a4 : IVec S20000 32)
    (a6 a7 : FVec Ideal S160000x64 .f32) (a8 : FVec Ideal S128x98 .f32) (a9 a10 : FVec Ideal S3x128x64 .f32)
    (a11 : FVec Ideal S3x64x64 .f32) (a12 a13 : FVec Ideal S3x128x384 .f32) (a14 a15 a16 : FVec Ideal S3x128x128 .f32) :
    Net.Args where
  nodes := a0
  esN := normColR a1
  etN := normColR a2
  r := broadcastInDim S160000x1 ![0] bcast_S160000_S160000x1_0 a3
  gid := broadcastInDim S20000x1 ![0] bcast_S20000_S20000x1_0 a4
  comb := a6
  pw := a7
  WembT := transpose S98x128 [1, 0] a8 transposes_S128x98_S98x128_1_0
  Mg := MgR a12
  Mm := MmR a13
  M1 := M1R a9
  M2g := M2gR a11
  M2 := M2R a10
  P1 := P1R a15
  P2 := P2R a16
  Ppsi := PpsiR a14

def eluT (S : Shape) (hb : S_.BroadcastsInDim S (![] : Fin 0 → Fin S.rank)) (x : FVec Ideal S .f32) : FVec Ideal S .f32 :=
  select (cmpf (F := Ideal) .ogt x (broadcastInDim S ![] hb (constant (F := Ideal) S_ .f32 0x00000000#32))) x
    (mulf (F := Ideal) (broadcastInDim S ![] hb (constant (F := Ideal) S_ .f32 0x3F800000#32))
      (Host.expm1 (F := Ideal)
        (select (cmpf (F := Ideal) .ogt x (broadcastInDim S ![] hb (constant (F := Ideal) S_ .f32 0x00000000#32)))
          (broadcastInDim S ![] hb (id (constant (F := Ideal) S_ .f32 0x00000000#32))) x)))

def tailR (p : Net.Mat 50 128) (a17 : FVec Ideal S64x128 .f32) (a18 : FVec Ideal S32x64 .f32) (a19 : FVec Ideal S1x32 .f32) :
    FVec Ideal S50 .f32 :=
  shapeCast S50
    (Host.dotGeneral (F := Ideal) (φ₁ := .f32) (φ₂ := .f32) dot_S50x32_S32x1_S50x1_1_0_0_1_n_n none
      (eluT S50x32 bcast_S_S50x32
        (Host.dotGeneral (F := Ideal) (φ₁ := .f32) (φ₂ := .f32) dot_S50x64_S64x32_S50x32_1_0_0_1_n_n none
          (eluT S50x64 bcast_S_S50x64
            (Host.dotGeneral (F := Ideal) (φ₁ := .f32) (φ₂ := .f32) dot_S50x128_S128x64_S50x64_1_0_0_1_n_n none p
              (transpose S128x64 [1, 0] a17 transposes_S64x128_S128x64_1_0)))
          (transpose S64x32 [1, 0] a18 transposes_S32x64_S64x32_1_0)))
      (transpose S32x1 [1, 0] a19 transposes_S1x32_S32x1_1_0))
    shapeCasts_S50x1_S50

end Cert.ReferenceIdeal.RVal

end
-- ==== Proof.RRunOps.lean ====
import proofs.«410384_j15272903704942_3_alg».proof.ReferenceIdeal
import proofs.«410384_j15272903704942_3_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev opsPre : List (HloOp τ sig (Elt F)) :=
  [ StableHlo.unary main_arg8 main_v0 (transpose S98x128 [1, 0] · transposes_S128x98_S98x128_1_0),
    StableHlo.binary main_arg0 main_v0 main_v1 (fun l r => Host.dotGeneral dot_S20000x98_S98x128_S20000x128_1_0_0_1_n_n none l r),
    StableHlo.unary main_v1 main_v2 Host.negf,
    StableHlo.unary main_v2 main_v3 Host.exp,
    StableHlo.nullary main_cst (constant S_ .f32 0x3F800000#32),
    StableHlo.unary main_cst main_v4 (broadcastInDim S20000x128 ![] bcast_S_S20000x128),
    StableHlo.binary main_v4 main_v3 main_v5 addf,
    StableHlo.nullary main_cst_0 (constant S_ .f32 0x3F800000#32),
    StableHlo.unary main_cst_0 main_v6 (broadcastInDim S20000x128 ![] bcast_S_S20000x128),
    StableHlo.binary main_v6 main_v5 main_v7 Host.divf,
    StableHlo.unary main_arg3 main_v8 (broadcastInDim S160000x1 ![0] bcast_S160000_S160000x1_0),
    StableHlo.nullary main_cst_1 (constant S_ .f32 0x41000000#32),
    StableHlo.unary main_cst_1 main_v9 (broadcastInDim S160000x1 ![] bcast_S_S160000x1),
    StableHlo.binary main_v8 main_v9 main_v10 (cmpf .olt),
    StableHlo.unary main_v10 main_v11 (uitofp .f32),
    StableHlo.nullary main_cst_2 (constant S_ .f32 0x00000000#32),
    StableHlo.unary main_cst_2 main_v12 (broadcastInDim S50x128 ![] bcast_S_S50x128) ]

abbrev opsEdge0 : List (HloOp τ sig (Elt F)) :=
  [ StableHlo.nullary main_c (constantI S_ 32 0#32),
    StableHlo.unary main_c main_v13 (broadcastInDim S160000 ![] bcast_S_S160000),
    StableHlo.binary main_arg1 main_v13 main_v14 (cmpi .slt),
    StableHlo.nullary main_c_3 (constantI S_ 32 20000#32),
    StableHlo.unary main_c_3 main_v15 (broadcastInDim S160000 ![] bcast_S_S160000),
    StableHlo.binary main_arg1 main_v15 main_v16 addi,
    StableHlo.ternary main_v14 main_v16 main_arg1 main_v17 select,
    StableHlo.unary main_v17 main_v18 (broadcastInDim S160000x1 ![0] bcast_S160000_S160000x1_0),
    StableHlo.binary main_v7 main_v18 main_v19 (fun x i => Host.gather gather_S20000x128_S160000x1_S160000x128_1_0_n_n_0_1_1128 x i),
    StableHlo.nullary main_c_4 (constantI S_ 32 0#32),
    StableHlo.unary main_c_4 main_v20 (broadcastInDim S160000 ![] bcast_S_S160000),
    StableHlo.binary main_arg2 main_v20 main_v21 (cmpi .slt),
    StableHlo.nullary main_c_5 (constantI S_ 32 20000#32),
    StableHlo.unary main_c_5 main_v22 (broadcastInDim S160000 ![] bcast_S_S160000),
    StableHlo.binary main_arg2 main_v22 main_v23 addi,
    StableHlo.ternary main_v21 main_v23 main_arg2 main_v24 select,
    StableHlo.unary main_v24 main_v25 (broadcastInDim S160000x1 ![0] bcast_S160000_S160000x1_0),
    StableHlo.binary main_v7 main_v25 main_v26 (fun x i => Host.gather gather_S20000x128_S160000x1_S160000x128_1_0_n_n_0_1_1128 x i),
    StableHlo.binary main_v19 main_v26 main_v27 subf,
    StableHlo.unary main_v8 main_v28 (broadcastInDim S160000x128 ![0, 1] bcast_S160000x1_S160000x128_0_1),
    StableHlo.binary main_v27 main_v28 main_v29 Host.divf,
    StableHlo.nary ![main_v19, main_v26, main_v29] main_v30 (fun u => concatenate S160000x384 1 [⟨S160000x128, u 0⟩, ⟨S160000x128, u 1⟩, ⟨S160000x128, u 2⟩] concatenates_S160000x128_S160000x128_S160000x128_S160000x384_d1),
    StableHlo.unary main_arg12 main_v31 (extractStridedSlice S1x128x384 ![0, 0, 0] · slices_S3x128x384_S1x128x384_0_0_0),
    StableHlo.reshape main_v31 main_v32 rfl shapeCasts_S1x128x384_S128x384,
    StableHlo.unary main_v32 main_v33 (transpose S384x128 [1, 0] · transposes_S128x384_S384x128_1_0),
    StableHlo.binary main_v30 main_v33 main_v34 (fun l r => Host.dotGeneral dot_S160000x384_S384x128_S160000x128_1_0_0_1_n_n none l r),
    StableHlo.unary main_v34 main_v35 Host.negf,
    StableHlo.unary main_v35 main_v36 Host.exp,
    StableHlo.nullary main_cst_6 (constant S_ .f32 0x3F800000#32),
    StableHlo.unary main_cst_6 main_v37 (broadcastInDim S160000x128 ![] bcast_S_S160000x128),
    StableHlo.binary main_v37 main_v36 main_v38 addf,
    StableHlo.nullary main_cst_7 (constant S_ .f32 0x3F800000#32),
    StableHlo.unary main_cst_7 main_v39 (broadcastInDim S160000x128 ![] bcast_S_S160000x128),
    StableHlo.binary main_v39 main_v38 main_v40 Host.divf,
    StableHlo.unary main_arg13 main_v41 (extractStridedSlice S1x128x384 ![0, 0, 0] · slices_S3x128x384_S1x128x384_0_0_0),
    StableHlo.reshape main_v41 main_v42 rfl shapeCasts_S1x128x384_S128x384,
    StableHlo.unary main_v42 main_v43 (transpose S384x128 [1, 0] · transposes_S128x384_S384x128_1_0),
    StableHlo.binary main_v30 main_v43 main_v44 (fun l r => Host.dotGeneral dot_S160000x384_S384x128_S160000x128_1_0_0_1_n_n none l r),
    StableHlo.TRef.nullary main_call0.cst (constant S_ .f32 0x00000000#32),
    StableHlo.TRef.unary main_call0.cst main_call0.v0 (broadcastInDim S160000x128 ![] bcast_S_S160000x128),
    StableHlo.TRef.binary (.of main_v44) main_call0.v0 main_call0.v1 (cmpf .ogt),
    StableHlo.TRef.nullary main_call0.cst_0 (constant S_ .f32 0x00000000#32),
    StableHlo.TRef.unary main_call0.cst_0 main_call0.v2 (broadcastInDim S160000x128 ![] bcast_S_S160000x128),
    StableHlo.TRef.binary (.of main_v44) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S160000x128 ![] bcast_S_S160000x128),
    StableHlo.TRef.ternary main_call0.v3 main_call0.call0.v1 (.of main_v44) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S160000x128 ![] bcast_S_S160000x128),
    StableHlo.TRef.binary main_call0.v6 main_call0.v5 main_call0.v7 mulf,
    StableHlo.TRef.ternary main_call0.v1 (.of main_v44) main_call0.v7 main_call0.call1.v0 select,
    StableHlo.unary main_arg9 main_v46 (extractStridedSlice S1x128x64 ![0, 0, 0] · slices_S3x128x64_S1x128x64_0_0_0),
    StableHlo.reshape main_v46 main_v47 rfl shapeCasts_S1x128x64_S128x64,
    StableHlo.unary main_v47 main_v48 (transpose S64x128 [1, 0] · transposes_S128x64_S64x128_1_0),
    StableHlo.binary main_arg6 main_v48 main_v49 (fun l r => Host.dotGeneral dot_S160000x64_S64x128_S160000x128_1_0_0_1_n_n none l r),
    StableHlo.unary main_arg11 main_v50 (extractStridedSlice S1x64x64 ![0, 0, 0] · slices_S3x64x64_S1x64x64_0_0_0),
    StableHlo.reshape main_v50 main_v51 rfl shapeCasts_S1x64x64_S64x64,
    StableHlo.unary main_v51 main_v52 (transpose S64x64 [1, 0] · transposes_S64x64_S64x64_1_0),
    StableHlo.binary main_arg7 main_v52 main_v53 (fun l r => Host.dotGeneral dot_S160000x64_S64x64_S160000x64_1_0_0_1_n_n none l r),
    StableHlo.unary main_v53 main_v54 Host.negf,
    StableHlo.unary main_v54 main_v55 Host.exp,
    StableHlo.nullary main_cst_8 (constant S_ .f32 0x3F800000#32),
    StableHlo.unary main_cst_8 main_v56 (broadcastInDim S160000x64 ![] bcast_S_S160000x64),
    StableHlo.binary main_v56 main_v55 main_v57 addf,
    StableHlo.nullary main_cst_9 (constant S_ .f32 0x3F800000#32),
    StableHlo.unary main_cst_9 main_v58 (broadcastInDim S160000x64 ![] bcast_S_S160000x64),
    StableHlo.binary main_v58 main_v57 main_v59 Host.divf,
    StableHlo.binary main_arg7 main_v59 main_v60 mulf,
    StableHlo.unary main_arg10 main_v61 (extractStridedSlice S1x128x64 ![0, 0, 0] · slices_S3x128x64_S1x128x64_0_0_0),
    StableHlo.reshape main_v61 main_v62 rfl shapeCasts_S1x128x64_S128x64,
    StableHlo.unary main_v62 main_v63 (transpose S64x128 [1, 0] · transposes_S128x64_S64x128_1_0),
    StableHlo.binary main_v60 main_v63 main_v64 (fun l r => Host.dotGeneral dot_S160000x64_S64x128_S160000x128_1_0_0_1_n_n none l r),
    StableHlo.binary main_v40 main_v45 main_v65 mulf,
    StableHlo.binary main_v49 main_v64 main_v66 addf,
    StableHlo.binary main_v65 main_v66 main_v67 mulf,
    StableHlo.unary main_v11 main_v68 (broadcastInDim S160000x128 ![0, 1] bcast_S160000x1_S160000x128_0_1),
    StableHlo.binary main_v67 main_v68 main_v69 mulf ]

abbrev opsNode0 : List (HloOp τ sig (Elt F)) :=
  [ StableHlo.nullary main_c_10 (constantI S_ 32 0#32),
    StableHlo.unary main_c_10 main_v70 (broadcastInDim S160000 ![] bcast_S_S160000),
    StableHlo.binary main_arg1 main_v70 main_v71 (cmpi .slt),
    StableHlo.nullary main_c_11 (constantI S_ 32 20000#32),
    StableHlo.unary main_c_11 main_v72 (broadcastInDim S160000 ![] bcast_S_S160000),
    StableHlo.binary main_arg1 main_v72 main_v73 addi,
    StableHlo.ternary main_v71 main_v73 main_arg1 main_v74 select,
    StableHlo.unary main_v74 main_v75 (broadcastInDim S160000x1 ![0] bcast_S160000_S160000x1_0),
    StableHlo.ternary main_v7 main_v75 main_v69 main_v76 (fun x i u => Host.scatterAdd scatter_S20000x128_S160000x1_S160000x128_1_0_0_1 x i u),
    StableHlo.unary main_arg15 main_v77 (extractStridedSlice S1x128x128 ![0, 0, 0] · slices_S3x128x128_S1x128x128_0_0_0),
    StableHlo.reshape main_v77 main_v78 rfl shapeCasts_S1x128x128_S128x128,
    StableHlo.unary main_v78 main_v79 (transpose S128x128 [1, 0] · transposes_S128x128_S128x128_1_0),
    StableHlo.binary main_v76 main_v79 main_v80 (fun l r => Host.dotGeneral dot_S20000x128_S128x128_S20000x128_1_0_0_1_n_n none l r),
    StableHlo.TRef.nullary main_call1.cst (constant S_ .f32 0x00000000#32),
    StableHlo.TRef.unary main_call1.cst main_call1.v0 (broadcastInDim S20000x128 ![] bcast_S_S20000x128),
    StableHlo.TRef.binary (.of main_v80) main_call1.v0 main_call1.v1 (cmpf .ogt),
    StableHlo.TRef.nullary main_call1.cst_0 (constant S_ .f32 0x00000000#32),
    StableHlo.TRef.unary main_call1.cst_0 main_call1.v2 (broadcastInDim S20000x128 ![] bcast_S_S20000x128),
    StableHlo.TRef.binary (.of main_v80) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S20000x128 ![] bcast_S_S20000x128),
    StableHlo.TRef.ternary main_call1.v3 main_call1.call0.v1 (.of main_v80) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S20000x128 ![] bcast_S_S20000x128),
    StableHlo.TRef.binary main_call1.v6 main_call1.v5 main_call1.v7 mulf,
    StableHlo.TRef.ternary main_call1.v1 (.of main_v80) main_call1.v7 main_call1.call1.v0 select,
    StableHlo.unary main_arg16 main_v82 (extractStridedSlice S1x128x128 ![0, 0, 0] · slices_S3x128x128_S1x128x128_0_0_0),
    StableHlo.reshape main_v82 main_v83 rfl shapeCasts_S1x128x128_S128x128,
    StableHlo.unary main_v83 main_v84 (transpose S128x128 [1, 0] · transposes_S128x128_S128x128_1_0),
    StableHlo.binary main_v76 main_v84 main_v85 (fun l r => Host.dotGeneral dot_S20000x128_S128x128_S20000x128_1_0_0_1_n_n none l r),
    StableHlo.binary main_v81 main_v85 main_v86 mulf,
    StableHlo.nullary main_cst_12 (constant S_ .f32 0x00000000#32),
    StableHlo.unary main_cst_12 main_v87 (broadcastInDim S50x128 ![] bcast_S_S50x128),
    StableHlo.unary main_arg4 main_v88 (broadcastInDim S20000x1 ![0] bcast_S20000_S20000x1_0),
    StableHlo.ternary main_v87 main_v88 main_v86 main_v89 (fun x i u => Host.scatterAdd scatter_S50x128_S20000x1_S20000x128_1_0_0_1 x i u),
    StableHlo.binary main_v12 main_v89 main_v90 addf,
    StableHlo.unary main_arg14 main_v91 (extractStridedSlice S1x128x128 ![0, 0, 0] · slices_S3x128x128_S1x128x128_0_0_0),
    StableHlo.reshape main_v91 main_v92 rfl shapeCasts_S1x128x128_S128x128,
    StableHlo.unary main_v92 main_v93 (transpose S128x128 [1, 0] · transposes_S128x128_S128x128_1_0),
    StableHlo.binary main_v76 main_v93 main_v94 (fun l r => Host.dotGeneral dot_S20000x128_S128x128_S20000x128_1_0_0_1_n_n none l r),
    StableHlo.TRef.nullary main_call2.cst (constant S_ .f32 0x00000000#32),
    StableHlo.TRef.unary main_call2.cst main_call2.v0 (broadcastInDim S20000x128 ![] bcast_S_S20000x128),
    StableHlo.TRef.binary (.of main_v94) main_call2.v0 main_call2.v1 (cmpf .ogt),
    StableHlo.TRef.nullary main_call2.cst_0 (constant S_ .f32 0x00000000#32),
    StableHlo.TRef.unary main_call2.cst_0 main_call2.v2 (broadcastInDim S20000x128 ![] bcast_S_S20000x128),
    StableHlo.TRef.binary (.of main_v94) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S20000x128 ![] bcast_S_S20000x128),
    StableHlo.TRef.ternary main_call2.v3 main_call2.call0.v1 (.of main_v94) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S20000x128 ![] bcast_S_S20000x128),
    StableHlo.TRef.binary main_call2.v6 main_call2.v5 main_call2.v7 mulf,
    StableHlo.TRef.ternary main_call2.v1 (.of main_v94) main_call2.v7 main_call2.call1.v0 select ]

abbrev opsEdge1 : List (HloOp τ sig (Elt F)) :=
  [ StableHlo.nullary main_c_13 (constantI S_ 32 0#32),
    StableHlo.unary main_c_13 main_v96 (broadcastInDim S160000 ![] bcast_S_S160000),
    StableHlo.binary main_arg1 main_v96 main_v97 (cmpi .slt),
    StableHlo.nullary main_c_14 (constantI S_ 32 20000#32),
    StableHlo.unary main_c_14 main_v98 (broadcastInDim S160000 ![] bcast_S_S160000),
    StableHlo.binary main_arg1 main_v98 main_v99 addi,
    StableHlo.ternary main_v97 main_v99 main_arg1 main_v100 select,
    StableHlo.unary main_v100 main_v101 (broadcastInDim S160000x1 ![0] bcast_S160000_S160000x1_0),
    StableHlo.binary main_v95 main_v101 main_v102 (fun x i => Host.gather gather_S20000x128_S160000x1_S160000x128_1_0_n_n_0_1_1128 x i),
    StableHlo.nullary main_c_15 (constantI S_ 32 0#32),
    StableHlo.unary main_c_15 main_v103 (broadcastInDim S160000 ![] bcast_S_S160000),
    StableHlo.binary main_arg2 main_v103 main_v104 (cmpi .slt),
    StableHlo.nullary main_c_16 (constantI S_ 32 20000#32),
    StableHlo.unary main_c_16 main_v105 (broadcastInDim S160000 ![] bcast_S_S160000),
    StableHlo.binary main_arg2 main_v105 main_v106 addi,
    StableHlo.ternary main_v104 main_v106 main_arg2 main_v107 select,
    StableHlo.unary main_v107 main_v108 (broadcastInDim S160000x1 ![0] bcast_S160000_S160000x1_0),
    StableHlo.binary main_v95 main_v108 main_v109 (fun x i => Host.gather gather_S20000x128_S160000x1_S160000x128_1_0_n_n_0_1_1128 x i),
    StableHlo.binary main_v102 main_v109 main_v110 subf,
    StableHlo.unary main_v8 main_v111 (broadcastInDim S160000x128 ![0, 1] bcast_S160000x1_S160000x128_0_1),
    StableHlo.binary main_v110 main_v111 main_v112 Host.divf,
    StableHlo.nary ![main_v102, main_v109, main_v112] main_v113 (fun u => concatenate S160000x384 1 [⟨S160000x128, u 0⟩, ⟨S160000x128, u 1⟩, ⟨S160000x128, u 2⟩] concatenates_S160000x128_S160000x128_S160000x128_S160000x384_d1),
    StableHlo.unary main_arg12 main_v114 (extractStridedSlice S1x128x384 ![1, 0, 0] · slices_S3x128x384_S1x128x384_1_0_0),
    StableHlo.reshape main_v114 main_v115 rfl shapeCasts_S1x128x384_S128x384,
    StableHlo.unary main_v115 main_v116 (transpose S384x128 [1, 0] · transposes_S128x384_S384x128_1_0),
    StableHlo.binary main_v113 main_v116 main_v117 (fun l r => Host.dotGeneral dot_S160000x384_S384x128_S160000x128_1_0_0_1_n_n none l r),
    StableHlo.unary main_v117 main_v118 Host.negf,
    StableHlo.unary main_v118 main_v119 Host.exp,
    StableHlo.nullary main_cst_17 (constant S_ .f32 0x3F800000#32),
    StableHlo.unary main_cst_17 main_v120 (broadcastInDim S160000x128 ![] bcast_S_S160000x128),
    StableHlo.binary main_v120 main_v119 main_v121 addf,
    StableHlo.nullary main_cst_18 (constant S_ .f32 0x3F800000#32),
    StableHlo.unary main_cst_18 main_v122 (broadcastInDim S160000x128 ![] bcast_S_S160000x128),
    StableHlo.binary main_v122 main_v121 main_v123 Host.divf,
    StableHlo.unary main_arg13 main_v124 (extractStridedSlice S1x128x384 ![1, 0, 0] · slices_S3x128x384_S1x128x384_1_0_0),
    StableHlo.reshape main_v124 main_v125 rfl shapeCasts_S1x128x384_S128x384,
    StableHlo.unary main_v125 main_v126 (transpose S384x128 [1, 0] · transposes_S128x384_S384x128_1_0),
    StableHlo.binary main_v113 main_v126 main_v127 (fun l r => Host.dotGeneral dot_S160000x384_S384x128_S160000x128_1_0_0_1_n_n none l r),
    StableHlo.TRef.nullary main_call3.cst (constant S_ .f32 0x00000000#32),
    StableHlo.TRef.unary main_call3.cst main_call3.v0 (broadcastInDim S160000x128 ![] bcast_S_S160000x128),
    StableHlo.TRef.binary (.of main_v127) main_call3.v0 main_call3.v1 (cmpf .ogt),
    StableHlo.TRef.nullary main_call3.cst_0 (constant S_ .f32 0x00000000#32),
    StableHlo.TRef.unary main_call3.cst_0 main_call3.v2 (broadcastInDim S160000x128 ![] bcast_S_S160000x128),
    StableHlo.TRef.binary (.of main_v127) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S160000x128 ![] bcast_S_S160000x128),
    StableHlo.TRef.ternary main_call3.v3 main_call3.call0.v1 (.of main_v127) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S160000x128 ![] bcast_S_S160000x128),
    StableHlo.TRef.binary main_call3.v6 main_call3.v5 main_call3.v7 mulf,
    StableHlo.TRef.ternary main_call3.v1 (.of main_v127) main_call3.v7 main_call3.call1.v0 select,
    StableHlo.unary main_arg9 main_v129 (extractStridedSlice S1x128x64 ![1, 0, 0] · slices_S3x128x64_S1x128x64_1_0_0),
    StableHlo.reshape main_v129 main_v130 rfl shapeCasts_S1x128x64_S128x64,
    StableHlo.unary main_v130 main_v131 (transpose S64x128 [1, 0] · transposes_S128x64_S64x128_1_0),
    StableHlo.binary main_arg6 main_v131 main_v132 (fun l r => Host.dotGeneral dot_S160000x64_S64x128_S160000x128_1_0_0_1_n_n none l r),
    StableHlo.unary main_arg11 main_v133 (extractStridedSlice S1x64x64 ![1, 0, 0] · slices_S3x64x64_S1x64x64_1_0_0),
    StableHlo.reshape main_v133 main_v134 rfl shapeCasts_S1x64x64_S64x64,
    StableHlo.unary main_v134 main_v135 (transpose S64x64 [1, 0] · transposes_S64x64_S64x64_1_0),
    StableHlo.binary main_arg7 main_v135 main_v136 (fun l r => Host.dotGeneral dot_S160000x64_S64x64_S160000x64_1_0_0_1_n_n none l r),
    StableHlo.unary main_v136 main_v137 Host.negf,
    StableHlo.unary main_v137 main_v138 Host.exp,
    StableHlo.nullary main_cst_19 (constant S_ .f32 0x3F800000#32),
    StableHlo.unary main_cst_19 main_v139 (broadcastInDim S160000x64 ![] bcast_S_S160000x64),
    StableHlo.binary main_v139 main_v138 main_v140 addf,
    StableHlo.nullary main_cst_20 (constant S_ .f32 0x3F800000#32),
    StableHlo.unary main_cst_20 main_v141 (broadcastInDim S160000x64 ![] bcast_S_S160000x64),
    StableHlo.binary main_v141 main_v140 main_v142 Host.divf,
    StableHlo.binary main_arg7 main_v142 main_v143 mulf,
    StableHlo.unary main_arg10 main_v144 (extractStridedSlice S1x128x64 ![1, 0, 0] · slices_S3x128x64_S1x128x64_1_0_0),
    StableHlo.reshape main_v144 main_v145 rfl shapeCasts_S1x128x64_S128x64,
    StableHlo.unary main_v145 main_v146 (transpose S64x128 [1, 0] · transposes_S128x64_S64x128_1_0),
    StableHlo.binary main_v143 main_v146 main_v147 (fun l r => Host.dotGeneral dot_S160000x64_S64x128_S160000x128_1_0_0_1_n_n none l r),
    StableHlo.binary main_v123 main_v128 main_v148 mulf,
    StableHlo.binary main_v132 main_v147 main_v149 addf,
    StableHlo.binary main_v148 main_v149 main_v150 mulf,
    StableHlo.unary main_v11 main_v151 (broadcastInDim S160000x128 ![0, 1] bcast_S160000x1_S160000x128_0_1),
    StableHlo.binary main_v150 main_v151 main_v152 mulf ]

abbrev opsNode1 : List (HloOp τ sig (Elt F)) :=
  [ StableHlo.nullary main_c_21 (constantI S_ 32 0#32),
    StableHlo.unary main_c_21 main_v153 (broadcastInDim S160000 ![] bcast_S_S160000),
    StableHlo.binary main_arg1 main_v153 main_v154 (cmpi .slt),
    StableHlo.nullary main_c_22 (constantI S_ 32 20000#32),
    StableHlo.unary main_c_22 main_v155 (broadcastInDim S160000 ![] bcast_S_S160000),
    StableHlo.binary main_arg1 main_v155 main_v156 addi,
    StableHlo.ternary main_v154 main_v156 main_arg1 main_v157 select,
    StableHlo.unary main_v157 main_v158 (broadcastInDim S160000x1 ![0] bcast_S160000_S160000x1_0),
    StableHlo.ternary main_v95 main_v158 main_v152 main_v159 (fun x i u => Host.scatterAdd scatter_S20000x128_S160000x1_S160000x128_1_0_0_1 x i u),
    StableHlo.unary main_arg15 main_v160 (extractStridedSlice S1x128x128 ![1, 0, 0] · slices_S3x128x128_S1x128x128_1_0_0),
    StableHlo.reshape main_v160 main_v161 rfl shapeCasts_S1x128x128_S128x128,
    StableHlo.unary main_v161 main_v162 (transpose S128x128 [1, 0] · transposes_S128x128_S128x128_1_0),
    StableHlo.binary main_v159 main_v162 main_v163 (fun l r => Host.dotGeneral dot_S20000x128_S128x128_S20000x128_1_0_0_1_n_n none l r),
    StableHlo.TRef.nullary main_call4.cst (constant S_ .f32 0x00000000#32),
    StableHlo.TRef.unary main_call4.cst main_call4.v0 (broadcastInDim S20000x128 ![] bcast_S_S20000x128),
    StableHlo.TRef.binary (.of main_v163) main_call4.v0 main_call4.v1 (cmpf .ogt),
    StableHlo.TRef.nullary main_call4.cst_0 (constant S_ .f32 0x00000000#32),
    StableHlo.TRef.unary main_call4.cst_0 main_call4.v2 (broadcastInDim S20000x128 ![] bcast_S_S20000x128),
    StableHlo.TRef.binary (.of main_v163) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S20000x128 ![] bcast_S_S20000x128),
    StableHlo.TRef.ternary main_call4.v3 main_call4.call0.v1 (.of main_v163) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S20000x128 ![] bcast_S_S20000x128),
    StableHlo.TRef.binary main_call4.v6 main_call4.v5 main_call4.v7 mulf,
    StableHlo.TRef.ternary main_call4.v1 (.of main_v163) main_call4.v7 main_call4.call1.v0 select,
    StableHlo.unary main_arg16 main_v165 (extractStridedSlice S1x128x128 ![1, 0, 0] · slices_S3x128x128_S1x128x128_1_0_0),
    StableHlo.reshape main_v165 main_v166 rfl shapeCasts_S1x128x128_S128x128,
    StableHlo.unary main_v166 main_v167 (transpose S128x128 [1, 0] · transposes_S128x128_S128x128_1_0),
    StableHlo.binary main_v159 main_v167 main_v168 (fun l r => Host.dotGeneral dot_S20000x128_S128x128_S20000x128_1_0_0_1_n_n none l r),
    StableHlo.binary main_v164 main_v168 main_v169 mulf,
    StableHlo.nullary main_cst_23 (constant S_ .f32 0x00000000#32),
    StableHlo.unary main_cst_23 main_v170 (broadcastInDim S50x128 ![] bcast_S_S50x128),
    StableHlo.unary main_arg4 main_v171 (broadcastInDim S20000x1 ![0] bcast_S20000_S20000x1_0),
    StableHlo.ternary main_v170 main_v171 main_v169 main_v172 (fun x i u => Host.scatterAdd scatter_S50x128_S20000x1_S20000x128_1_0_0_1 x i u),
    StableHlo.binary main_v90 main_v172 main_v173 addf,
    StableHlo.unary main_arg14 main_v174 (extractStridedSlice S1x128x128 ![1, 0, 0] · slices_S3x128x128_S1x128x128_1_0_0),
    StableHlo.reshape main_v174 main_v175 rfl shapeCasts_S1x128x128_S128x128,
    StableHlo.unary main_v175 main_v176 (transpose S128x128 [1, 0] · transposes_S128x128_S128x128_1_0),
    StableHlo.binary main_v159 main_v176 main_v177 (fun l r => Host.dotGeneral dot_S20000x128_S128x128_S20000x128_1_0_0_1_n_n none l r),
    StableHlo.TRef.nullary main_call5.cst (constant S_ .f32 0x00000000#32),
    StableHlo.TRef.unary main_call5.cst main_call5.v0 (broadcastInDim S20000x128 ![] bcast_S_S20000x128),
    StableHlo.TRef.binary (.of main_v177) main_call5.v0 main_call5.v1 (cmpf .ogt),
    StableHlo.TRef.nullary main_call5.cst_0 (constant S_ .f32 0x00000000#32),
    StableHlo.TRef.unary main_call5.cst_0 main_call5.v2 (broadcastInDim S20000x128 ![] bcast_S_S20000x128),
    StableHlo.TRef.binary (.of main_v177) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S20000x128 ![] bcast_S_S20000x128),
    StableHlo.TRef.ternary main_call5.v3 main_call5.call0.v1 (.of main_v177) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S20000x128 ![] bcast_S_S20000x128),
    StableHlo.TRef.binary main_call5.v6 main_call5.v5 main_call5.v7 mulf,
    StableHlo.TRef.ternary main_call5.v1 (.of main_v177) main_call5.v7 main_call5.call1.v0 select ]

abbrev opsEdge2 : List (HloOp τ sig (Elt F)) :=
  [ StableHlo.nullary main_c_24 (constantI S_ 32 0#32),
    StableHlo.unary main_c_24 main_v179 (broadcastInDim S160000 ![] bcast_S_S160000),
    StableHlo.binary main_arg1 main_v179 main_v180 (cmpi .slt),
    StableHlo.nullary main_c_25 (constantI S_ 32 20000#32),
    StableHlo.unary main_c_25 main_v181 (broadcastInDim S160000 ![] bcast_S_S160000),
    StableHlo.binary main_arg1 main_v181 main_v182 addi,
    StableHlo.ternary main_v180 main_v182 main_arg1 main_v183 select,
    StableHlo.unary main_v183 main_v184 (broadcastInDim S160000x1 ![0] bcast_S160000_S160000x1_0),
    StableHlo.binary main_v178 main_v184 main_v185 (fun x i => Host.gather gather_S20000x128_S160000x1_S160000x128_1_0_n_n_0_1_1128 x i),
    StableHlo.nullary main_c_26 (constantI S_ 32 0#32),
    StableHlo.unary main_c_26 main_v186 (broadcastInDim S160000 ![] bcast_S_S160000),
    StableHlo.binary main_arg2 main_v186 main_v187 (cmpi .slt),
    StableHlo.nullary main_c_27 (constantI S_ 32 20000#32),
    StableHlo.unary main_c_27 main_v188 (broadcastInDim S160000 ![] bcast_S_S160000),
    StableHlo.binary main_arg2 main_v188 main_v189 addi,
    StableHlo.ternary main_v187 main_v189 main_arg2 main_v190 select,
    StableHlo.unary main_v190 main_v191 (broadcastInDim S160000x1 ![0] bcast_S160000_S160000x1_0),
    StableHlo.binary main_v178 main_v191 main_v192 (fun x i => Host.gather gather_S20000x128_S160000x1_S160000x128_1_0_n_n_0_1_1128 x i),
    StableHlo.binary main_v185 main_v192 main_v193 subf,
    StableHlo.unary main_v8 main_v194 (broadcastInDim S160000x128 ![0, 1] bcast_S160000x1_S160000x128_0_1),
    StableHlo.binary main_v193 main_v194 main_v195 Host.divf,
    StableHlo.nary ![main_v185, main_v192, main_v195] main_v196 (fun u => concatenate S160000x384 1 [⟨S160000x128, u 0⟩, ⟨S160000x128, u 1⟩, ⟨S160000x128, u 2⟩] concatenates_S160000x128_S160000x128_S160000x128_S160000x384_d1),
    StableHlo.unary main_arg12 main_v197 (extractStridedSlice S1x128x384 ![2, 0, 0] · slices_S3x128x384_S1x128x384_2_0_0),
    StableHlo.reshape main_v197 main_v198 rfl shapeCasts_S1x128x384_S128x384,
    StableHlo.unary main_v198 main_v199 (transpose S384x128 [1, 0] · transposes_S128x384_S384x128_1_0),
    StableHlo.binary main_v196 main_v199 main_v200 (fun l r => Host.dotGeneral dot_S160000x384_S384x128_S160000x128_1_0_0_1_n_n none l r),
    StableHlo.unary main_v200 main_v201 Host.negf,
    StableHlo.unary main_v201 main_v202 Host.exp,
    StableHlo.nullary main_cst_28 (constant S_ .f32 0x3F800000#32),
    StableHlo.unary main_cst_28 main_v203 (broadcastInDim S160000x128 ![] bcast_S_S160000x128),
    StableHlo.binary main_v203 main_v202 main_v204 addf,
    StableHlo.nullary main_cst_29 (constant S_ .f32 0x3F800000#32),
    StableHlo.unary main_cst_29 main_v205 (broadcastInDim S160000x128 ![] bcast_S_S160000x128),
    StableHlo.binary main_v205 main_v204 main_v206 Host.divf,
    StableHlo.unary main_arg13 main_v207 (extractStridedSlice S1x128x384 ![2, 0, 0] · slices_S3x128x384_S1x128x384_2_0_0),
    StableHlo.reshape main_v207 main_v208 rfl shapeCasts_S1x128x384_S128x384,
    StableHlo.unary main_v208 main_v209 (transpose S384x128 [1, 0] · transposes_S128x384_S384x128_1_0),
    StableHlo.binary main_v196 main_v209 main_v210 (fun l r => Host.dotGeneral dot_S160000x384_S384x128_S160000x128_1_0_0_1_n_n none l r),
    StableHlo.TRef.nullary main_call6.cst (constant S_ .f32 0x00000000#32),
    StableHlo.TRef.unary main_call6.cst main_call6.v0 (broadcastInDim S160000x128 ![] bcast_S_S160000x128),
    StableHlo.TRef.binary (.of main_v210) main_call6.v0 main_call6.v1 (cmpf .ogt),
    StableHlo.TRef.nullary main_call6.cst_0 (constant S_ .f32 0x00000000#32),
    StableHlo.TRef.unary main_call6.cst_0 main_call6.v2 (broadcastInDim S160000x128 ![] bcast_S_S160000x128),
    StableHlo.TRef.binary (.of main_v210) main_call6.v2 main_call6.v3 (cmpf .ogt),
    StableHlo.TRef.nullary main_call6.cst_1 (constant S_ .f32 0x00000000#32),
    StableHlo.TRef.unary main_call6.cst_1 main_call6.call0.v0 id,
    StableHlo.TRef.unary main_call6.call0.v0 main_call6.call0.v1 (broadcastInDim S160000x128 ![] bcast_S_S160000x128),
    StableHlo.TRef.ternary main_call6.v3 main_call6.call0.v1 (.of main_v210) main_call6.call0.v2 select,
    StableHlo.TRef.unary main_call6.call0.v2 main_call6.v5 Host.expm1,
    StableHlo.TRef.nullary main_call6.cst_2 (constant S_ .f32 0x3F800000#32),
    StableHlo.TRef.unary main_call6.cst_2 main_call6.v6 (broadcastInDim S160000x128 ![] bcast_S_S160000x128),
    StableHlo.TRef.binary main_call6.v6 main_call6.v5 main_call6.v7 mulf,
    StableHlo.TRef.ternary main_call6.v1 (.of main_v210) main_call6.v7 main_call6.call1.v0 select,
    StableHlo.unary main_arg9 main_v212 (extractStridedSlice S1x128x64 ![2, 0, 0] · slices_S3x128x64_S1x128x64_2_0_0),
    StableHlo.reshape main_v212 main_v213 rfl shapeCasts_S1x128x64_S128x64,
    StableHlo.unary main_v213 main_v214 (transpose S64x128 [1, 0] · transposes_S128x64_S64x128_1_0),
    StableHlo.binary main_arg6 main_v214 main_v215 (fun l r => Host.dotGeneral dot_S160000x64_S64x128_S160000x128_1_0_0_1_n_n none l r),
    StableHlo.unary main_arg11 main_v216 (extractStridedSlice S1x64x64 ![2, 0, 0] · slices_S3x64x64_S1x64x64_2_0_0),
    StableHlo.reshape main_v216 main_v217 rfl shapeCasts_S1x64x64_S64x64,
    StableHlo.unary main_v217 main_v218 (transpose S64x64 [1, 0] · transposes_S64x64_S64x64_1_0),
    StableHlo.binary main_arg7 main_v218 main_v219 (fun l r => Host.dotGeneral dot_S160000x64_S64x64_S160000x64_1_0_0_1_n_n none l r),
    StableHlo.unary main_v219 main_v220 Host.negf,
    StableHlo.unary main_v220 main_v221 Host.exp,
    StableHlo.nullary main_cst_30 (constant S_ .f32 0x3F800000#32),
    StableHlo.unary main_cst_30 main_v222 (broadcastInDim S160000x64 ![] bcast_S_S160000x64),
    StableHlo.binary main_v222 main_v221 main_v223 addf,
    StableHlo.nullary main_cst_31 (constant S_ .f32 0x3F800000#32),
    StableHlo.unary main_cst_31 main_v224 (broadcastInDim S160000x64 ![] bcast_S_S160000x64),
    StableHlo.binary main_v224 main_v223 main_v225 Host.divf,
    StableHlo.binary main_arg7 main_v225 main_v226 mulf,
    StableHlo.unary main_arg10 main_v227 (extractStridedSlice S1x128x64 ![2, 0, 0] · slices_S3x128x64_S1x128x64_2_0_0),
    StableHlo.reshape main_v227 main_v228 rfl shapeCasts_S1x128x64_S128x64,
    StableHlo.unary main_v228 main_v229 (transpose S64x128 [1, 0] · transposes_S128x64_S64x128_1_0),
    StableHlo.binary main_v226 main_v229 main_v230 (fun l r => Host.dotGeneral dot_S160000x64_S64x128_S160000x128_1_0_0_1_n_n none l r),
    StableHlo.binary main_v206 main_v211 main_v231 mulf,
    StableHlo.binary main_v215 main_v230 main_v232 addf,
    StableHlo.binary main_v231 main_v232 main_v233 mulf,
    StableHlo.unary main_v11 main_v234 (broadcastInDim S160000x128 ![0, 1] bcast_S160000x1_S160000x128_0_1),
    StableHlo.binary main_v233 main_v234 main_v235 mulf ]

abbrev opsNode2 : List (HloOp τ sig (Elt F)) :=
  [ StableHlo.nullary main_c_32 (constantI S_ 32 0#32),
    StableHlo.unary main_c_32 main_v236 (broadcastInDim S160000 ![] bcast_S_S160000),
    StableHlo.binary main_arg1 main_v236 main_v237 (cmpi .slt),
    StableHlo.nullary main_c_33 (constantI S_ 32 20000#32),
    StableHlo.unary main_c_33 main_v238 (broadcastInDim S160000 ![] bcast_S_S160000),
    StableHlo.binary main_arg1 main_v238 main_v239 addi,
    StableHlo.ternary main_v237 main_v239 main_arg1 main_v240 select,
    StableHlo.unary main_v240 main_v241 (broadcastInDim S160000x1 ![0] bcast_S160000_S160000x1_0),
    StableHlo.ternary main_v178 main_v241 main_v235 main_v242 (fun x i u => Host.scatterAdd scatter_S20000x128_S160000x1_S160000x128_1_0_0_1 x i u),
    StableHlo.unary main_arg15 main_v243 (extractStridedSlice S1x128x128 ![2, 0, 0] · slices_S3x128x128_S1x128x128_2_0_0),
    StableHlo.reshape main_v243 main_v244 rfl shapeCasts_S1x128x128_S128x128,
    StableHlo.unary main_v244 main_v245 (transpose S128x128 [1, 0] · transposes_S128x128_S128x128_1_0),
    StableHlo.binary main_v242 main_v245 main_v246 (fun l r => Host.dotGeneral dot_S20000x128_S128x128_S20000x128_1_0_0_1_n_n none l r),
    StableHlo.TRef.nullary main_call7.cst (constant S_ .f32 0x00000000#32),
    StableHlo.TRef.unary main_call7.cst main_call7.v0 (broadcastInDim S20000x128 ![] bcast_S_S20000x128),
    StableHlo.TRef.binary (.of main_v246) main_call7.v0 main_call7.v1 (cmpf .ogt),
    StableHlo.TRef.nullary main_call7.cst_0 (constant S_ .f32 0x00000000#32),
    StableHlo.TRef.unary main_call7.cst_0 main_call7.v2 (broadcastInDim S20000x128 ![] bcast_S_S20000x128),
    StableHlo.TRef.binary (.of main_v246) main_call7.v2 main_call7.v3 (cmpf .ogt),
    StableHlo.TRef.nullary main_call7.cst_1 (constant S_ .f32 0x00000000#32),
    StableHlo.TRef.unary main_call7.cst_1 main_call7.call0.v0 id,
    StableHlo.TRef.unary main_call7.call0.v0 main_call7.call0.v1 (broadcastInDim S20000x128 ![] bcast_S_S20000x128),
    StableHlo.TRef.ternary main_call7.v3 main_call7.call0.v1 (.of main_v246) main_call7.call0.v2 select,
    StableHlo.TRef.unary main_call7.call0.v2 main_call7.v5 Host.expm1,
    StableHlo.TRef.nullary main_call7.cst_2 (constant S_ .f32 0x3F800000#32),
    StableHlo.TRef.unary main_call7.cst_2 main_call7.v6 (broadcastInDim S20000x128 ![] bcast_S_S20000x128),
    StableHlo.TRef.binary main_call7.v6 main_call7.v5 main_call7.v7 mulf,
    StableHlo.TRef.ternary main_call7.v1 (.of main_v246) main_call7.v7 main_call7.call1.v0 select,
    StableHlo.unary main_arg16 main_v248 (extractStridedSlice S1x128x128 ![2, 0, 0] · slices_S3x128x128_S1x128x128_2_0_0),
    StableHlo.reshape main_v248 main_v249 rfl shapeCasts_S1x128x128_S128x128,
    StableHlo.unary main_v249 main_v250 (transpose S128x128 [1, 0] · transposes_S128x128_S128x128_1_0),
    StableHlo.binary main_v242 main_v250 main_v251 (fun l r => Host.dotGeneral dot_S20000x128_S128x128_S20000x128_1_0_0_1_n_n none l r),
    StableHlo.binary main_v247 main_v251 main_v252 mulf,
    StableHlo.nullary main_cst_34 (constant S_ .f32 0x00000000#32),
    StableHlo.unary main_cst_34 main_v253 (broadcastInDim S50x128 ![] bcast_S_S50x128),
    StableHlo.unary main_arg4 main_v254 (broadcastInDim S20000x1 ![0] bcast_S20000_S20000x1_0),
    StableHlo.ternary main_v253 main_v254 main_v252 main_v255 (fun x i u => Host.scatterAdd scatter_S50x128_S20000x1_S20000x128_1_0_0_1 x i u),
    StableHlo.binary main_v173 main_v255 main_v256 addf,
    StableHlo.unary main_arg14 main_v257 (extractStridedSlice S1x128x128 ![2, 0, 0] · slices_S3x128x128_S1x128x128_2_0_0),
    StableHlo.reshape main_v257 main_v258 rfl shapeCasts_S1x128x128_S128x128,
    StableHlo.unary main_v258 main_v259 (transpose S128x128 [1, 0] · transposes_S128x128_S128x128_1_0),
    StableHlo.binary main_v242 main_v259 main_v260 (fun l r => Host.dotGeneral dot_S20000x128_S128x128_S20000x128_1_0_0_1_n_n none l r),
    StableHlo.TRef.nullary main_call8.cst (constant S_ .f32 0x00000000#32),
    StableHlo.TRef.unary main_call8.cst main_call8.v0 (broadcastInDim S20000x128 ![] bcast_S_S20000x128),
    StableHlo.TRef.binary (.of main_v260) main_call8.v0 main_call8.v1 (cmpf .ogt),
    StableHlo.TRef.nullary main_call8.cst_0 (constant S_ .f32 0x00000000#32),
    StableHlo.TRef.unary main_call8.cst_0 main_call8.v2 (broadcastInDim S20000x128 ![] bcast_S_S20000x128),
    StableHlo.TRef.binary (.of main_v260) main_call8.v2 main_call8.v3 (cmpf .ogt),
    StableHlo.TRef.nullary main_call8.cst_1 (constant S_ .f32 0x00000000#32),
    StableHlo.TRef.unary main_call8.cst_1 main_call8.call0.v0 id,
    StableHlo.TRef.unary main_call8.call0.v0 main_call8.call0.v1 (broadcastInDim S20000x128 ![] bcast_S_S20000x128),
    StableHlo.TRef.ternary main_call8.v3 main_call8.call0.v1 (.of main_v260) main_call8.call0.v2 select,
    StableHlo.TRef.unary main_call8.call0.v2 main_call8.v5 Host.expm1,
    StableHlo.TRef.nullary main_call8.cst_2 (constant S_ .f32 0x3F800000#32),
    StableHlo.TRef.unary main_call8.cst_2 main_call8.v6 (broadcastInDim S20000x128 ![] bcast_S_S20000x128),
    StableHlo.TRef.binary main_call8.v6 main_call8.v5 main_call8.v7 mulf,
    StableHlo.TRef.ternary main_call8.v1 (.of main_v260) main_call8.v7 main_call8.call1.v0 select ]

abbrev opsHead : List (HloOp τ sig (Elt F)) :=
  [ StableHlo.unary main_arg17 main_v262 (transpose S128x64 [1, 0] · transposes_S64x128_S128x64_1_0),
    StableHlo.binary main_v256 main_v262 main_v263 (fun l r => Host.dotGeneral dot_S50x128_S128x64_S50x64_1_0_0_1_n_n none l r),
    StableHlo.TRef.nullary main_call9.cst (constant S_ .f32 0x00000000#32),
    StableHlo.TRef.unary main_call9.cst main_call9.v0 (broadcastInDim S50x64 ![] bcast_S_S50x64),
    StableHlo.TRef.binary (.of main_v263) main_call9.v0 main_call9.v1 (cmpf .ogt),
    StableHlo.TRef.nullary main_call9.cst_0 (constant S_ .f32 0x00000000#32),
    StableHlo.TRef.unary main_call9.cst_0 main_call9.v2 (broadcastInDim S50x64 ![] bcast_S_S50x64),
    StableHlo.TRef.binary (.of main_v263) main_call9.v2 main_call9.v3 (cmpf .ogt),
    StableHlo.TRef.nullary main_call9.cst_1 (constant S_ .f32 0x00000000#32),
    StableHlo.TRef.unary main_call9.cst_1 main_call9.call0.v0 id,
    StableHlo.TRef.unary main_call9.call0.v0 main_call9.call0.v1 (broadcastInDim S50x64 ![] bcast_S_S50x64),
    StableHlo.TRef.ternary main_call9.v3 main_call9.call0.v1 (.of main_v263) main_call9.call0.v2 select,
    StableHlo.TRef.unary main_call9.call0.v2 main_call9.v5 Host.expm1,
    StableHlo.TRef.nullary main_call9.cst_2 (constant S_ .f32 0x3F800000#32),
    StableHlo.TRef.unary main_call9.cst_2 main_call9.v6 (broadcastInDim S50x64 ![] bcast_S_S50x64),
    StableHlo.TRef.binary main_call9.v6 main_call9.v5 main_call9.v7 mulf,
    StableHlo.TRef.ternary main_call9.v1 (.of main_v263) main_call9.v7 main_call9.call1.v0 select,
    StableHlo.unary main_arg18 main_v265 (transpose S64x32 [1, 0] · transposes_S32x64_S64x32_1_0),
    StableHlo.binary main_v264 main_v265 main_v266 (fun l r => Host.dotGeneral dot_S50x64_S64x32_S50x32_1_0_0_1_n_n none l r),
    StableHlo.TRef.nullary main_call10.cst (constant S_ .f32 0x00000000#32),
    StableHlo.TRef.unary main_call10.cst main_call10.v0 (broadcastInDim S50x32 ![] bcast_S_S50x32),
    StableHlo.TRef.binary (.of main_v266) main_call10.v0 main_call10.v1 (cmpf .ogt),
    StableHlo.TRef.nullary main_call10.cst_0 (constant S_ .f32 0x00000000#32),
    StableHlo.TRef.unary main_call10.cst_0 main_call10.v2 (broadcastInDim S50x32 ![] bcast_S_S50x32),
    StableHlo.TRef.binary (.of main_v266) main_call10.v2 main_call10.v3 (cmpf .ogt),
    StableHlo.TRef.nullary main_call10.cst_1 (constant S_ .f32 0x00000000#32),
    StableHlo.TRef.unary main_call10.cst_1 main_call10.call0.v0 id,
    StableHlo.TRef.unary main_call10.call0.v0 main_call10.call0.v1 (broadcastInDim S50x32 ![] bcast_S_S50x32),
    StableHlo.TRef.ternary main_call10.v3 main_call10.call0.v1 (.of main_v266) main_call10.call0.v2 select,
    StableHlo.TRef.unary main_call10.call0.v2 main_call10.v5 Host.expm1,
    StableHlo.TRef.nullary main_call10.cst_2 (constant S_ .f32 0x3F800000#32),
    StableHlo.TRef.unary main_call10.cst_2 main_call10.v6 (broadcastInDim S50x32 ![] bcast_S_S50x32),
    StableHlo.TRef.binary main_call10.v6 main_call10.v5 main_call10.v7 mulf,
    StableHlo.TRef.ternary main_call10.v1 (.of main_v266) main_call10.v7 main_call10.call1.v0 select,
    StableHlo.unary main_arg19 main_v268 (transpose S32x1 [1, 0] · transposes_S1x32_S32x1_1_0),
    StableHlo.binary main_v267 main_v268 main_v269 (fun l r => Host.dotGeneral dot_S50x32_S32x1_S50x1_1_0_0_1_n_n none l r),
    StableHlo.reshape main_v269 main_v270 rfl shapeCasts_S50x1_S50 ]

abbrev ops : List (HloOp τ sig (Elt F)) :=
  opsPre ++ opsEdge0 ++ opsNode0 ++ opsEdge1 ++ opsNode1 ++ opsEdge2 ++ opsNode2 ++ opsHead

end Cert.ReferenceIdeal.Run

end
-- ==== Proof.RRunEq.lean ====
import proofs.«410384_j15272903704942_3_alg».proof.Proof.RRunOps
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

-- Both sides unfold to the same straight line of operations.
theorem main_eq (c : Dev nD) : main (F := F) c = seq ops := by chain_rfl

end Cert.ReferenceIdeal.Run

end
-- ==== Proof.RRunTab.lean ====
import proofs.«410384_j15272903704942_3_alg».proof.Proof.RRunOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev opsPre_W : List (Ref sig .tc) :=
  [main_v0, main_v1, main_v2, main_v3, main_cst, main_v4, main_v5, main_cst_0, main_v6, main_v7, main_v8, main_cst_1, main_v9, main_v10, main_v11, main_cst_2, main_v12]

abbrev opsEdge0_W : List (Ref sig .tc) :=
  [main_c, main_v13, main_v14, main_c_3, main_v15, main_v16, main_v17, main_v18, main_v19, main_c_4, main_v20, main_v21, main_c_5, main_v22, main_v23, main_v24, main_v25, main_v26, main_v27, main_v28, main_v29, main_v30, main_v31, main_v32, main_v33, main_v34, main_v35, main_v36, main_cst_6, main_v37, main_v38, main_cst_7, main_v39, main_v40, main_v41, main_v42, main_v43, main_v44, main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref, main_v46, main_v47, main_v48, main_v49, main_v50, main_v51, main_v52, main_v53, main_v54, main_v55, main_cst_8, main_v56, main_v57, main_cst_9, main_v58, main_v59, main_v60, main_v61, main_v62, main_v63, main_v64, main_v65, main_v66, main_v67, main_v68, main_v69]

abbrev opsNode0_W : List (Ref sig .tc) :=
  [main_c_10, main_v70, main_v71, main_c_11, main_v72, main_v73, main_v74, main_v75, main_v76, main_v77, main_v78, main_v79, main_v80, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref, main_v82, main_v83, main_v84, main_v85, main_v86, main_cst_12, main_v87, main_v88, main_v89, main_v90, main_v91, main_v92, main_v93, main_v94, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]

abbrev opsEdge1_W : List (Ref sig .tc) :=
  [main_c_13, main_v96, main_v97, main_c_14, main_v98, main_v99, main_v100, main_v101, main_v102, main_c_15, main_v103, main_v104, main_c_16, main_v105, main_v106, main_v107, main_v108, main_v109, main_v110, main_v111, main_v112, main_v113, main_v114, main_v115, main_v116, main_v117, main_v118, main_v119, main_cst_17, main_v120, main_v121, main_cst_18, main_v122, main_v123, main_v124, main_v125, main_v126, main_v127, main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref, main_v129, main_v130, main_v131, main_v132, main_v133, main_v134, main_v135, main_v136, main_v137, main_v138, main_cst_19, main_v139, main_v140, main_cst_20, main_v141, main_v142, main_v143, main_v144, main_v145, main_v146, main_v147, main_v148, main_v149, main_v150, main_v151, main_v152]

abbrev opsNode1_W : List (Ref sig .tc) :=
  [main_c_21, main_v153, main_v154, main_c_22, main_v155, main_v156, main_v157, main_v158, main_v159, main_v160, main_v161, main_v162, main_v163, main_call4.cst.ref, main_call4.v0.ref, main_call4.v1.ref, main_call4.cst_0.ref, main_call4.v2.ref, main_call4.v3.ref, main_call4.cst_1.ref, main_call4.call0.v0.ref, main_call4.call0.v1.ref, main_call4.call0.v2.ref, main_call4.v5.ref, main_call4.cst_2.ref, main_call4.v6.ref, main_call4.v7.ref, main_call4.call1.v0.ref, main_v165, main_v166, main_v167, main_v168, main_v169, main_cst_23, main_v170, main_v171, main_v172, main_v173, main_v174, main_v175, main_v176, main_v177, main_call5.cst.ref, main_call5.v0.ref, main_call5.v1.ref, main_call5.cst_0.ref, main_call5.v2.ref, main_call5.v3.ref, main_call5.cst_1.ref, main_call5.call0.v0.ref, main_call5.call0.v1.ref, main_call5.call0.v2.ref, main_call5.v5.ref, main_call5.cst_2.ref, main_call5.v6.ref, main_call5.v7.ref, main_call5.call1.v0.ref]

abbrev opsEdge2_W : List (Ref sig .tc) :=
  [main_c_24, main_v179, main_v180, main_c_25, main_v181, main_v182, main_v183, main_v184, main_v185, main_c_26, main_v186, main_v187, main_c_27, main_v188, main_v189, main_v190, main_v191, main_v192, main_v193, main_v194, main_v195, main_v196, main_v197, main_v198, main_v199, main_v200, main_v201, main_v202, main_cst_28, main_v203, main_v204, main_cst_29, main_v205, main_v206, main_v207, main_v208, main_v209, main_v210, main_call6.cst.ref, main_call6.v0.ref, main_call6.v1.ref, main_call6.cst_0.ref, main_call6.v2.ref, main_call6.v3.ref, main_call6.cst_1.ref, main_call6.call0.v0.ref, main_call6.call0.v1.ref, main_call6.call0.v2.ref, main_call6.v5.ref, main_call6.cst_2.ref, main_call6.v6.ref, main_call6.v7.ref, main_call6.call1.v0.ref, main_v212, main_v213, main_v214, main_v215, main_v216, main_v217, main_v218, main_v219, main_v220, main_v221, main_cst_30, main_v222, main_v223, main_cst_31, main_v224, main_v225, main_v226, main_v227, main_v228, main_v229, main_v230, main_v231, main_v232, main_v233, main_v234, main_v235]

abbrev opsNode2_W : List (Ref sig .tc) :=
  [main_c_32, main_v236, main_v237, main_c_33, main_v238, main_v239, main_v240, main_v241, main_v242, main_v243, main_v244, main_v245, main_v246, main_call7.cst.ref, main_call7.v0.ref, main_call7.v1.ref, main_call7.cst_0.ref, main_call7.v2.ref, main_call7.v3.ref, main_call7.cst_1.ref, main_call7.call0.v0.ref, main_call7.call0.v1.ref, main_call7.call0.v2.ref, main_call7.v5.ref, main_call7.cst_2.ref, main_call7.v6.ref, main_call7.v7.ref, main_call7.call1.v0.ref, main_v248, main_v249, main_v250, main_v251, main_v252, main_cst_34, main_v253, main_v254, main_v255, main_v256, main_v257, main_v258, main_v259, main_v260, main_call8.cst.ref, main_call8.v0.ref, main_call8.v1.ref, main_call8.cst_0.ref, main_call8.v2.ref, main_call8.v3.ref, main_call8.cst_1.ref, main_call8.call0.v0.ref, main_call8.call0.v1.ref, main_call8.call0.v2.ref, main_call8.v5.ref, main_call8.cst_2.ref, main_call8.v6.ref, main_call8.v7.ref, main_call8.call1.v0.ref]

abbrev opsHead_W : List (Ref sig .tc) :=
  [main_v262, main_v263, main_call9.cst.ref, main_call9.v0.ref, main_call9.v1.ref, main_call9.cst_0.ref, main_call9.v2.ref, main_call9.v3.ref, main_call9.cst_1.ref, main_call9.call0.v0.ref, main_call9.call0.v1.ref, main_call9.call0.v2.ref, main_call9.v5.ref, main_call9.cst_2.ref, main_call9.v6.ref, main_call9.v7.ref, main_call9.call1.v0.ref, main_v265, main_v266, main_call10.cst.ref, main_call10.v0.ref, main_call10.v1.ref, main_call10.cst_0.ref, main_call10.v2.ref, main_call10.v3.ref, main_call10.cst_1.ref, main_call10.call0.v0.ref, main_call10.call0.v1.ref, main_call10.call0.v2.ref, main_call10.v5.ref, main_call10.cst_2.ref, main_call10.v6.ref, main_call10.v7.ref, main_call10.call1.v0.ref, main_v268, main_v269, main_v270]

end Cert.ReferenceIdeal.Run

end
-- ==== Proof.RRunKeep.lean ====
import proofs.«410384_j15272903704942_3_alg».proof.Proof.RRunTab
import Idealize.ShloMosaic.Lib.Pipeline.Frame

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

-- Each operation writes only its result, a member of the list of references given.
macro "writes_in_list" : tactic => `(tactic| (
  repeat' constructor
  all_goals exact Finset.singleton_subset_iff.mpr (List.mem_toFinset.mpr (List.mem_map_of_mem (by decide)))))

theorem opsPre_keep (V : Valuation τ sig (Elt F)) (r : Ref sig .tc) (h : r ∉ opsPre_W) :
    after opsPre V (Proc.devRef .tc r) = V (Proc.devRef .tc r) :=
  after_of_writes_sub opsPre V (by writes_in_list) h

theorem opsEdge0_keep (V : Valuation τ sig (Elt F)) (r : Ref sig .tc) (h : r ∉ opsEdge0_W) :
    after opsEdge0 V (Proc.devRef .tc r) = V (Proc.devRef .tc r) :=
  after_of_writes_sub opsEdge0 V (by writes_in_list) h

theorem opsNode0_keep (V : Valuation τ sig (Elt F)) (r : Ref sig .tc) (h : r ∉ opsNode0_W) :
    after opsNode0 V (Proc.devRef .tc r) = V (Proc.devRef .tc r) :=
  after_of_writes_sub opsNode0 V (by writes_in_list) h

theorem opsEdge1_keep (V : Valuation τ sig (Elt F)) (r : Ref sig .tc) (h : r ∉ opsEdge1_W) :
    after opsEdge1 V (Proc.devRef .tc r) = V (Proc.devRef .tc r) :=
  after_of_writes_sub opsEdge1 V (by writes_in_list) h

theorem opsNode1_keep (V : Valuation τ sig (Elt F)) (r : Ref sig .tc) (h : r ∉ opsNode1_W) :
    after opsNode1 V (Proc.devRef .tc r) = V (Proc.devRef .tc r) :=
  after_of_writes_sub opsNode1 V (by writes_in_list) h

theorem opsEdge2_keep (V : Valuation τ sig (Elt F)) (r : Ref sig .tc) (h : r ∉ opsEdge2_W) :
    after opsEdge2 V (Proc.devRef .tc r) = V (Proc.devRef .tc r) :=
  after_of_writes_sub opsEdge2 V (by writes_in_list) h

theorem opsNode2_keep (V : Valuation τ sig (Elt F)) (r : Ref sig .tc) (h : r ∉ opsNode2_W) :
    after opsNode2 V (Proc.devRef .tc r) = V (Proc.devRef .tc r) :=
  after_of_writes_sub opsNode2 V (by writes_in_list) h

theorem opsHead_keep (V : Valuation τ sig (Elt F)) (r : Ref sig .tc) (h : r ∉ opsHead_W) :
    after opsHead V (Proc.devRef .tc r) = V (Proc.devRef .tc r) :=
  after_of_writes_sub opsHead V (by writes_in_list) h

abbrev ops_W : List (Ref sig .tc) :=
  opsPre_W ++ opsEdge0_W ++ opsNode0_W ++ opsEdge1_W ++ opsNode1_W ++ opsEdge2_W ++ opsNode2_W ++ opsHead_W

abbrev args : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19]

theorem args_not_written : ∀ r ∈ args, r ∉ ops_W := by decide

-- No chunk writes an argument, so each chunk in turn leaves it as it was.
theorem arg_kept (V : Valuation τ sig (Elt F)) (r : Ref sig .tc) (hr : r ∈ args) :
    after ops V (Proc.devRef .tc r) = V (Proc.devRef .tc r) := by
  have h := args_not_written r hr
  simp only [ops_W, List.mem_append, not_or] at h
  simp only [ops, after_append]
  rw [opsHead_keep _ r h.2, opsNode2_keep _ r h.1.2, opsEdge2_keep _ r h.1.1.2, opsNode1_keep _ r h.1.1.1.2,
    opsEdge1_keep _ r h.1.1.1.1.2, opsNode0_keep _ r h.1.1.1.1.1.2, opsEdge0_keep _ r h.1.1.1.1.1.1.2,
    opsPre_keep _ r h.1.1.1.1.1.1.1]

end Cert.ReferenceIdeal.Run

end
-- ==== Proof.RRun.lean ====
import proofs.«410384_j15272903704942_3_alg».proof.Proof.RRunEq
import proofs.«410384_j15272903704942_3_alg».proof.Proof.RRunKeep

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

-- Each operation is one of the builders: it touches TensorCore references only and determines its result.
theorem ops_ok : (ops : List (HloOp τ sig (Elt F))).Forall fun op => op.bufs ⊆ tcRefs τ sig ∧ op.fresh = ∅ := by
  repeat' constructor
  all_goals with_reducible first | exact unary_bufs_sub .. | exact binary_bufs_sub .. | exact nullary_bufs_sub .. | exact ternary_bufs_sub .. | exact reshape_bufs_sub .. | exact nary_bufs_sub ..

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq (by decide) (by decide) defs main (fun _ => ops) main_eq (fun _ => ops_ok.imp fun _ h => h.1) m ρ
    fun _ => List.forall_iff_forall_mem.mp (ops_ok.imp fun _ h => h.2)

end Cert.ReferenceIdeal.Run

end
-- ==== Proof.Cross.lean ====
import proofs.«410384_j15272903704942_3_alg».proof.KernelIdeal
import proofs.«410384_j15272903704942_3_alg».proof.ReferenceIdeal
import proofs.«410384_j15272903704942_3_alg».proof.Proof.KDefs
import proofs.«410384_j15272903704942_3_alg».proof.Proof.RDefs
import Idealize.ShloMosaic.PureOps.Ideal
import Idealize.ShloMosaic.Lib.ValueIdx
import Idealize.ShloMosaic.Lib.Pipeline.Value

noncomputable section

namespace Cert.Cross

open Idealize.ShloMosaic Idealize.ShloMosaic.ValueIdx

/-- Transposing the whole stack and cutting block `b` out, or cutting block `b` out and transposing it: both read `W (b, h, k)`. -/
theorem block_transpose {α : Type} {A B : Nat} (b : Nat) (W : (⟨3, ![3, A, B]⟩ : Shape).Idx → α)
    (hT : (⟨3, ![3, A, B]⟩ : Shape).Transposes [0, 2, 1] ⟨3, ![3, B, A]⟩)
    (hS : (⟨3, ![3, B, A]⟩ : Shape).Slices ![b, 0, 0] ⟨3, ![1, B, A]⟩)
    (hC : (⟨3, ![1, B, A]⟩ : Shape).ShapeCasts ⟨2, ![B, A]⟩)
    (hS' : (⟨3, ![3, A, B]⟩ : Shape).Slices ![b, 0, 0] ⟨3, ![1, A, B]⟩)
    (hC' : (⟨3, ![1, A, B]⟩ : Shape).ShapeCasts ⟨2, ![A, B]⟩)
    (hT' : (⟨2, ![A, B]⟩ : Shape).Transposes [1, 0] ⟨2, ![B, A]⟩) :
    shapeCast ⟨2, ![B, A]⟩ (extractStridedSlice ⟨3, ![1, B, A]⟩ ![b, 0, 0] (transpose ⟨3, ![3, B, A]⟩ [0, 2, 1] W hT) hS) hC
      = transpose ⟨2, ![B, A]⟩ [1, 0] (shapeCast ⟨2, ![A, B]⟩ (extractStridedSlice ⟨3, ![1, A, B]⟩ ![b, 0, 0] W hS') hC') hT' := by
  funext j
  obtain ⟨p, q, rfl⟩ : ∃ (p : Fin B) (q : Fin A), j = ix2 p q := ⟨j 0, j 1, eq_ix2 j⟩
  have hb : b < 3 := by
    have := hS.2 0
    simpa using this

  trans W (ix3 (⟨b, hb⟩ : Fin 3) q p)
  · refine (shapeCast_apply _ hC (ix2 p q) (ix3 (0 : Fin 1) p q) ?_).trans ?_
    · rw [Shape.rowMajor_val_three, Shape.rowMajor_val_two]
      show ((0 : Nat) * B + p.val) * A + q.val = p.val * A + q.val
      rw [Nat.zero_mul, Nat.zero_add]
    refine (extractStridedSlice_apply _ _ hS (ix3 (0 : Fin 1) p q) (ix3 (⟨b, hb⟩ : Fin 3) p q) ?_).trans ?_
    · intro a; match a with
      | ⟨0, _⟩ => simp
      | ⟨1, _⟩ => simp
      | ⟨2, _⟩ => simp
    refine transpose_apply _ W hT (ix3 (⟨b, hb⟩ : Fin 3) p q) (ix3 (⟨b, hb⟩ : Fin 3) q p) ?_
    intro a; match a with
      | ⟨0, _⟩ => rfl
      | ⟨1, _⟩ => rfl
      | ⟨2, _⟩ => rfl
  · symm
    refine (transpose_apply _ _ hT' (ix2 p q) (ix2 q p) ?_).trans ?_
    · intro a; match a with
      | ⟨0, _⟩ => rfl
      | ⟨1, _⟩ => rfl
    refine (shapeCast_apply _ hC' (ix2 q p) (ix3 (0 : Fin 1) q p) ?_).trans ?_
    · rw [Shape.rowMajor_val_three, Shape.rowMajor_val_two]
      show ((0 : Nat) * A + q.val) * B + p.val = q.val * B + p.val
      rw [Nat.zero_mul, Nat.zero_add]
    refine extractStridedSlice_apply _ W hS' (ix3 (0 : Fin 1) q p) (ix3 (⟨b, hb⟩ : Fin 3) q p) ?_
    intro a; match a with
      | ⟨0, _⟩ => simp
      | ⟨1, _⟩ => simp
      | ⟨2, _⟩ => simp

open Cert.KernelIdeal.KVal Cert.ReferenceIdeal.RVal

theorem gK_eq_gR : gK = gR := rfl

theorem sK_eq_sR : sK = sR := rfl

theorem w384_eq (a : FVec Ideal Cert.KernelIdeal.S3x128x384 .f32) : w384K a = w384T a := funext fun
  | ⟨0, _⟩ => block_transpose 0 a _ _ _ _ _ _
  | ⟨1, _⟩ => block_transpose 1 a _ _ _ _ _ _
  | ⟨2, _⟩ => block_transpose 2 a _ _ _ _ _ _

theorem w64_eq (a : FVec Ideal Cert.KernelIdeal.S3x128x64 .f32) : w64K a = w64T a := funext fun
  | ⟨0, _⟩ => block_transpose 0 a _ _ _ _ _ _
  | ⟨1, _⟩ => block_transpose 1 a _ _ _ _ _ _
  | ⟨2, _⟩ => block_transpose 2 a _ _ _ _ _ _

theorem w64x64_eq (a : FVec Ideal Cert.KernelIdeal.S3x64x64 .f32) : w64x64K a = w64x64T a := funext fun
  | ⟨0, _⟩ => block_transpose 0 a _ _ _ _ _ _
  | ⟨1, _⟩ => block_transpose 1 a _ _ _ _ _ _
  | ⟨2, _⟩ => block_transpose 2 a _ _ _ _ _ _

theorem w128_eq (a : FVec Ideal Cert.KernelIdeal.S3x128x128 .f32) : w128K a = w128T a := funext fun
  | ⟨0, _⟩ => block_transpose 0 a _ _ _ _ _ _
  | ⟨1, _⟩ => block_transpose 1 a _ _ _ _ _ _
  | ⟨2, _⟩ => block_transpose 2 a _ _ _ _ _ _

/-- The two programs lay their sixteen inputs out in the same way. -/
theorem argsK_eq_argsR (a0 : FVec Ideal Cert.KernelIdeal.S20000x98 .f32) (a1 a2 : IVec Cert.KernelIdeal.S160000 32)
    (a3 : FVec Ideal Cert.KernelIdeal.S160000 .f32) (a4 : IVec Cert.KernelIdeal.S20000 32)
    (a6 a7 : FVec Ideal Cert.KernelIdeal.S160000x64 .f32) (a8 : FVec Ideal Cert.KernelIdeal.S128x98 .f32)
    (a9 a10 : FVec Ideal Cert.KernelIdeal.S3x128x64 .f32) (a11 : FVec Ideal Cert.KernelIdeal.S3x64x64 .f32)
    (a12 a13 : FVec Ideal Cert.KernelIdeal.S3x128x384 .f32) (a14 a15 a16 : FVec Ideal Cert.KernelIdeal.S3x128x128 .f32) :
    argsK a0 a1 a2 a3 a4 a6 a7 a8 a9 a10 a11 a12 a13 a14 a15 a16
      = argsR a0 a1 a2 a3 a4 a6 a7 a8 a9 a10 a11 a12 a13 a14 a15 a16 := by
  simp only [argsK, argsR, w384_eq, w64_eq, w64x64_eq, w128_eq]
  rfl

theorem tailK_eq_tailR : tailK = tailR := rfl

end Cert.Cross

end
-- ==== Proof.PreDecode.lean ====
import proofs.«410384_j15272903704942_3_alg».proof.Pre_finite_inputs
import Idealize.ShloMosaic.PureOps.Ideal.Laws
import Idealize.ShloMosaic.Lib.ReduceAll
import Idealize.ShloMosaic.Lib.IdealHost
import Idealize.ShloMosaic.Lib.Pipeline.Value

noncomputable section

namespace Cert.PreDecode

open Idealize.ShloMosaic Idealize.ShloMosaic.ValueIdx Cert.Pre_finite_inputs

instance : Subsingleton S_.Idx := ⟨fun a b => funext fun d => d.elim0⟩

variable [Cert.Pre_finite_inputs.Facts]

theorem ofBool_eq_one (b : Bool) : BitVec.ofBool b = 1#1 ↔ b = true := by cases b <;> decide

/-- An `all` over the entrywise test `≠ 0` that came out true says every entry is nonzero. -/
theorem dist_ne_zero_of_all (a3 : FVec Ideal S160000 .f32)
    (h : Host.reduce IntOp.andi
          (cmpf .une a3 (broadcastInDim S160000 ![] Facts.bcast_S_S160000 (constant (F := Ideal) S_ .f32 0x00000000#32)))
          (constantI S_ 1 1#1) Facts.reducesTo_S160000_S_d0 Facts.h_S_ ix0 = 1#1)
    (i : S160000.Idx) : a3 i ≠ 0 := by
  have hi := Host.reduce_andi_all _ _ Facts.reducesTo_S160000_S_d0 Facts.h_S_ ix0 h i
  rw [cmpf_apply, broadcastInDim_scalar_apply, constant_apply, Ideal.ofBits_zero_f32] at hi
  have hd : BitVec.ofBool (decide (a3 i ≠ 0)) = 1#1 := hi
  rw [ofBool_eq_one, decide_eq_true_eq] at hd
  exact hd

/-- The precondition's last conjunct is that test on the distances; the distance column has their entries. -/
theorem col_ne_zero {a0 : FVec Ideal S20000x98 .f32} {a1 a2 : IVec S160000 32} {a3 : FVec Ideal S160000 .f32}
    {a4 : IVec S20000 32} {a5 : FVec Ideal S50 .f32} {a6 a7 : FVec Ideal S160000x64 .f32} {a8 : FVec Ideal S128x98 .f32}
    {a9 a10 : FVec Ideal S3x128x64 .f32} {a11 : FVec Ideal S3x64x64 .f32} {a12 a13 : FVec Ideal S3x128x384 .f32}
    {a14 a15 a16 : FVec Ideal S3x128x128 .f32} {a17 : FVec Ideal S64x128 .f32} {a18 : FVec Ideal S32x64 .f32}
    {a19 : FVec Ideal S1x32 .f32}
    (h : Cert.Pre_finite_inputs.fn (F := Ideal) a0 a1 a2 a3 a4 a5 a6 a7 a8 a9 a10 a11 a12 a13 a14 a15 a16 a17 a18 a19
          = fun _ => 1#1)
    (hb : (⟨1, ![160000]⟩ : Shape).BroadcastsInDim ⟨2, ![160000, 1]⟩ ![0]) (e : Fin 160000) :
    broadcastInDim (⟨2, ![160000, 1]⟩ : Shape) ![0] hb a3 (ix2 e (0 : Fin 1)) ≠ 0 := by
  rw [broadcastInDim_apply ![0] hb a3 (ix2 e (0 : Fin 1)) (ix1 e) (fun a => by
    match a with
    | ⟨0, _⟩ => rfl)]
  have e' := congrFun h ix0
  dsimp only [fn, fn_part1, fn_part2, fn_part3, fn_part4, fn_part5] at e'
  exact dist_ne_zero_of_all a3 (IntOp.andi_eq_one.1 e').2 (ix1 e)

end Cert.PreDecode

end
-- ==== Proof.Claims.lean ====
import proofs.«410384_j15272903704942_3_alg».proof.Defs
import proofs.«410384_j15272903704942_3_alg».proof.Proof.Gen.Kernel
import proofs.«410384_j15272903704942_3_alg».proof.Proof.Gen.Kernel.Frame
import proofs.«410384_j15272903704942_3_alg».proof.Proof.Gen.KernelIdeal
import proofs.«410384_j15272903704942_3_alg».proof.Proof.Gen.KernelIdeal.Frame
import proofs.«410384_j15272903704942_3_alg».proof.Proof.Gen.ReferenceIdeal
import proofs.«410384_j15272903704942_3_alg».proof.Proof.Gen.Pre_finite_inputs
import proofs.«410384_j15272903704942_3_alg».proof.Proof.KRun
import proofs.«410384_j15272903704942_3_alg».proof.Proof.KDefs
import proofs.«410384_j15272903704942_3_alg».proof.Proof.RDefs
import proofs.«410384_j15272903704942_3_alg».proof.Proof.RRun
import proofs.«410384_j15272903704942_3_alg».proof.Proof.Cross
import proofs.«410384_j15272903704942_3_alg».proof.Proof.PreDecode

noncomputable section

namespace Cert.Proof.Claims

open Idealize.ShloMosaic Idealize.SL.Sem Idealize.ShloMosaic.StableHlo Idealize.ShloMosaic.ValueIdx

abbrev MK := (ℓ : Loc Cert.KernelIdeal.nD Cert.KernelIdeal.τ Cert.KernelIdeal.sig) → Buf (Elt Ideal) ℓ

open Cert.KernelIdeal in
/-- The kernel program's network and head at the argument arrays a memory holds on one core. -/
abbrev valueK (m : MK) (c : Dev nD) : Vec Ideal S50 .f32 :=
  (fun a : (b : Ref sig .tc) → Buf (Elt Ideal) ((c.tc : Thread nD τ).loc b) =>
    KVal.tailK (Cert.Net.pooled2 KVal.gK KVal.sK (KVal.argsK (a main_arg0) (a main_arg1) (a main_arg2) (a main_arg3) (a main_arg4) (a main_arg6) (a main_arg7) (a main_arg8) (a main_arg9) (a main_arg10) (a main_arg11) (a main_arg12) (a main_arg13) (a main_arg14) (a main_arg15) (a main_arg16)))
      (a main_arg17) (a main_arg18) (a main_arg19)) fun b => m ((c.tc : Thread nD τ).loc b)

open Cert.ReferenceIdeal in
/-- The reference's laid-out inputs at the argument arrays a valuation holds. -/
abbrev argsR (V : Valuation τ sig (Elt Ideal)) :=
  RVal.argsR (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

open Cert.ReferenceIdeal in
/-- The reference's network and head at the argument arrays a valuation holds. -/
abbrev valueR (V : Valuation τ sig (Elt Ideal)) : FVec Ideal S50 .f32 :=
  RVal.tailR (Cert.Net.pooled2 RVal.gR RVal.sR (argsR V)) (V (Proc.devRef .tc main_arg17))
    (V (Proc.devRef .tc main_arg18)) (V (Proc.devRef .tc main_arg19))

abbrev KernelValue : Prop :=
  ∀ (m : MK) (ρ : Dev Cert.KernelIdeal.nD → PrngReg) (c : Dev Cert.KernelIdeal.nD),
    Cert.KernelIdeal.Gen.W19 (F := Ideal) m ρ c (Proc.devRef .tc Cert.KernelIdeal.main_v157) = valueK m c

abbrev ReferenceValue : Prop :=
  ∀ V : Valuation Cert.ReferenceIdeal.τ Cert.ReferenceIdeal.sig (Elt Ideal), (∀ e : Fin 160000, (argsR V).r (ix2 e 0) ≠ 0) →
    after Cert.ReferenceIdeal.Run.ops V (Proc.devRef .tc Cert.ReferenceIdeal.main_v270) = valueR V

theorem frame_k : Cert.frame_Kernel := fun m ρ _ => Cert.Kernel.Gen.frame m ρ

theorem frame_ki : Cert.frame_KernelIdeal := fun m ρ _ => Cert.KernelIdeal.Gen.frame m ρ

/-- No operation of the reference writes an argument array. -/
theorem frame_ri : Cert.frame_ReferenceIdeal := fun m ρ _ =>
  (θ_run Cert.ReferenceIdeal.defs _ _).mono (fun r h c => by
    repeat' apply And.intro
    all_goals exact (h c _).trans (Cert.ReferenceIdeal.Run.arg_kept _ _ (by decide)))
    (Cert.ReferenceIdeal.Run.run (F := Ideal) m ρ)

theorem preserves : Cert.preserves_Kernel_KernelIdeal := trivial

/-- Both results are the one network of the agreeing argument arrays: the two programs' gathers, scatter-adds, laid-out
    inputs and heads coincide, and the nonzero distances the reference needs come from the precondition. -/
theorem algebraic_of (hK : KernelValue) (hR : ReferenceValue) : Cert.algebraic_KernelIdeal_ReferenceIdeal := by
  intro m ρ m' ρ' hpre hagree
  refine ⟨fun c => Cert.KernelIdeal.Gen.W19 (F := Ideal) m ρ c (Proc.devRef .tc Cert.KernelIdeal.main_v157),
    Cert.KernelIdeal.KVal.run_values (F := Ideal) m ρ, ?_⟩
  refine (θ_run Cert.ReferenceIdeal.defs _ _).mono (fun r h c => ⟨?_, ?_⟩) (Cert.ReferenceIdeal.Run.run (F := Ideal) m' ρ')
  swap
  · repeat' apply And.intro
    all_goals exact (h c _).trans (Cert.ReferenceIdeal.Run.arg_kept _ _ (by decide))
  obtain ⟨e0, e1, e2, e3, e4, e5, e6, e7, e8, e9, e10, e11, e12, e13, e14, e15, e16, e17, e18, e19⟩ := hagree c
  have hne : ∀ e : Fin 160000, (argsR (launchContents m' c)).r (ix2 e 0) ≠ 0 := fun e => by
    have h3 := Cert.PreDecode.col_ne_zero (hpre c) Cert.ReferenceIdeal.Gen.bcast_S160000_S160000x1_0 e
    rw [← e3] at h3
    exact h3
  refine ((h c Cert.ReferenceIdeal.main_v270).trans (hR (launchContents m' c) hne)).trans (Eq.trans ?_ (hK m ρ c).symm)
  show valueR (fun b => m' (c, b)) = _
  simp only [valueR, argsR, valueK, e0, e1, e2, e3, e4, e6, e7, e8, e9, e10, e11, e12, e13, e14, e15, e16, e17, e18, e19,
    Cert.Cross.gK_eq_gR, Cert.Cross.sK_eq_sR, Cert.Cross.argsK_eq_argsR, Cert.Cross.tailK_eq_tailR]

theorem claim_of (hK : KernelValue) (hR : ReferenceValue) : Cert.Claim :=
  ⟨Cert.Kernel.Gen.facts, Cert.KernelIdeal.Gen.facts, Cert.ReferenceIdeal.Gen.facts, Cert.Pre_finite_inputs.Gen.facts,
    frame_k, frame_ki, frame_ri, preserves, algebraic_of hK hR⟩

end Cert.Proof.Claims

end
-- ==== Proof.KStretchA.lean ====
import proofs.«410384_j15272903704942_3_alg».proof.Proof.KDefs
import proofs.«410384_j15272903704942_3_alg».proof.Proof.Gen.KernelIdeal.Launch

noncomputable section

namespace Cert.KernelIdeal.KVal

open Idealize.ShloMosaic Idealize.ShloMosaic.ValueIdx Cert.KernelIdeal Cert.KernelIdeal.Gen

variable (W : Valuation τ sig (Elt Ideal))

def writes1 : List (Ref sig .tc) :=
  [main_v2, main_v3, main_cst, main_v4, main_v5, main_v6, main_v7, main_v8, main_v9, main_v10, main_v11, main_v12,
   main_v13, main_v14, main_v15, main_v16, main_v17, main_v18, main_v19, main_v20, main_c, main_v21, main_v22, main_c_0,
   main_v23, main_v24, main_v25, main_v26, main_v27, main_c_1, main_v28, main_v29, main_c_2, main_v30, main_v31,
   main_v32, main_v33, main_v34, main_v35, main_v36, main_v37, main_v38, main_v39, main_v40, main_v41, main_v42,
   main_v43, main_v44]

theorem pass1 (r : Ref sig .tc) (hr : r ∉ writes1) :
    StableHlo.after (hostOps1 (F := Ideal)) W (Proc.devRef .tc r) = W (Proc.devRef .tc r) :=
  StableHlo.after_of_writes_sub (W := writes1) _ W (by
    simp only [hostOps1, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

theorem s1_v2 : StableHlo.after (hostOps1 (F := Ideal)) W (Proc.devRef .tc main_v2)
    = broadcastInDim S160000x1 ![0] bcast_S160000_S160000x1_0 (W (Proc.devRef .tc main_arg3)) :=
  rfl

theorem s1_v3 : StableHlo.after (hostOps1 (F := Ideal)) W (Proc.devRef .tc main_v3)
    = broadcastInDim S20000x1 ![0] bcast_S20000_S20000x1_0 (W (Proc.devRef .tc main_arg4)) :=
  rfl

theorem s1_v4 : StableHlo.after (hostOps1 (F := Ideal)) W (Proc.devRef .tc main_v4)
    = broadcastInDim S50x128 ![] bcast_S_S50x128 (constant (F := Ideal) S_ .f32 0x00000000#32) :=
  rfl

theorem s1_v6 : StableHlo.after (hostOps1 (F := Ideal)) W (Proc.devRef .tc main_v6)
    = transpose S3x384x128 [0, 2, 1] (W (Proc.devRef .tc main_arg12)) transposes_S3x128x384_S3x384x128_0_2_1 :=
  rfl

theorem s1_v8 : StableHlo.after (hostOps1 (F := Ideal)) W (Proc.devRef .tc main_v8)
    = transpose S3x384x128 [0, 2, 1] (W (Proc.devRef .tc main_arg13)) transposes_S3x128x384_S3x384x128_0_2_1 :=
  rfl

theorem s1_v10 : StableHlo.after (hostOps1 (F := Ideal)) W (Proc.devRef .tc main_v10)
    = transpose S3x64x128 [0, 2, 1] (W (Proc.devRef .tc main_arg9)) transposes_S3x128x64_S3x64x128_0_2_1 :=
  rfl

theorem s1_v12 : StableHlo.after (hostOps1 (F := Ideal)) W (Proc.devRef .tc main_v12)
    = transpose S3x64x64 [0, 2, 1] (W (Proc.devRef .tc main_arg11)) transposes_S3x64x64_S3x64x64_0_2_1 :=
  rfl

theorem s1_v14 : StableHlo.after (hostOps1 (F := Ideal)) W (Proc.devRef .tc main_v14)
    = transpose S3x64x128 [0, 2, 1] (W (Proc.devRef .tc main_arg10)) transposes_S3x128x64_S3x64x128_0_2_1 :=
  rfl

theorem s1_v15 : StableHlo.after (hostOps1 (F := Ideal)) W (Proc.devRef .tc main_v15)
    = transpose S3x128x128 [0, 2, 1] (W (Proc.devRef .tc main_arg15)) transposes_S3x128x128_S3x128x128_0_2_1 :=
  rfl

theorem s1_v16 : StableHlo.after (hostOps1 (F := Ideal)) W (Proc.devRef .tc main_v16)
    = transpose S3x128x128 [0, 2, 1] (W (Proc.devRef .tc main_arg16)) transposes_S3x128x128_S3x128x128_0_2_1 :=
  rfl

theorem s1_v17 : StableHlo.after (hostOps1 (F := Ideal)) W (Proc.devRef .tc main_v17)
    = transpose S3x128x128 [0, 2, 1] (W (Proc.devRef .tc main_arg14)) transposes_S3x128x128_S3x128x128_0_2_1 :=
  rfl

theorem s1_v18 : StableHlo.after (hostOps1 (F := Ideal)) W (Proc.devRef .tc main_v18)
    = W (Proc.devRef .tc main_arg6) :=
  rfl

theorem s1_v19 : StableHlo.after (hostOps1 (F := Ideal)) W (Proc.devRef .tc main_v19)
    = W (Proc.devRef .tc main_arg7) :=
  rfl

attribute [local irreducible] Host.gather in
theorem s1_v27 : StableHlo.after (hostOps1 (F := Ideal)) W (Proc.devRef .tc main_v27)
    = gK (W (Proc.devRef .tc main_v1)) (normCol (W (Proc.devRef .tc main_arg1))) :=
  rfl

attribute [local irreducible] Host.gather in
theorem s1_v34 : StableHlo.after (hostOps1 (F := Ideal)) W (Proc.devRef .tc main_v34)
    = gK (W (Proc.devRef .tc main_v1)) (normCol (W (Proc.devRef .tc main_arg2))) :=
  rfl

theorem s1_v36 : StableHlo.after (hostOps1 (F := Ideal)) W (Proc.devRef .tc main_v36)
    = MgK (W (Proc.devRef .tc main_arg12)) 0 :=
  rfl

theorem s1_v38 : StableHlo.after (hostOps1 (F := Ideal)) W (Proc.devRef .tc main_v38)
    = MmK (W (Proc.devRef .tc main_arg13)) 0 :=
  rfl

theorem s1_v40 : StableHlo.after (hostOps1 (F := Ideal)) W (Proc.devRef .tc main_v40)
    = M1K (W (Proc.devRef .tc main_arg9)) 0 :=
  rfl

theorem s1_v42 : StableHlo.after (hostOps1 (F := Ideal)) W (Proc.devRef .tc main_v42)
    = M2gK (W (Proc.devRef .tc main_arg11)) 0 :=
  rfl

theorem s1_v44 : StableHlo.after (hostOps1 (F := Ideal)) W (Proc.devRef .tc main_v44)
    = M2K (W (Proc.devRef .tc main_arg10)) 0 :=
  rfl

end Cert.KernelIdeal.KVal

end
-- ==== Proof.KStretchB.lean ====
import proofs.«410384_j15272903704942_3_alg».proof.Proof.KDefs
import proofs.«410384_j15272903704942_3_alg».proof.Proof.Gen.KernelIdeal.Launch

noncomputable section

namespace Cert.KernelIdeal.KVal

open Idealize.ShloMosaic Idealize.ShloMosaic.ValueIdx Cert.KernelIdeal Cert.KernelIdeal.Gen

variable (W : Valuation τ sig (Elt Ideal))

def writes0 : List (Ref sig .tc) := [main_v0]

theorem pass0 (r : Ref sig .tc) (hr : r ∉ writes0) :
    StableHlo.after (hostOps0 (F := Ideal)) W (Proc.devRef .tc r) = W (Proc.devRef .tc r) :=
  StableHlo.after_of_writes_sub (W := writes0) _ W (by
    simp only [hostOps0, List.Forall, StableHlo.unary_writes]
    exact Finset.singleton_subset_iff.mpr (List.mem_toFinset.mpr (List.mem_map_of_mem (by decide)))) hr

theorem s0_v0 : StableHlo.after (hostOps0 (F := Ideal)) W (Proc.devRef .tc main_v0)
    = transpose S98x128 [1, 0] (W (Proc.devRef .tc main_arg8)) transposes_S128x98_S98x128_1_0 :=
  rfl

def writes2 : List (Ref sig .tc) :=
  [main_v46, main_c_3, main_v47, main_v48, main_c_4, main_v49, main_v50, main_v51, main_v52, main_v53, main_v54,
   main_v55, main_v56, main_v57, main_v58, main_v59]

theorem pass2 (r : Ref sig .tc) (hr : r ∉ writes2) :
    StableHlo.after (hostOps2 (F := Ideal)) W (Proc.devRef .tc r) = W (Proc.devRef .tc r) :=
  StableHlo.after_of_writes_sub (W := writes2) _ W (by
    simp only [hostOps2, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

attribute [local irreducible] Host.scatterAdd in
theorem s2_v53 : StableHlo.after (hostOps2 (F := Ideal)) W (Proc.devRef .tc main_v53)
    = sK (W (Proc.devRef .tc main_v1)) (normCol (W (Proc.devRef .tc main_arg1))) (W (Proc.devRef .tc main_v45)) :=
  rfl

theorem s2_v55_cut : StableHlo.after (hostOps2 (F := Ideal)) W (Proc.devRef .tc main_v55)
    = shapeCast S128x128 (extractStridedSlice S1x128x128 ![0, 0, 0] (W (Proc.devRef .tc main_v15)) slices_S3x128x128_S1x128x128_0_0_0) shapeCasts_S1x128x128_S128x128 :=
  rfl
theorem s2_v57_cut : StableHlo.after (hostOps2 (F := Ideal)) W (Proc.devRef .tc main_v57)
    = shapeCast S128x128 (extractStridedSlice S1x128x128 ![0, 0, 0] (W (Proc.devRef .tc main_v16)) slices_S3x128x128_S1x128x128_0_0_0) shapeCasts_S1x128x128_S128x128 :=
  rfl
theorem s2_v59_cut : StableHlo.after (hostOps2 (F := Ideal)) W (Proc.devRef .tc main_v59)
    = shapeCast S128x128 (extractStridedSlice S1x128x128 ![0, 0, 0] (W (Proc.devRef .tc main_v17)) slices_S3x128x128_S1x128x128_0_0_0) shapeCasts_S1x128x128_S128x128 :=
  rfl

end Cert.KernelIdeal.KVal

end
-- ==== Proof.KStretchC.lean ====
import proofs.«410384_j15272903704942_3_alg».proof.Proof.KDefs
import proofs.«410384_j15272903704942_3_alg».proof.Proof.Gen.KernelIdeal.Launch

noncomputable section

namespace Cert.KernelIdeal.KVal

open Idealize.ShloMosaic Idealize.ShloMosaic.ValueIdx Cert.KernelIdeal Cert.KernelIdeal.Gen

variable (W : Valuation τ sig (Elt Ideal))

def writes3 : List (Ref sig .tc) :=
  [main_cst_5, main_v61, main_v62, main_v63, main_c_6, main_v64, main_v65, main_c_7, main_v66, main_v67, main_v68,
   main_v69, main_v70, main_c_8, main_v71, main_v72, main_c_9, main_v73, main_v74, main_v75, main_v76, main_v77,
   main_v78, main_v79, main_v80, main_v81, main_v82, main_v83, main_v84, main_v85, main_v86, main_v87]

theorem pass3 (r : Ref sig .tc) (hr : r ∉ writes3) :
    StableHlo.after (hostOps3 (F := Ideal)) W (Proc.devRef .tc r) = W (Proc.devRef .tc r) :=
  StableHlo.after_of_writes_sub (W := writes3) _ W (by
    simp only [hostOps3, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

attribute [local irreducible] Host.reduceAdd in
theorem s3_v62 : StableHlo.after (hostOps3 (F := Ideal)) W (Proc.devRef .tc main_v62)
    = addf (F := Ideal) (φ := .f32) (W (Proc.devRef .tc main_v4))
        (Host.reduceAdd (F := Ideal) (W (Proc.devRef .tc main_v60_0)) (constant (F := Ideal) S_ .f32 0x00000000#32)
          reducesTo_S5x50x128_S50x128_d0 h_S_) :=
  rfl

attribute [local irreducible] Host.gather in
theorem s3_v70 : StableHlo.after (hostOps3 (F := Ideal)) W (Proc.devRef .tc main_v70)
    = gK (W (Proc.devRef .tc main_v60_1)) (normCol (W (Proc.devRef .tc main_arg1))) :=
  rfl

attribute [local irreducible] Host.gather in
theorem s3_v77 : StableHlo.after (hostOps3 (F := Ideal)) W (Proc.devRef .tc main_v77)
    = gK (W (Proc.devRef .tc main_v60_1)) (normCol (W (Proc.devRef .tc main_arg2))) :=
  rfl

theorem s3_v79_cut : StableHlo.after (hostOps3 (F := Ideal)) W (Proc.devRef .tc main_v79)
    = shapeCast S384x128 (extractStridedSlice S1x384x128 ![1, 0, 0] (W (Proc.devRef .tc main_v6)) slices_S3x384x128_S1x384x128_1_0_0) shapeCasts_S1x384x128_S384x128 :=
  rfl
theorem s3_v81_cut : StableHlo.after (hostOps3 (F := Ideal)) W (Proc.devRef .tc main_v81)
    = shapeCast S384x128 (extractStridedSlice S1x384x128 ![1, 0, 0] (W (Proc.devRef .tc main_v8)) slices_S3x384x128_S1x384x128_1_0_0) shapeCasts_S1x384x128_S384x128 :=
  rfl
theorem s3_v83_cut : StableHlo.after (hostOps3 (F := Ideal)) W (Proc.devRef .tc main_v83)
    = shapeCast S64x128 (extractStridedSlice S1x64x128 ![1, 0, 0] (W (Proc.devRef .tc main_v10)) slices_S3x64x128_S1x64x128_1_0_0) shapeCasts_S1x64x128_S64x128 :=
  rfl
theorem s3_v85_cut : StableHlo.after (hostOps3 (F := Ideal)) W (Proc.devRef .tc main_v85)
    = shapeCast S64x64 (extractStridedSlice S1x64x64 ![1, 0, 0] (W (Proc.devRef .tc main_v12)) slices_S3x64x64_S1x64x64_1_0_0) shapeCasts_S1x64x64_S64x64 :=
  rfl
theorem s3_v87_cut : StableHlo.after (hostOps3 (F := Ideal)) W (Proc.devRef .tc main_v87)
    = shapeCast S64x128 (extractStridedSlice S1x64x128 ![1, 0, 0] (W (Proc.devRef .tc main_v14)) slices_S3x64x128_S1x64x128_1_0_0) shapeCasts_S1x64x128_S64x128 :=
  rfl

def writes4 : List (Ref sig .tc) :=
  [main_v89, main_c_10, main_v90, main_v91, main_c_11, main_v92, main_v93, main_v94, main_v95, main_v96, main_v97,
   main_v98, main_v99, main_v100, main_v101, main_v102]

theorem pass4 (r : Ref sig .tc) (hr : r ∉ writes4) :
    StableHlo.after (hostOps4 (F := Ideal)) W (Proc.devRef .tc r) = W (Proc.devRef .tc r) :=
  StableHlo.after_of_writes_sub (W := writes4) _ W (by
    simp only [hostOps4, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

attribute [local irreducible] Host.scatterAdd in
theorem s4_v96 : StableHlo.after (hostOps4 (F := Ideal)) W (Proc.devRef .tc main_v96)
    = sK (W (Proc.devRef .tc main_v60_1)) (normCol (W (Proc.devRef .tc main_arg1))) (W (Proc.devRef .tc main_v88)) :=
  rfl

theorem s4_v98_cut : StableHlo.after (hostOps4 (F := Ideal)) W (Proc.devRef .tc main_v98)
    = shapeCast S128x128 (extractStridedSlice S1x128x128 ![1, 0, 0] (W (Proc.devRef .tc main_v15)) slices_S3x128x128_S1x128x128_1_0_0) shapeCasts_S1x128x128_S128x128 :=
  rfl
theorem s4_v100_cut : StableHlo.after (hostOps4 (F := Ideal)) W (Proc.devRef .tc main_v100)
    = shapeCast S128x128 (extractStridedSlice S1x128x128 ![1, 0, 0] (W (Proc.devRef .tc main_v16)) slices_S3x128x128_S1x128x128_1_0_0) shapeCasts_S1x128x128_S128x128 :=
  rfl
theorem s4_v102_cut : StableHlo.after (hostOps4 (F := Ideal)) W (Proc.devRef .tc main_v102)
    = shapeCast S128x128 (extractStridedSlice S1x128x128 ![1, 0, 0] (W (Proc.devRef .tc main_v17)) slices_S3x128x128_S1x128x128_1_0_0) shapeCasts_S1x128x128_S128x128 :=
  rfl

end Cert.KernelIdeal.KVal

end
-- ==== Proof.KStretchD.lean ====
import proofs.«410384_j15272903704942_3_alg».proof.Proof.KDefs
import proofs.«410384_j15272903704942_3_alg».proof.Proof.Gen.KernelIdeal.Launch

noncomputable section

namespace Cert.KernelIdeal.KVal

open Idealize.ShloMosaic Idealize.ShloMosaic.ValueIdx Cert.KernelIdeal Cert.KernelIdeal.Gen

variable (W : Valuation τ sig (Elt Ideal))

def writes5 : List (Ref sig .tc) :=
  [main_cst_12, main_v104, main_v105, main_v106, main_c_13, main_v107, main_v108, main_c_14, main_v109, main_v110,
   main_v111, main_v112, main_v113, main_c_15, main_v114, main_v115, main_c_16, main_v116, main_v117, main_v118,
   main_v119, main_v120, main_v121, main_v122, main_v123, main_v124, main_v125, main_v126, main_v127, main_v128,
   main_v129, main_v130]

theorem pass5 (r : Ref sig .tc) (hr : r ∉ writes5) :
    StableHlo.after (hostOps5 (F := Ideal)) W (Proc.devRef .tc r) = W (Proc.devRef .tc r) :=
  StableHlo.after_of_writes_sub (W := writes5) _ W (by
    simp only [hostOps5, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

attribute [local irreducible] Host.reduceAdd in
theorem s5_v105 : StableHlo.after (hostOps5 (F := Ideal)) W (Proc.devRef .tc main_v105)
    = addf (F := Ideal) (φ := .f32) (W (Proc.devRef .tc main_v62))
        (Host.reduceAdd (F := Ideal) (W (Proc.devRef .tc main_v103_0)) (constant (F := Ideal) S_ .f32 0x00000000#32)
          reducesTo_S5x50x128_S50x128_d0 h_S_) :=
  rfl

attribute [local irreducible] Host.gather in
theorem s5_v113 : StableHlo.after (hostOps5 (F := Ideal)) W (Proc.devRef .tc main_v113)
    = gK (W (Proc.devRef .tc main_v103_1)) (normCol (W (Proc.devRef .tc main_arg1))) :=
  rfl

attribute [local irreducible] Host.gather in
theorem s5_v120 : StableHlo.after (hostOps5 (F := Ideal)) W (Proc.devRef .tc main_v120)
    = gK (W (Proc.devRef .tc main_v103_1)) (normCol (W (Proc.devRef .tc main_arg2))) :=
  rfl

theorem s5_v122_cut : StableHlo.after (hostOps5 (F := Ideal)) W (Proc.devRef .tc main_v122)
    = shapeCast S384x128 (extractStridedSlice S1x384x128 ![2, 0, 0] (W (Proc.devRef .tc main_v6)) slices_S3x384x128_S1x384x128_2_0_0) shapeCasts_S1x384x128_S384x128 :=
  rfl
theorem s5_v124_cut : StableHlo.after (hostOps5 (F := Ideal)) W (Proc.devRef .tc main_v124)
    = shapeCast S384x128 (extractStridedSlice S1x384x128 ![2, 0, 0] (W (Proc.devRef .tc main_v8)) slices_S3x384x128_S1x384x128_2_0_0) shapeCasts_S1x384x128_S384x128 :=
  rfl
theorem s5_v126_cut : StableHlo.after (hostOps5 (F := Ideal)) W (Proc.devRef .tc main_v126)
    = shapeCast S64x128 (extractStridedSlice S1x64x128 ![2, 0, 0] (W (Proc.devRef .tc main_v10)) slices_S3x64x128_S1x64x128_2_0_0) shapeCasts_S1x64x128_S64x128 :=
  rfl
theorem s5_v128_cut : StableHlo.after (hostOps5 (F := Ideal)) W (Proc.devRef .tc main_v128)
    = shapeCast S64x64 (extractStridedSlice S1x64x64 ![2, 0, 0] (W (Proc.devRef .tc main_v12)) slices_S3x64x64_S1x64x64_2_0_0) shapeCasts_S1x64x64_S64x64 :=
  rfl
theorem s5_v130_cut : StableHlo.after (hostOps5 (F := Ideal)) W (Proc.devRef .tc main_v130)
    = shapeCast S64x128 (extractStridedSlice S1x64x128 ![2, 0, 0] (W (Proc.devRef .tc main_v14)) slices_S3x64x128_S1x64x128_2_0_0) shapeCasts_S1x64x128_S64x128 :=
  rfl

def writes6 : List (Ref sig .tc) :=
  [main_v132, main_c_17, main_v133, main_v134, main_c_18, main_v135, main_v136, main_v137, main_v138, main_v139,
   main_v140, main_v141, main_v142, main_v143, main_v144, main_v145]

theorem pass6 (r : Ref sig .tc) (hr : r ∉ writes6) :
    StableHlo.after (hostOps6 (F := Ideal)) W (Proc.devRef .tc r) = W (Proc.devRef .tc r) :=
  StableHlo.after_of_writes_sub (W := writes6) _ W (by
    simp only [hostOps6, List.Forall, StableHlo.nullary_writes, StableHlo.unary_writes, StableHlo.binary_writes,
      StableHlo.ternary_writes, StableHlo.reshape_writes]
    repeat' apply And.intro
    all_goals exact Finset.singleton_subset_iff.mpr (List.mem_toFinset.mpr (List.mem_map_of_mem (by decide)))) hr

attribute [local irreducible] Host.scatterAdd in
theorem s6_v139 : StableHlo.after (hostOps6 (F := Ideal)) W (Proc.devRef .tc main_v139)
    = sK (W (Proc.devRef .tc main_v103_1)) (normCol (W (Proc.devRef .tc main_arg1))) (W (Proc.devRef .tc main_v131)) :=
  rfl

theorem s6_v141_cut : StableHlo.after (hostOps6 (F := Ideal)) W (Proc.devRef .tc main_v141)
    = shapeCast S128x128 (extractStridedSlice S1x128x128 ![2, 0, 0] (W (Proc.devRef .tc main_v15)) slices_S3x128x128_S1x128x128_2_0_0) shapeCasts_S1x128x128_S128x128 :=
  rfl
theorem s6_v143_cut : StableHlo.after (hostOps6 (F := Ideal)) W (Proc.devRef .tc main_v143)
    = shapeCast S128x128 (extractStridedSlice S1x128x128 ![2, 0, 0] (W (Proc.devRef .tc main_v16)) slices_S3x128x128_S1x128x128_2_0_0) shapeCasts_S1x128x128_S128x128 :=
  rfl
theorem s6_v145_cut : StableHlo.after (hostOps6 (F := Ideal)) W (Proc.devRef .tc main_v145)
    = shapeCast S128x128 (extractStridedSlice S1x128x128 ![2, 0, 0] (W (Proc.devRef .tc main_v17)) slices_S3x128x128_S1x128x128_2_0_0) shapeCasts_S1x128x128_S128x128 :=
  rfl

end Cert.KernelIdeal.KVal

end
-- ==== Proof.KStretchE.lean ====
import proofs.«410384_j15272903704942_3_alg».proof.Proof.KDefs
import proofs.«410384_j15272903704942_3_alg».proof.Proof.Gen.KernelIdeal.Launch
import Idealize.ShloMosaic.Lib.StableHlo.Run
import Idealize.ShloMosaic.PureOps.Ideal.Laws
import Idealize.ShloMosaic.Lib.ValueIdx

noncomputable section

open scoped BigOperators

namespace Cert.KernelIdeal.KVal

open Idealize.ShloMosaic Idealize.ShloMosaic.ValueIdx Cert.KernelIdeal Cert.KernelIdeal.Gen

variable (W : Valuation τ sig (Elt Ideal))

attribute [local irreducible] Host.reduceAdd in
theorem tail_v157 :
    StableHlo.after (hostOps7_4 (F := Ideal)) (StableHlo.after hostOps7_3 (StableHlo.after hostOps7_2
        (StableHlo.after hostOps7_1 (StableHlo.after hostOps7 W)))) (Proc.devRef .tc main_v157)
      = tailK (addf (F := Ideal) (φ := .f32) (W (Proc.devRef .tc main_v105))
            (Host.reduceAdd (F := Ideal) (W (Proc.devRef .tc main_v146_0)) (constant (F := Ideal) S_ .f32 0x00000000#32)
              reducesTo_S5x50x128_S50x128_d0 h_S_))
          (W (Proc.devRef .tc main_arg17)) (W (Proc.devRef .tc main_arg18)) (W (Proc.devRef .tc main_arg19)) := by
  simp only [StableHlo.after_cons, StableHlo.after_nil]
  rfl

theorem reduces_parts : S5x50x128.Reduces [0] S50x128 := by decide

theorem poolAcc (acc : Vec Ideal S50x128 .f32) (parts : Vec Ideal S5x50x128 .f32) (g : Fin 50) (h : Fin 128) :
    addf (F := Ideal) (φ := .f32) acc
        (Host.reduceAdd (F := Ideal) parts (constant (F := Ideal) S_ .f32 0x00000000#32)
          reducesTo_S5x50x128_S50x128_d0 h_S_) (ix2 g h)
      = acc (ix2 g h) + ∑ t : Fin 5, parts (ix3 t g h) := by
  show acc (ix2 g h) + Ideal.hostReduceAdd reducesTo_S5x50x128_S50x128_d0 parts (Ideal.ofBits .f32 0x00000000#32) (ix2 g h) = _
  rw [Ideal.hostReduceAdd_single reducesTo_S5x50x128_S50x128_d0 reduces_parts, Ideal.ofBits_zero_f32, zero_add]
  refine congrArg (acc (ix2 g h) + ·) (Finset.sum_congr rfl fun t _ => congrArg parts ?_)
  funext a
  refine Fin.ext ?_
  match a with
  | ⟨0, _⟩ => rfl
  | ⟨1, _⟩ => rfl
  | ⟨2, _⟩ => rfl

end Cert.KernelIdeal.KVal

end
-- ==== Proof.LibRowDims.lean ====
import Idealize.ShloMosaic.PureOps.Ideal
import Idealize.ShloMosaic.PureOps.Ideal.Laws
import Idealize.ShloMosaic.Lib.ValueIdx
import Idealize.ShloMosaic.Lib.StackMember

noncomputable section

open scoped BigOperators

namespace Idealize.ShloMosaic.RowDims

open Idealize.ShloMosaic Idealize.ShloMosaic.ValueIdx

/-- A plain contraction `[M, K] × [K, N]` read at an entry is the sum over the contracted coordinate. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs _).trans
    ((Ideal.dotGeneral_apply _ prec _ lhs rhs _).symm.trans (StackMember.dotGeneral_plain_apply prec lhs rhs p q))

/-- The same for the product accumulated onto zero. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs _).trans
    ((Ideal.dotGeneral_apply _ prec _ lhs rhs _).symm.trans (StackMember.dotGeneral_plain_apply prec lhs rhs p q))

abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on entry `(a, b)` exactly when row `r`'s signed start index is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  ·
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  ·
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- A row scatter-add adds to entry `(a, b)` the update rows whose start index is `a`; a row that falls outside adds nowhere. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1

  rw [Finset.sum_filter, sum_idx2]
  refine Finset.sum_congr rfl fun r _ => ?_
  simp only [rowScatter_resultIdx?_eq_some_iff]

  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KPoolPay.lean ====
import proofs.«410384_j15272903704942_3_alg».proof.Proof.Gen.KernelIdeal.Frame
import proofs.«410384_j15272903704942_3_alg».proof.Proof.Net
import proofs.«410384_j15272903704942_3_alg».proof.Proof.LibRowDims
import Idealize.ShloMosaic.Lib.Pipeline.Value
import Idealize.ShloMosaic.Lib.ValueLayout
import Idealize.ShloMosaic.Lib.IdealHost

noncomputable section

open scoped BigOperators

namespace Cert.KernelIdeal.KVal

open Idealize.ShloMosaic Idealize.ShloMosaic.ValueIdx Cert.KernelIdeal Cert.KernelIdeal.Gen

-- Off the positive half-line `min a 0 = a`.
theorem pool_elu_select (a : EReal) :
    Scalar.select (Ideal.cmp .ogt a (Ideal.ofBits .f32 0x00000000#32)) a
      (Ideal.exp (min a (Ideal.ofBits .f32 0x00000000#32)) - Ideal.ofBits .f32 0x3F800000#32) = Cert.Net.elu a := by
  rw [Ideal.ofBits_zero_f32, Ideal.ofBits_one_f32]
  unfold Cert.Net.elu Ideal.cmp
  by_cases h : 0 < a
  · rw [if_pos h, decide_eq_true h]; exact select_one _ _
  · rw [if_neg h, decide_eq_false h, min_eq_left (not_lt.mp h)]; exact select_zero _ _

theorem pool_elu_vec_apply (a : FVec Ideal S4000x128 .f32) (i : S4000x128.Idx) :
    select (cmpf .ogt a (broadcast S4000x128 (Scalar.ofBits .f32 0x00000000#32))) a
      (subf (exp (minimumf a (broadcast S4000x128 (Scalar.ofBits .f32 0x00000000#32))))
        (broadcast S4000x128 (Scalar.ofBits .f32 0x3F800000#32))) i = Cert.Net.elu (a i) :=
  pool_elu_select (a i)

theorem pool_xP_apply (x : FVec Ideal S4000x128 .f32) (P : FVec Ideal S128x128 .f32) (n : Fin 4000) (h : Fin 128) :
    matmul dot_S4000x128_S128x128_S4000x128_1_0_0_1_n_n none x P (constant S4000x128 .f32 0x00000000#32) (ix2 n h)
      = Cert.Net.dotRow x P n h :=
  RowDims.matmul_plain_zero_apply none x P n h

abbrev poolSegDot : DotDims S4000x50 S4000x128 S50x128 := dot_S4000x50_S4000x128_S50x128_0_0_1_1_n_n

-- Both operands are contracted along their row axis.
theorem pool_seg_apply (L : FVec Ideal S4000x50 .f32) (R : FVec Ideal S4000x128 .f32) (g : Fin 50) (h : Fin 128) :
    matmul dot_S4000x50_S4000x128_S50x128_0_0_1_1_n_n none L R (constant S50x128 .f32 0x00000000#32) (ix2 g h)
      = ∑ n : Fin 4000, L (ix2 n g) * R (ix2 n h) := by
  show FloatOps.matmul poolSegDot none L R (constant S50x128 .f32 0x00000000#32) (ix2 g h) = _
  rw [Ideal.matmul_constant_zero_apply, ← Equiv.sum_comp (contrEquiv1 poolSegDot 4000 rfl rfl).symm]
  refine Finset.sum_congr rfl fun n _ => ?_
  have e := contrEquiv1_symm_val poolSegDot 4000 rfl rfl n
  rw [show poolSegDot.lhsIdx (ix2 g h) ((contrEquiv1 poolSegDot 4000 rfl rfl).symm n) = ix2 n g from
      Shape.idx_ext₂ ((poolSegDot.lhsIdx_val_of_single (cl := 0) rfl _ _).trans e) rfl,
    show poolSegDot.rhsIdx (ix2 g h) ((contrEquiv1 poolSegDot 4000 rfl rfl).symm n) = ix2 n h from
      Shape.idx_ext₂ ((poolSegDot.rhsIdx_val_of_single (cr := 0) rfl _ _).trans e) rfl]

theorem pool_onehot_apply (gid : IVec S4000x1 32) (n : Fin 4000) (g : Fin 50) :
    (sitofp .f32 (extui 32 (cmpi .eq (broadcastTo S4000x50 (shapeCast S4000x1 gid shapeCasts_S4000x1_S4000x1) broadcasts_S4000x1_S4000x50)
        (iota .tc S4000x50 32 [1] iota_S4000x50_d1_w32)) natLt_1_32) : FVec Ideal S4000x50 .f32) (ix2 n g)
      = Cert.Net.onehot gid n g := by
  rw [shapeCast_self]
  show ((((IntOp.cmpi .eq (broadcastTo S4000x50 gid broadcasts_S4000x1_S4000x50 (ix2 n g))
      (iota .tc S4000x50 32 [1] iota_S4000x50_d1_w32 (ix2 n g))).setWidth 32).toInt : ℝ) : EReal) = _
  rw [broadcastTo_apply gid broadcasts_S4000x1_S4000x50 (ix2 n g) (ix2 n 0) (fun a => by
      match a with
      | ⟨0, _⟩ => rfl
      | ⟨1, _⟩ => rfl),
    iota_single_apply]
  unfold Cert.Net.onehot IntOp.cmpi
  show ((((BitVec.ofBool (gid (ix2 n 0) == BitVec.ofNat 32 g.val)).setWidth 32).toInt : ℝ) : EReal) = _
  by_cases hg : gid (ix2 n 0) = BitVec.ofNat 32 g.val
  · rw [if_pos hg, beq_iff_eq.mpr hg]
    show (((1 : ℤ) : ℝ) : EReal) = 1
    norm_num
  · rw [if_neg hg, beq_eq_false_iff_ne.mpr hg]
    show (((0 : ℤ) : ℝ) : EReal) = 0
    norm_num

theorem pool_pay3_apply (v0 : Vec Ideal S4000x128 .f32) (v2 v13 : Vec Ideal S128x128 .f32) (v17 : Vec Ideal S4000x1 .i32)
    (g : Fin 50) (h : Fin 128) :
    k2_pay3 v0 v2 v13 v17 (ix3 (0 : Fin 1) g h) = Cert.Net.poolTile (R := 4000) v0 v17 v2 v13 (ix2 g h) := by
  unfold k2_pay3 k2_pay2
  dsimp only
  rw [shapeCast_ab_1ab_apply, pool_seg_apply]
  unfold Cert.Net.poolTile
  refine Finset.sum_congr rfl fun n _ => ?_
  rw [pool_onehot_apply]
  congr 1
  rw [mulf_apply, pool_elu_vec_apply]
  simp only [shapeCast_self]
  rw [pool_xP_apply, pool_xP_apply]
  rfl

theorem pool_pay1_eq (v0 : Vec Ideal S4000x128 .f32) (v27 : Vec Ideal S128x128 .f32) :
    k2_pay1 (k2_pay4 v0 v27) (k2_pay5 v0 v27) (k2_pay6 v0 v27) (Scalar.ofBits .f32 0x3F800000#32)
      = Cert.Net.poolNew (R := 4000) v0 v27 := by
  funext j
  obtain ⟨n, h, rfl⟩ : ∃ (n : Fin 4000) (h : Fin 128), j = ix2 n h := ⟨j 0, j 1, eq_ix2 j⟩
  unfold k2_pay1 k2_pay5 k2_pay6 k2_pay4 k2_pay2
  dsimp only
  rw [pool_elu_vec_apply]
  simp only [shapeCast_self]
  rw [pool_xP_apply]
  rfl

theorem pool_hz2 : (![0, 0] : Fin 2 → Nat) = fun _ => 0 := funext fun a => by fin_cases a <;> rfl
theorem pool_hz3 : (![0, 0, 0] : Fin 3 → Nat) = fun _ => 0 := funext fun a => by fin_cases a <;> rfl

abbrev poolPartsTile (G : (⟨3, ![5, 50, 128]⟩ : Shape).Idx → EReal) (t : Fin 5) : (⟨3, ![1, 50, 128]⟩ : Shape).Idx → EReal :=
  fun j => G (ix3 t (j 1) (j 2))

-- The node update is computed row by row.
theorem poolNew_tile (X : Cert.Net.Mat 20000 128) (P : Cert.Net.Mat 128 128) (t : Fin 5) :
    Cert.Net.tileRows (Cert.Net.poolNew X P) t = Cert.Net.poolNew (Cert.Net.tileRows X t) P := rfl

-- One body serves the three pooling regions: the other two regions' results unfold to these.
theorem pool_out_new (x0 : Vec Ideal S4000x128 .f32) (x1 : Vec Ideal S4000x1 .i32) (x2 x3 x4 : Vec Ideal S128x128 .f32) :
    Gen.out2_6 (F := Ideal) x0 x1 x2 x3 x4 = Cert.Net.poolNew (R := 4000) x0 x4 := by
  unfold Gen.out2_6
  rw [View.canon_unit_zero pool_hz2]
  simp only [View.ld_unit_zero (S := S4000x128) pool_hz2, View.ld_unit_zero (S := S128x128) pool_hz2]
  exact pool_pay1_eq x0 x4

theorem pool_out_parts (X : Cert.Net.Mat 20000 128) (gid : Cert.Net.ICol 20000) (P1 P2 P3 : Cert.Net.Mat 128 128) (t : Fin 5) :
    Gen.out2_5 (F := Ideal) (Cert.Net.tileRows X t) (Cert.Net.tileICol gid t) P1 P2 P3
      = poolPartsTile (Cert.Net.poolParts X gid P1 P2) t := by
  funext j
  obtain ⟨u, g, h, rfl⟩ : ∃ (u : Fin 1) (g : Fin 50) (h : Fin 128), j = ix3 u g h := ⟨j 0, j 1, j 2, eq_ix3 j⟩
  obtain rfl : u = 0 := Subsingleton.elim _ _
  unfold Gen.out2_5
  rw [View.canon_unit_zero pool_hz3]
  simp only [View.ld_unit_zero (S := S4000x128) pool_hz2, View.ld_unit_zero (S := S128x128) pool_hz2,
    View.ld_unit_zero (S := S4000x1) pool_hz2]
  exact pool_pay3_apply _ _ _ _ g h

namespace KPool

section Blocks

variable {G : Pipeline.Grid} (w : Pipeline.Window sig G)

abbrev RowTiled : Prop := ∀ t a, w.index t a = if a.val = 0 then t.val else 0

abbrev Fixed : Prop := ∀ t a, w.index t a = 0

variable {w}

theorem RowTiled.zero (h : RowTiled w) (t : Fin G.N) (a : Fin w.shape.rank) (ha : a.val = 0) : w.index t a = t.val :=
  (h t a).trans (if_pos ha)

theorem RowTiled.succ (h : RowTiled w) (t : Fin G.N) (a : Fin w.shape.rank) (ha : a.val ≠ 0) : w.index t a = 0 :=
  (h t a).trans (if_neg ha)

theorem RowTiled.emb_zero (h : RowTiled w) (t : Fin G.N) (y : (w.xblock (G.coords t)).Idx) (a : Fin w.shape.rank)
    (ha : a.val = 0) : ((w.rect t).emb y a : Nat) = t.val * w.size a + y a := by
  rw [w.rect_emb_val t y a, h.zero t a ha]

theorem RowTiled.emb_succ (h : RowTiled w) (t : Fin G.N) (y : (w.xblock (G.coords t)).Idx) (a : Fin w.shape.rank)
    (ha : a.val ≠ 0) : ((w.rect t).emb y a : Nat) = y a :=
  w.rect_emb_val_of_index_zero t a (h.succ t a ha) y

end Blocks

-- Row `n` of tile `t` is row `4000 t + n` of the array.
theorem tile_of_val {C : Nat} {α : Type} (X : (⟨2, ![20000, C]⟩ : Shape).Idx → α) (t : Fin 5)
    {i : (⟨2, ![20000, C]⟩ : Shape).Idx} {n : Fin 4000} {c : Fin C}
    (h0 : (i 0 : Nat) = t.val * 4000 + n) (h1 : (i 1 : Nat) = c) : X i = X (ix2 (Cert.Net.tileIdx t n) c) :=
  congrArg X (Shape.idx_ext₂ (by show (i 0 : Nat) = 4000 * t.val + n; omega) h1)

theorem idx_ext₃ {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

theorem eq_of_val {S : Shape} {α : Type} (X : S.Idx → α) {i j : S.Idx} (h : ∀ a, (i a : Nat) = j a) : X i = X j :=
  congrArg X (funext fun a => Fin.ext (h a))

-- Row `r` lies in the 4000-row block `r / 4000`.
theorem mem_rowTile {C : Nat} (i : (⟨2, ![20000, C]⟩ : Shape).Idx) (n : Fin 2 → Nat) (inb)
    (h0 : n 0 = (i 0).val / 4000) (h1 : n 1 = 0) :
    i ∈ (Rect.unit (s := ⟨2, ![20000, C]⟩) (fun a => n a * ![4000, C] a) ![4000, C] inb).set :=
  Rect.mem_set_unit.mpr fun a => match a with
    | ⟨0, _⟩ => by show n 0 * 4000 ≤ (i 0).val ∧ (i 0).val < n 0 * 4000 + 4000; omega
    | ⟨1, _⟩ => by
      have : (i 1).val < C := (i 1).isLt
      show n 1 * C ≤ (i 1).val ∧ (i 1).val < n 1 * C + C
      rw [h1]; omega

-- Entry `(t, g, h)` of a stack of five lies in the one-matrix block `t`.
theorem mem_stackTile (i : (⟨3, ![5, 50, 128]⟩ : Shape).Idx) (n : Fin 3 → Nat) (inb)
    (h0 : n 0 = (i 0).val) (h1 : n 1 = 0) (h2 : n 2 = 0) :
    i ∈ (Rect.unit (s := ⟨3, ![5, 50, 128]⟩) (fun a => n a * ![1, 50, 128] a) ![1, 50, 128] inb).set :=
  Rect.mem_set_unit.mpr fun a => match a with
    | ⟨0, _⟩ => by show n 0 * 1 ≤ (i 0).val ∧ (i 0).val < n 0 * 1 + 1; omega
    | ⟨1, _⟩ => by
      have : (i 1).val < 50 := (i 1).isLt
      show n 1 * 50 ≤ (i 1).val ∧ (i 1).val < n 1 * 50 + 50
      omega
    | ⟨2, _⟩ => by
      have : (i 2).val < 128 := (i 2).isLt
      show n 2 * 128 ≤ (i 2).val ∧ (i 2).val < n 2 * 128 + 128
      omega

end KPool

open KPool

abbrev pool_tile (t : Fin cfg2.N) : Fin 5 := Fin.cast (show cfg2.N = 5 from N_2) t

theorem pool_idx : (RowTiled win2_0 ∧ RowTiled win2_1 ∧ RowTiled win2_5 ∧ RowTiled win2_6)
    ∧ Fixed win2_2 ∧ Fixed win2_3 ∧ Fixed win2_4 := by
  decide +kernel

theorem pool_x_blk (t : Fin cfg2.N) (X : Cert.Net.Mat 20000 128) :
    ((cfg2.win 0).blk t).view.read (Elt Ideal) X = Cert.Net.tileRows X (pool_tile t) :=
  funext fun j => tile_of_val X _ (pool_idx.1.1.emb_zero t j (0 : Fin 2) rfl) (pool_idx.1.1.emb_succ t j (1 : Fin 2) (by decide))

theorem pool_gid_blk (t : Fin cfg2.N) (gid : Cert.Net.ICol 20000) :
    ((cfg2.win 1).blk t).view.read (Elt Ideal) gid = Cert.Net.tileICol gid (pool_tile t) :=
  funext fun j => tile_of_val gid _ (pool_idx.1.2.1.emb_zero t j (0 : Fin 2) rfl)
    ((pool_idx.1.2.1.emb_succ t j (1 : Fin 2) (by decide)).trans
      (by have : (j 1).val < 1 := (j 1).isLt; show (j 1).val = 0; omega))

theorem pool_P_blk (t : Fin cfg2.N) (P1 P2 P3 : Cert.Net.Mat 128 128) :
    ((cfg2.win 2).blk t).view.read (Elt Ideal) P1 = P1 ∧ ((cfg2.win 3).blk t).view.read (Elt Ideal) P2 = P2
      ∧ ((cfg2.win 4).blk t).view.read (Elt Ideal) P3 = P3 :=
  ⟨funext fun j => eq_of_val P1 fun a => win2_2.rect_emb_val_of_index_zero t a (pool_idx.2.1 t a) j,
    funext fun j => eq_of_val P2 fun a => win2_3.rect_emb_val_of_index_zero t a (pool_idx.2.2.1 t a) j,
    funext fun j => eq_of_val P3 fun a => win2_4.rect_emb_val_of_index_zero t a (pool_idx.2.2.2 t a) j⟩

theorem pool_parts_blk (t : Fin cfg2.N) (G : (⟨3, ![5, 50, 128]⟩ : Shape).Idx → EReal) :
    ((cfg2.win 5).blk t).view.read (Elt Ideal) G = poolPartsTile G (pool_tile t) :=
  funext fun j => congrArg G (idx_ext₃
    ((pool_idx.1.2.2.1.emb_zero t j (0 : Fin 3) rfl).trans
      (by have : (j 0).val < 1 := (j 0).isLt; show t.val * 1 + (j 0).val = t.val; omega))
    (pool_idx.1.2.2.1.emb_succ t j (1 : Fin 3) (by decide)) (pool_idx.1.2.2.1.emb_succ t j (2 : Fin 3) (by decide)))

theorem pool_new_blk (t : Fin cfg2.N) (G : Cert.Net.Mat 20000 128) :
    ((cfg2.win 6).blk t).view.read (Elt Ideal) G = Cert.Net.tileRows G (pool_tile t) :=
  funext fun j => tile_of_val G _ (pool_idx.1.2.2.2.emb_zero t j (0 : Fin 2) rfl)
    (pool_idx.1.2.2.2.emb_succ t j (1 : Fin 2) (by decide))

-- What grid point `t` writes back, over any contents of the five input arrays.
theorem pool_flush_parts (t : Fin cfg2.N) (X : Cert.Net.Mat 20000 128) (gid : Cert.Net.ICol 20000) (P1 P2 P3 : Cert.Net.Mat 128 128) :
    (cfg2.win 5).cut (grid2.coords t) (Gen.out2_5 (F := Ideal) (((cfg2.win 0).blk t).view.read (Elt Ideal) X)
      (((cfg2.win 1).blk t).view.read (Elt Ideal) gid) (((cfg2.win 2).blk t).view.read (Elt Ideal) P1)
      (((cfg2.win 3).blk t).view.read (Elt Ideal) P2) (((cfg2.win 4).blk t).view.read (Elt Ideal) P3))
      = ((cfg2.win 5).blk t).view.read (Elt Ideal) (Cert.Net.poolParts X gid P1 P2) := by
  rw [pool_x_blk, pool_gid_blk, (pool_P_blk t P1 P2 P3).1, (pool_P_blk t P1 P2 P3).2.1, (pool_P_blk t P1 P2 P3).2.2]
  exact (pool_out_parts X gid P1 P2 P3 (pool_tile t)).trans (pool_parts_blk t _).symm

theorem pool_flush_new (t : Fin cfg2.N) (X : Cert.Net.Mat 20000 128) (gid : Cert.Net.ICol 20000) (P1 P2 P3 : Cert.Net.Mat 128 128) :
    (cfg2.win 6).cut (grid2.coords t) (Gen.out2_6 (F := Ideal) (((cfg2.win 0).blk t).view.read (Elt Ideal) X)
      (((cfg2.win 1).blk t).view.read (Elt Ideal) gid) (((cfg2.win 2).blk t).view.read (Elt Ideal) P1)
      (((cfg2.win 3).blk t).view.read (Elt Ideal) P2) (((cfg2.win 4).blk t).view.read (Elt Ideal) P3))
      = ((cfg2.win 6).blk t).view.read (Elt Ideal) (Cert.Net.poolNew (R := 20000) X P3) := by
  refine (pool_out_new _ _ _ _ _).trans ?_
  rw [pool_x_blk, (pool_P_blk t P1 P2 P3).2.2, ← poolNew_tile]
  exact (pool_new_blk t _).symm

theorem pool_cover_parts (i : S5x50x128.Idx) :
    ∃ t : Fin cfg2.N, (cfg2.win 5).flush t = true ∧ i ∈ ((cfg2.win 5).blk t).view.set := by
  have ht : (i 0).val < cfg2.N := by rw [show cfg2.N = 5 from N_2]; exact (i 0).isLt
  refine ⟨⟨_, ht⟩, flush2_5 _, ?_⟩
  rw [show ((cfg2.win 5).blk ⟨_, ht⟩).view.set = (win2_5.rect ⟨_, ht⟩).set from View.set_slice_whole main_v60_0 _]
  exact mem_stackTile i (win2_5.index _) _ (pool_idx.1.2.2.1.zero _ (0 : Fin 3) rfl)
    (pool_idx.1.2.2.1.succ _ (1 : Fin 3) (by decide)) (pool_idx.1.2.2.1.succ _ (2 : Fin 3) (by decide))

theorem pool_cover_new (i : S20000x128.Idx) :
    ∃ t : Fin cfg2.N, (cfg2.win 6).flush t = true ∧ i ∈ ((cfg2.win 6).blk t).view.set := by
  have ht : (i 0).val / 4000 < cfg2.N := by
    have : (i 0).val < 20000 := (i 0).isLt
    rw [show cfg2.N = 5 from N_2]; omega
  refine ⟨⟨_, ht⟩, flush2_6 _, ?_⟩
  rw [show ((cfg2.win 6).blk ⟨_, ht⟩).view.set = (win2_6.rect ⟨_, ht⟩).set from View.set_slice_whole main_v60_1 _]
  exact mem_rowTile i (win2_6.index _) _ (pool_idx.1.2.2.2.zero _ (0 : Fin 2) rfl)
    (pool_idx.1.2.2.2.succ _ (1 : Fin 2) (by decide))

end Cert.KernelIdeal.KVal

end
-- ==== Proof.KEmbed.lean ====
import proofs.«410384_j15272903704942_3_alg».proof.Proof.KPoolPay

noncomputable section

namespace Cert.KernelIdeal.KVal

open Cert.KernelIdeal Cert.KernelIdeal.Gen Idealize.ShloMosaic Idealize.ShloMosaic.TcCoe Idealize.SL.Sem
open Idealize.ShloMosaic.ValueIdx
open KPool

theorem out_embed (x0 : Vec Ideal S4000x98 .f32) (x1 : Vec Ideal S98x128 .f32) :
    Gen.out0_2 (F := Ideal) x0 x1 = Cert.Net.embed (R := 4000) x0 x1 := by
  unfold Gen.out0_2
  rw [View.canon_unit_zero pool_hz2]
  simp only [View.ld_unit_zero (S := S4000x98) pool_hz2, View.ld_unit_zero (S := S98x128) pool_hz2]
  funext j
  obtain ⟨p, q, rfl⟩ : ∃ (p : Fin 4000) (q : Fin 128), j = ix2 p q := ⟨j 0, j 1, eq_ix2 j⟩
  unfold Gen.k0_pay1
  show Ideal.logistic (FloatOps.matmul (F := Ideal) dot_S4000x98_S98x128_S4000x128_1_0_0_1_n_n none x0
      (shapeCast S98x128 x1 shapeCasts_S98x128_S98x128) (constant S4000x128 .f32 0x00000000#32) (ix2 p q)) = _
  rw [shapeCast_self]
  exact congrArg Ideal.logistic (RowDims.matmul_plain_zero_apply none x0 x1 p q)

-- The embedding is computed row by row.
theorem embed_tile (X : Cert.Net.Mat 20000 98) (W : Cert.Net.Mat 98 128) (t : Fin 5) :
    Cert.Net.tileRows (Cert.Net.embed X W) t = Cert.Net.embed (Cert.Net.tileRows X t) W := rfl

variable (V : (c : Dev nD) → (b : Ref sig .tc) → Buf (Elt Ideal) ((c : Thread nD τ).loc b))

abbrev tileOf (t : Fin cfg0.N) : Fin 5 := Fin.cast (show cfg0.N = 5 from N_0) t

theorem embed_idx : (RowTiled win0_0 ∧ RowTiled win0_2) ∧ Fixed win0_1 := by
  decide +kernel

theorem nodes_blk (c : Dev nD) (t : Fin cfg0.N) :
    (Gen.iblk0 (F := Ideal) V c 0 t : Vec Ideal S4000x98 .f32) = Cert.Net.tileRows (V c main_arg0) (tileOf t) :=
  funext fun j => tile_of_val (V c main_arg0) _ (embed_idx.1.1.emb_zero t j (0 : Fin 2) rfl)
    (embed_idx.1.1.emb_succ t j (1 : Fin 2) (by decide))

theorem weight_blk (c : Dev nD) (t : Fin cfg0.N) :
    (Gen.iblk0 (F := Ideal) V c 1 t : Vec Ideal S98x128 .f32) = V c main_v0 :=
  funext fun j => eq_of_val (V c main_v0) fun a => win0_1.rect_emb_val_of_index_zero t a (embed_idx.2 t a) j

theorem out_blk (c : Dev nD) (t : Fin cfg0.N) (G : Cert.Net.Mat 20000 128) :
    ((cfg0.win 2).blk t).view.read (Elt Ideal) (G : Buf (Elt Ideal) ((c : Thread nD τ).loc main_v1))
      = Cert.Net.tileRows G (tileOf t) :=
  funext fun j => tile_of_val G _ (embed_idx.1.2.emb_zero t j (0 : Fin 2) rfl)
    (embed_idx.1.2.emb_succ t j (1 : Fin 2) (by decide))

theorem embed_arr (c : Dev nD) :
    (Gen.dat0 (F := Ideal) V c).arrAt 2 cfg0.N = Cert.Net.embed (R := 20000) (V c main_arg0) (V c main_v0) :=
  (Gen.dat0 (F := Ideal) V c).arrAt_eq_of_cover 2 _
    (fun t _ => by
      show (cfg0.win 2).cut (grid0.coords t) ((Gen.dat0 (F := Ideal) V c).after 2 t) = _
      rw [Gen.after0_2, out_embed, nodes_blk V c t, weight_blk V c t, ← embed_tile]
      exact (out_blk c t _).symm)
    fun i => by
      have ht : (i 0).val / 4000 < cfg0.N := by
        have : (i 0).val < 20000 := (i 0).isLt
        rw [show cfg0.N = 5 from N_0]; omega
      refine ⟨⟨_, ht⟩, flush0_2 _, ?_⟩
      rw [show ((cfg0.win 2).blk ⟨_, ht⟩).view.set = (win0_2.rect ⟨_, ht⟩).set from View.set_slice_whole main_v1 _]
      exact mem_rowTile i (win0_2.index _) _ (embed_idx.1.2.zero _ (0 : Fin 2) rfl)
        (embed_idx.1.2.succ _ (1 : Fin 2) (by decide))

end Cert.KernelIdeal.KVal

end
-- ==== Proof.KEdgePay.lean ====
import proofs.«410384_j15272903704942_3_alg».proof.Proof.Gen.KernelIdeal.Frame
import proofs.«410384_j15272903704942_3_alg».proof.Proof.Net
import proofs.«410384_j15272903704942_3_alg».proof.Proof.LibRowDims
import Idealize.ShloMosaic.Lib.Pipeline.Value
import Idealize.ShloMosaic.PureOps.Ideal.Laws

noncomputable section

open scoped BigOperators

namespace Cert.KernelIdeal.KVal.Edge

open Idealize.ShloMosaic Idealize.ShloMosaic.ValueIdx Cert.KernelIdeal Cert.KernelIdeal.Gen

theorem hz : (![0, 0] : Fin 2 → Nat) = fun _ => 0 := funext fun a => by fin_cases a <;> rfl

theorem one_f32 : Ideal.ofBits .f32 0x3F800000#32 = 1 := by
  simp [Ideal.ofBits, Ideal.ieee, -EReal.coe_mul]; norm_num

/-- The product of a block of 8000 rows with a 128 × 128 matrix, from the zero accumulator. -/
def mm (a : FVec Ideal S8000x128 .bf16) (b : FVec Ideal S128x128 .bf16) : FVec Ideal S8000x128 .f32 :=
  matmul dot_S8000x128_S128x128_S8000x128_1_0_0_1_n_n none a b (constant S8000x128 .f32 0x00000000#32)

theorem mm_apply (a : FVec Ideal S8000x128 .bf16) (b : FVec Ideal S128x128 .bf16) (e : Fin 8000) (h : Fin 128) :
    mm a b (ix2 e h) = ∑ k : Fin 128, a (ix2 e k) * b (ix2 k h) :=
  RowDims.matmul_plain_zero_apply none a b e h

/-- An element of a unit-stride rectangle of a matrix sits at offset plus coordinate. -/
theorem idx2 {R C R' C' : Nat} {off : Fin 2 → Nat} {inb} (y : (⟨2, ![R', C']⟩ : Shape).Idx) (i : Fin R) (j : Fin C)
    (h0 : off 0 + (y 0).val = i.val) (h1 : off 1 + (y 1).val = j.val) :
    (Rect.unit (s := ⟨2, ![R, C]⟩) off ![R', C'] inb).idx y = ix2 i j := by
  funext a; refine Fin.ext ?_
  match a with
  | ⟨0, _⟩ => show off 0 + 1 * (y 0).val = i.val; omega
  | ⟨1, _⟩ => show off 1 + 1 * (y 1).val = j.val; omega

/-- Row `k` of the 128 rows from row `o` of a 384-row matrix is row `o + k` of the matrix. -/
theorem ld_row (x : Vec Ideal S384x128 .bf16) {o : Nat} {inb} (k h : Fin 128) (i : Fin 384) (hi : o + k.val = i.val) :
    View.ld x (Rect.unit (s := S384x128) ![o, 0] S128x128.size inb) (ix2 k h) = x (ix2 i h) :=
  congrArg x (idx2 (ix2 k h) i h hi (Nat.zero_add _))

theorem bcast_col (v : FVec Ideal S8000x1 .f32) (e : Fin 8000) (h : Fin 128) :
    broadcastTo S8000x128 v broadcasts_S8000x1_S8000x128 (ix2 e h) = v (ix2 e 0) :=
  broadcastTo_apply v _ (ix2 e h) (ix2 e 0) (Fin.forall_fin_two.mpr ⟨rfl, rfl⟩)

theorem mask_eq (r : EReal) :
    FloatOps.sitofp (F := Ideal) .f32 ((FloatOps.cmpf (F := Ideal) (φ := .f32) .olt r (Ideal.ofBits .f32 0x41000000#32)).setWidth 32) = Net.mask r := by
  show ((((BitVec.ofBool (decide (r < Net.cutoff))).setWidth 32).toInt : ℝ) : EReal) = if r < Net.cutoff then 1 else 0
  by_cases hr : r < Net.cutoff
  · rw [if_pos hr, decide_eq_true hr, show ((BitVec.ofBool true).setWidth 32).toInt = 1 from by decide]; norm_num
  · rw [if_neg hr, decide_eq_false hr, show ((BitVec.ofBool false).setWidth 32).toInt = 0 from by decide]; norm_num

theorem elu_eq (x : EReal) :
    Scalar.select (FloatOps.cmpf (F := Ideal) (φ := .f32) .ogt x (Ideal.ofBits .f32 0x00000000#32)) x
        (Ideal.exp (min x (Ideal.ofBits .f32 0x00000000#32)) - Ideal.ofBits .f32 0x3F800000#32) = Net.elu x := by
  rw [Ideal.ofBits_zero_f32, one_f32]
  unfold Net.elu Scalar.select
  show (if BitVec.ofBool (decide (0 < x)) = 1 then x else Ideal.exp (min x 0) - 1) = _
  by_cases hx : 0 < x
  · rw [decide_eq_true hx, if_pos hx]; rfl
  · rw [decide_eq_false hx, if_neg hx, min_eq_left (not_lt.mp hx)]; rfl

theorem pay1_eq (v : Vec Ideal S8000x128 .bf16) : k1_pay1 v = v := shapeCast_self v _
theorem pay2_eq (v : Vec Ideal S8000x128 .bf16) : k1_pay2 v = v := shapeCast_self v _
theorem pay3_eq (v : Vec Ideal S8000x1 .f32) : k1_pay3 v = v := shapeCast_self v _
theorem pay7_eq (v : Vec Ideal S128x128 .bf16) : k1_pay7 v = v := shapeCast_self v _
theorem pay8_eq (v : Vec Ideal S128x128 .bf16) : k1_pay8 v = v := shapeCast_self v _
theorem pay9_eq (v : Vec Ideal S128x128 .bf16) : k1_pay9 v = v := shapeCast_self v _

theorem pay4_apply (v4 : Vec Ideal S8000x1 .f32) (e : Fin 8000) : k1_pay4 v4 (ix2 e 0) = Net.mask (v4 (ix2 e 0)) := by
  unfold k1_pay4
  rw [pay3_eq]
  exact mask_eq _

theorem pay5_apply (x0 x1 : Vec Ideal S8000x128 .bf16) (x2 : Vec Ideal S8000x1 .f32) (e : Fin 8000) (k : Fin 128) :
    k1_pay5 x0 x1 x2 (ix2 e k) = Net.diff x0 x1 x2 e k := by
  unfold k1_pay5
  rw [pay1_eq, pay2_eq, pay3_eq, truncf_apply, mulf_apply, subf_apply, extf_apply, extf_apply, bcast_col, divf_apply,
    broadcast_apply]
  show _ * Ideal.div (Ideal.ofBits .f32 0x3F800000#32) _ = _
  rw [one_f32]
  rfl

/-- The three 128-wide products, through the three row slices of the 384-row matrix, sum to the 384-wide contraction. -/
theorem pre3_eq (ni nj : Vec Ideal S8000x128 .bf16) (r : Vec Ideal S8000x1 .f32) (M : Vec Ideal S384x128 .bf16)
    (e : Fin 8000) (h : Fin 128) :
    addf (addf (mm ni (View.ld M r1_2)) (mm nj (View.ld M r1_3))) (mm (k1_pay5 ni nj r) (View.ld M r1_4)) (ix2 e h)
      = Net.pre3 ni nj r M e h := by
  rw [addf_apply, addf_apply, mm_apply, mm_apply, mm_apply]
  simp only [pay5_apply]
  exact congrArg₂ (· + ·) (congrArg₂ (· + ·)
    (Finset.sum_congr rfl fun k _ => congrArg₂ (· * ·) rfl (ld_row M k h (Net.lo k) (Nat.zero_add _)))
    (Finset.sum_congr rfl fun k _ => congrArg₂ (· * ·) rfl (ld_row M k h (Net.mid k) rfl)))
    (Finset.sum_congr rfl fun k _ => congrArg₂ (· * ·) rfl (ld_row M k h (Net.hi k) rfl))

/-- What the body leaves in its output block is the edge message of its ten input blocks. -/
theorem out_edge1 (x0 x1 : Vec Ideal S8000x128 .bf16) (x2 : Vec Ideal S8000x1 .f32) (x3 x4 : Vec Ideal S8000x64 .bf16)
    (x5 x6 : Vec Ideal S384x128 .bf16) (x7 : Vec Ideal S64x128 .bf16) (x8 : Vec Ideal S64x64 .bf16) (x9 : Vec Ideal S64x128 .bf16) :
    Gen.out1_10 x0 x1 x2 x3 x4 x5 x6 x7 x8 x9 = Cert.Net.edge (R := 8000) x0 x1 x2 x3 x4 x5 x6 x7 x8 x9 := by
  unfold Gen.out1_10
  rw [View.canon_unit_zero hz]
  simp only [View.ld_unit_zero (S := S8000x128) hz, View.ld_unit_zero (S := S8000x1) hz, View.ld_unit_zero (S := S8000x64) hz,
    View.ld_unit_zero (S := S64x128) hz, View.ld_unit_zero (S := S64x64) hz]
  funext j
  obtain ⟨e, h, rfl⟩ : ∃ (e : Fin 8000) (h : Fin 128), j = ix2 e h := ⟨j 0, j 1, eq_ix2 j⟩
  unfold k1_pay10 k1_pay6
  simp only [shapeCast_self, pay1_eq, pay2_eq, pay7_eq, pay8_eq, pay9_eq]
  rw [truncf_apply, mulf_apply, mulf_apply, mulf_apply, bcast_col, addf_apply, pay4_apply]
  exact congrArg₂ (· * ·) (congrArg₂ (· * ·) (congrArg₂ (· * ·) (congrArg Ideal.logistic (pre3_eq x0 x1 x2 x5 e h))
    ((elu_eq _).trans (congrArg Net.elu (pre3_eq x0 x1 x2 x6 e h))))
    (congrArg₂ (· + ·) (RowDims.matmul_plain_zero_apply none x3 x7 e h)
      ((RowDims.matmul_plain_zero_apply none _ x9 e h).trans (Finset.sum_congr rfl fun k _ => congrArg₂ (· * ·)
        (congrArg (x4 (ix2 e k) * Ideal.logistic ·) (RowDims.matmul_plain_zero_apply none x4 x8 e k)) rfl)))) rfl

def rowIdx {R R' : Nat} (o : Nat) (h : o + R' ≤ R) (n : Fin R') : Fin R := ⟨o + n.val, by omega⟩

/-- Rows `o … o + R' − 1` of a matrix. -/
def rowsAt {R C R' : Nat} (x : Net.Mat R C) (o : Nat) (h : o + R' ≤ R) : Net.Mat R' C :=
  fun j => x (ix2 (rowIdx o h (j 0)) (j 1))

/-- What a window of `R'`-row blocks reads of a matrix at block index `ix`. -/
def blkOf {R C : Nat} (R' : Nat) (x : Net.Mat R C) (ix : Fin 2 → Nat)
    (inb : ∀ a, ix a * ![R', C] a + ![R', C] a ≤ ![R, C] a) : Net.Mat R' C :=
  fun y => x ((Rect.unit (s := ⟨2, ![R, C]⟩) (fun a => ix a * ![R', C] a) ![R', C] inb).idx y)

theorem blk_rows {R C R' : Nat} (x : Net.Mat R C) (ix : Fin 2 → Nat) (h1 : ix 1 = 0) (inb) :
    blkOf R' x ix inb = rowsAt x (ix 0 * R') (inb 0) :=
  funext fun y => congrArg x (idx2 y _ _ rfl (by show ix 1 * C + _ = _; rw [h1]; omega))

theorem blk_all {R C : Nat} (x : Net.Mat R C) (ix : Fin 2 → Nat) (h0 : ix 0 = 0) (h1 : ix 1 = 0) (inb) :
    blkOf R x ix inb = x :=
  funext fun y => (congrArg x (idx2 y (y 0) (y 1) (by show ix 0 * R + _ = _; rw [h0]; omega)
    (by show ix 1 * C + _ = _; rw [h1]; omega))).trans (congrArg x (eq_ix2 y).symm)

/-- The edge message is local in the row: of the blocks at one row offset it is the block of the message of the arrays. -/
theorem edge_blocks {ix jx : Fin 2 → Nat} (h1 : ix 1 = 0) (z0 : jx 0 = 0) (z1 : jx 1 = 0)
    (x0 x1 : Net.Mat 160000 128) (x2 : Net.Mat 160000 1) (x3 x4 : Net.Mat 160000 64) (M5 M6 : Net.Mat 384 128)
    (M7 : Net.Mat 64 128) (M8 : Net.Mat 64 64) (M9 : Net.Mat 64 128) {i0 i1 i2 i3 i4 i5 i6 i7 i8 i9 i10} :
    Net.edge (blkOf 8000 x0 ix i0) (blkOf 8000 x1 ix i1) (blkOf 8000 x2 ix i2) (blkOf 8000 x3 ix i3) (blkOf 8000 x4 ix i4)
        (blkOf 384 M5 jx i5) (blkOf 384 M6 jx i6) (blkOf 64 M7 jx i7) (blkOf 64 M8 jx i8) (blkOf 64 M9 jx i9)
      = blkOf 8000 (Net.edge x0 x1 x2 x3 x4 M5 M6 M7 M8 M9) ix i10 := by
  simp only [blk_rows _ _ h1, blk_all _ _ z0 z1]
  rfl

/-- The block index of a row-indexed window at grid point `t` is `t`. -/
theorem idx_row : ∀ t : Fin grid1.N, cc1_transform_10 (grid1.coords t) 0 = t.val := by decide +kernel

/-- Row `r` lies in the block at block index `r / 8000`. -/
theorem cover_rows {C N : Nat} (hN : N = 20) (ix : Fin N → Fin 2 → Nat) (h0 : ∀ t, ix t 0 = t.val) (h1 : ∀ t, ix t 1 = 0)
    (inb : ∀ t a, ix t a * ![8000, C] a + ![8000, C] a ≤ ![160000, C] a) (i : (⟨2, ![160000, C]⟩ : Shape).Idx) :
    ∃ t, i ∈ (Rect.unit (fun a => ix t a * ![8000, C] a) ![8000, C] (inb t)).set := by
  subst hN
  have hi : (i 0).val < 160000 := (i 0).isLt
  have hj : (i 1).val < C := (i 1).isLt
  refine ⟨⟨(i 0).val / 8000, by omega⟩, Rect.mem_set_unit.mpr fun a => ?_⟩
  match a with
  | ⟨0, _⟩ =>
    show ix _ 0 * 8000 ≤ (i 0).val ∧ (i 0).val < ix _ 0 * 8000 + 8000
    rw [h0]; show (i 0).val / 8000 * 8000 ≤ _ ∧ _ < (i 0).val / 8000 * 8000 + 8000; omega
  | ⟨1, _⟩ => show ix _ 1 * C ≤ (i 1).val ∧ (i 1).val < ix _ 1 * C + C; rw [h1]; omega

end Cert.KernelIdeal.KVal.Edge

end
-- ==== Proof.KEdge.lean ====
import proofs.«410384_j15272903704942_3_alg».proof.Proof.KEdgePay

noncomputable section

namespace Cert.KernelIdeal.KVal

open Cert.KernelIdeal Cert.KernelIdeal.Gen Idealize.ShloMosaic Idealize.ShloMosaic.TcCoe Idealize.SL.Sem
open Idealize.ShloMosaic.Pipeline (Dat)

theorem edge_arr1 (V : (c : Dev nD) → (b : Ref sig .tc) → Buf (Elt Ideal) ((c : Thread nD τ).loc b)) (c : Dev nD) :
    (Gen.dat1 (F := Ideal) V c).arrAt 10 cfg1.N
      = Cert.Net.edge (R := 160000) (V c main_v27) (V c main_v34) (V c main_v2) (V c main_v18) (V c main_v19) (V c main_v36) (V c main_v38) (V c main_v40) (V c main_v42) (V c main_v44) :=
  (Gen.dat1 (F := Ideal) V c).arrAt_eq_of_cover 10 _
    (fun t _ => ((Gen.after1_10 V c t).trans (Edge.out_edge1 _ _ _ _ _ _ _ _ _ _)).trans
      (Edge.edge_blocks (ix := win1_0.index t) (jx := win1_5.index t) rfl rfl rfl
        (V c main_v27) (V c main_v34) (V c main_v2) (V c main_v18) (V c main_v19) (V c main_v36) (V c main_v38) (V c main_v40) (V c main_v42) (V c main_v44)))
    fun i => (Edge.cover_rows N_1 win1_10.index Edge.idx_row (fun _ => rfl) _ i).imp fun t h =>
      ⟨flush1_10 t, Eq.mpr (congrArg (i ∈ ·) (View.set_slice_whole main_v45 _)) h⟩

end Cert.KernelIdeal.KVal

end
-- ==== Proof.KEdge3.lean ====
import proofs.«410384_j15272903704942_3_alg».proof.Proof.KEdgePay

noncomputable section

namespace Cert.KernelIdeal.KVal

open Cert.KernelIdeal Cert.KernelIdeal.Gen Idealize.ShloMosaic Idealize.ShloMosaic.TcCoe Idealize.SL.Sem
open Idealize.ShloMosaic.Pipeline (Dat)

theorem edge_arr3 (V : (c : Dev nD) → (b : Ref sig .tc) → Buf (Elt Ideal) ((c : Thread nD τ).loc b)) (c : Dev nD) :
    (Gen.dat3 (F := Ideal) V c).arrAt 10 cfg3.N
      = Cert.Net.edge (R := 160000) (V c main_v70) (V c main_v77) (V c main_v2) (V c main_v18) (V c main_v19) (V c main_v79) (V c main_v81) (V c main_v83) (V c main_v85) (V c main_v87) :=
  (Gen.dat3 (F := Ideal) V c).arrAt_eq_of_cover 10 _
    (fun t _ => ((Gen.after3_10 V c t).trans (Edge.out_edge1 _ _ _ _ _ _ _ _ _ _)).trans
      (Edge.edge_blocks (ix := win3_0.index t) (jx := win3_5.index t) rfl rfl rfl
        (V c main_v70) (V c main_v77) (V c main_v2) (V c main_v18) (V c main_v19) (V c main_v79) (V c main_v81) (V c main_v83) (V c main_v85) (V c main_v87)))
    fun i => (Edge.cover_rows N_3 win3_10.index Edge.idx_row (fun _ => rfl) _ i).imp fun t h =>
      ⟨flush3_10 t, Eq.mpr (congrArg (i ∈ ·) (View.set_slice_whole main_v88 _)) h⟩

end Cert.KernelIdeal.KVal

end
-- ==== Proof.KEdge5.lean ====
import proofs.«410384_j15272903704942_3_alg».proof.Proof.KEdgePay

noncomputable section

namespace Cert.KernelIdeal.KVal

open Cert.KernelIdeal Cert.KernelIdeal.Gen Idealize.ShloMosaic Idealize.ShloMosaic.TcCoe Idealize.SL.Sem
open Idealize.ShloMosaic.Pipeline (Dat)

theorem edge_arr5 (V : (c : Dev nD) → (b : Ref sig .tc) → Buf (Elt Ideal) ((c : Thread nD τ).loc b)) (c : Dev nD) :
    (Gen.dat5 (F := Ideal) V c).arrAt 10 cfg5.N
      = Cert.Net.edge (R := 160000) (V c main_v113) (V c main_v120) (V c main_v2) (V c main_v18) (V c main_v19) (V c main_v122) (V c main_v124) (V c main_v126) (V c main_v128) (V c main_v130) :=
  (Gen.dat5 (F := Ideal) V c).arrAt_eq_of_cover 10 _
    (fun t _ => ((Gen.after5_10 V c t).trans (Edge.out_edge1 _ _ _ _ _ _ _ _ _ _)).trans
      (Edge.edge_blocks (ix := win5_0.index t) (jx := win5_5.index t) rfl rfl rfl
        (V c main_v113) (V c main_v120) (V c main_v2) (V c main_v18) (V c main_v19) (V c main_v122) (V c main_v124) (V c main_v126) (V c main_v128) (V c main_v130)))
    fun i => (Edge.cover_rows N_5 win5_10.index Edge.idx_row (fun _ => rfl) _ i).imp fun t h =>
      ⟨flush5_10 t, Eq.mpr (congrArg (i ∈ ·) (View.set_slice_whole main_v131 _)) h⟩

end Cert.KernelIdeal.KVal

end
-- ==== Proof.KPool2.lean ====
import proofs.«410384_j15272903704942_3_alg».proof.Proof.KPoolPay

noncomputable section

namespace Cert.KernelIdeal.KVal

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

theorem pool_parts2 (c : Dev nD) :
    (Gen.dat2 (F := Ideal) V c).arrAt 5 cfg2.N
      = Cert.Net.poolParts (V c main_v53) (V c main_v3) (V c main_v55) (V c main_v57) :=
  (Gen.dat2 (F := Ideal) V c).arrAt_eq_of_cover 5 _
    (fun t _ => (congrArg ((cfg2.win 5).cut (grid2.coords t)) (Gen.after2_5 (F := Ideal) V c t)).trans
      (pool_flush_parts t (V c main_v53) (V c main_v3) (V c main_v55) (V c main_v57) (V c main_v59)))
    pool_cover_parts

theorem pool_new2 (c : Dev nD) :
    (Gen.dat2 (F := Ideal) V c).arrAt 6 cfg2.N = Cert.Net.poolNew (R := 20000) (V c main_v53) (V c main_v59) :=
  (Gen.dat2 (F := Ideal) V c).arrAt_eq_of_cover 6 _
    (fun t _ => (congrArg ((cfg2.win 6).cut (grid2.coords t)) (Gen.after2_6 (F := Ideal) V c t)).trans
      (pool_flush_new t (V c main_v53) (V c main_v3) (V c main_v55) (V c main_v57) (V c main_v59)))
    pool_cover_new

end Cert.KernelIdeal.KVal

end
-- ==== Proof.KPool4.lean ====
import proofs.«410384_j15272903704942_3_alg».proof.Proof.KPoolPay

noncomputable section

namespace Cert.KernelIdeal.KVal

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

theorem pool_parts4 (c : Dev nD) :
    (Gen.dat4 (F := Ideal) V c).arrAt 5 cfg4.N
      = Cert.Net.poolParts (V c main_v96) (V c main_v3) (V c main_v98) (V c main_v100) :=
  (Gen.dat4 (F := Ideal) V c).arrAt_eq_of_cover 5 _
    (fun t _ => (congrArg ((cfg4.win 5).cut (grid4.coords t)) (Gen.after4_5 (F := Ideal) V c t)).trans
      (pool_flush_parts t (V c main_v96) (V c main_v3) (V c main_v98) (V c main_v100) (V c main_v102)))
    pool_cover_parts

theorem pool_new4 (c : Dev nD) :
    (Gen.dat4 (F := Ideal) V c).arrAt 6 cfg4.N = Cert.Net.poolNew (R := 20000) (V c main_v96) (V c main_v102) :=
  (Gen.dat4 (F := Ideal) V c).arrAt_eq_of_cover 6 _
    (fun t _ => (congrArg ((cfg4.win 6).cut (grid4.coords t)) (Gen.after4_6 (F := Ideal) V c t)).trans
      (pool_flush_new t (V c main_v96) (V c main_v3) (V c main_v98) (V c main_v100) (V c main_v102)))
    pool_cover_new

end Cert.KernelIdeal.KVal

end
-- ==== Proof.KPool6.lean ====
import proofs.«410384_j15272903704942_3_alg».proof.Proof.KPoolPay

noncomputable section

namespace Cert.KernelIdeal.KVal

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

theorem pool_parts6 (c : Dev nD) :
    (Gen.dat6 (F := Ideal) V c).arrAt 5 cfg6.N
      = Cert.Net.poolParts (V c main_v139) (V c main_v3) (V c main_v141) (V c main_v143) :=
  (Gen.dat6 (F := Ideal) V c).arrAt_eq_of_cover 5 _
    (fun t _ => (congrArg ((cfg6.win 5).cut (grid6.coords t)) (Gen.after6_5 (F := Ideal) V c t)).trans
      (pool_flush_parts t (V c main_v139) (V c main_v3) (V c main_v141) (V c main_v143) (V c main_v145)))
    pool_cover_parts

theorem pool_new6 (c : Dev nD) :
    (Gen.dat6 (F := Ideal) V c).arrAt 6 cfg6.N = Cert.Net.poolNew (R := 20000) (V c main_v139) (V c main_v145) :=
  (Gen.dat6 (F := Ideal) V c).arrAt_eq_of_cover 6 _
    (fun t _ => (congrArg ((cfg6.win 6).cut (grid6.coords t)) (Gen.after6_6 (F := Ideal) V c t)).trans
      (pool_flush_new t (V c main_v139) (V c main_v3) (V c main_v141) (V c main_v143) (V c main_v145)))
    pool_cover_new

end Cert.KernelIdeal.KVal

end
-- ==== Proof.NetTiles.lean ====
import proofs.«410384_j15272903704942_3_alg».proof.Proof.Net

noncomputable section

open scoped BigOperators

namespace Cert.Net

open Idealize.ShloMosaic Idealize.ShloMosaic.ValueIdx

/-- Row `m` is row `m % 4000` of tile `m / 4000`. -/
def tileEquiv : Fin 5 × Fin 4000 ≃ Fin 20000 where
  toFun p := tileIdx p.1 p.2
  invFun m := (⟨m.val / 4000, by have := m.isLt; omega⟩, ⟨m.val % 4000, by omega⟩)
  left_inv p := by
    rcases p with ⟨t, n⟩
    have ht := t.isLt
    have hn := n.isLt
    refine Prod.ext (Fin.ext ?_) (Fin.ext ?_)
    · show (4000 * t.val + n.val) / 4000 = t.val
      omega
    · show (4000 * t.val + n.val) % 4000 = n.val
      omega
  right_inv m := by
    refine Fin.ext ?_
    show 4000 * (m.val / 4000) + m.val % 4000 = m.val
    omega

theorem sum_tiles {M : Type*} [AddCommMonoid M] (f : Fin 20000 → M) :
    ∑ t : Fin 5, ∑ n : Fin 4000, f (tileIdx t n) = ∑ m : Fin 20000, f m := by
  rw [← Equiv.sum_comp tileEquiv f, Fintype.sum_prod_type]
  rfl

/-- The segment sum over all rows is the sum of the five tiles' partial sums: the summand is local in the row. -/
theorem tiles_sum (x : Mat 20000 128) (gid : ICol 20000) (P1 P2 : Mat 128 128) (g : Fin 50) (h : Fin 128) :
    ∑ t : Fin 5, poolParts x gid P1 P2 (ix3 t g h) = poolTile (R := 20000) x gid P1 P2 (ix2 g h) := by
  show ∑ t : Fin 5, ∑ n : Fin 4000,
      onehot (tileICol gid t) n g * zp (tileRows x t) P1 P2 (ix2 n h)
    = ∑ m : Fin 20000, onehot gid m g * zp x P1 P2 (ix2 m h)
  exact sum_tiles (fun m => onehot gid m g * zp x P1 P2 (ix2 m h))

end Cert.Net

end
-- ==== Proof.KHostA.lean ====
import proofs.«410384_j15272903704942_3_alg».proof.Proof.KStretchA
import proofs.«410384_j15272903704942_3_alg».proof.Proof.KStretchB
import proofs.«410384_j15272903704942_3_alg».proof.Proof.KStretchC
import proofs.«410384_j15272903704942_3_alg».proof.Proof.KStretchD
import proofs.«410384_j15272903704942_3_alg».proof.Proof.KStretchE
import proofs.«410384_j15272903704942_3_alg».proof.Proof.KEmbed
import proofs.«410384_j15272903704942_3_alg».proof.Proof.KEdge
import proofs.«410384_j15272903704942_3_alg».proof.Proof.KEdge3
import proofs.«410384_j15272903704942_3_alg».proof.Proof.KEdge5
import proofs.«410384_j15272903704942_3_alg».proof.Proof.KPool2
import proofs.«410384_j15272903704942_3_alg».proof.Proof.KPool4
import proofs.«410384_j15272903704942_3_alg».proof.Proof.KPool6
import proofs.«410384_j15272903704942_3_alg».proof.Proof.NetTiles
import proofs.«410384_j15272903704942_3_alg».proof.Proof.Gen.KernelIdeal.Frame

noncomputable section

namespace Cert.KernelIdeal.KVal

open Idealize.ShloMosaic Idealize.ShloMosaic.TcCoe Idealize.ShloMosaic.ValueIdx Cert.KernelIdeal Cert.KernelIdeal.Gen

variable (m : (ℓ : Loc nD τ sig) → Buf (Elt Ideal) ℓ) (ρ : Dev nD → PrngReg) (c : Dev nD)

abbrev aK (r : Ref sig .tc) : Buf (Elt Ideal) ((c : Thread nD τ).loc r) := m ((c : Thread nD τ).loc r)

abbrev AK : Cert.Net.Args := argsK (aK m c main_arg0) (aK m c main_arg1) (aK m c main_arg2) (aK m c main_arg3) (aK m c main_arg4) (aK m c main_arg6) (aK m c main_arg7) (aK m c main_arg8) (aK m c main_arg9) (aK m c main_arg10) (aK m c main_arg11) (aK m c main_arg12) (aK m c main_arg13) (aK m c main_arg14) (aK m c main_arg15) (aK m c main_arg16)

abbrev x0K : Cert.Net.Mat 20000 128 := Cert.Net.x0 (AK m c)
abbrev x1K : Cert.Net.Mat 20000 128 := Cert.Net.x1 gK sK (AK m c)
abbrev x2K : Cert.Net.Mat 20000 128 := Cert.Net.x2 gK sK (AK m c)

abbrev zerosK : Vec Ideal S50x128 .f32 := broadcastInDim S50x128 ![] bcast_S_S50x128 (constant (F := Ideal) S_ .f32 0x00000000#32)

-- The contents at the boundaries of the run: after the launch, then alternately after a stretch of host operations and a kernel.
def Wk : ℕ → Valuation τ sig (Elt Ideal)
  | 0 => W0 m ρ c | 1 => W1 m ρ c | 2 => W2 m ρ c | 3 => W3 m ρ c | 4 => W4 m ρ c | 5 => W5 m ρ c | 6 => W6 m ρ c
  | 7 => W7 m ρ c | 8 => W8 m ρ c | 9 => W9 m ρ c | 10 => W10 m ρ c | 11 => W11 m ρ c | 12 => W12 m ρ c
  | 13 => W13 m ρ c | _ => W14 m ρ c

-- The buffers that may change between boundary `k` and the next: a stretch's results, a kernel's output arrays.
def wr : ℕ → List (Ref sig .tc)
  | 0 => writes0 | 1 => [main_v1] | 2 => writes1 | 3 => [main_v45] | 4 => writes2 | 5 => [main_v60_0, main_v60_1]
  | 6 => writes3 | 7 => [main_v88] | 8 => writes4 | 9 => [main_v103_0, main_v103_1] | 10 => writes5
  | 11 => [main_v131] | 12 => writes6 | 13 => [main_v146_0, main_v146_1] | _ => []

-- Across a kernel a buffer keeps its contents if it is none of the kernel's arrays, or one the kernel only reads.
theorem keep_of {n : ℕ} (a : Fin n → Ref sig .tc) {W W' : Valuation τ sig (Elt Ideal)} (L : List (Ref sig .tc))
    (hne : ∀ r, (∀ w, a w ≠ r) → W' r = W r) (harr : ∀ w, a w ∉ L → W' (a w) = W (a w)) (r : Ref sig .tc) (h : r ∉ L) :
    W' r = W r := by
  by_cases hw : ∃ w, a w = r
  · obtain ⟨w, rfl⟩ := hw
    exact harr w h
  · exact hne r fun w e => hw ⟨w, e⟩

variable {m ρ c}

theorem step (k : ℕ) (r : Ref sig .tc) (h : r ∉ wr k) : Wk m ρ c (k + 1) r = Wk m ρ c k r :=
  match k, h with
  | 0, h => pass0 (W0 m ρ c) r h
  | 1, h => keep_of (Pipeline.arrRef spec0) _ (W2_of_ne m ρ c) (fun w hw => (W2_arr m ρ c w).trans
      (((dat0 (V1 m ρ) c).arrAt_in w ((by decide : ∀ w, Pipeline.arrRef spec0 w ∉ [main_v1] → (cfg0.win w).isOut = false) w hw) _).trans
        (A_eq0 (V1 m ρ) c w))) r h
  | 2, h => pass1 (W2 m ρ c) r h
  | 3, h => keep_of (Pipeline.arrRef spec1) _ (W4_of_ne m ρ c) (fun w hw => (W4_arr m ρ c w).trans
      (((dat1 (V3 m ρ) c).arrAt_in w ((by decide : ∀ w, Pipeline.arrRef spec1 w ∉ [main_v45] → (cfg1.win w).isOut = false) w hw) _).trans
        (A_eq1 (V3 m ρ) c w))) r h
  | 4, h => pass2 (W4 m ρ c) r h
  | 5, h => keep_of (Pipeline.arrRef spec2) _ (W6_of_ne m ρ c) (fun w hw => (W6_arr m ρ c w).trans
      (((dat2 (V5 m ρ) c).arrAt_in w ((by decide : ∀ w, Pipeline.arrRef spec2 w ∉ [main_v60_0, main_v60_1] → (cfg2.win w).isOut = false) w hw) _).trans
        (A_eq2 (V5 m ρ) c w))) r h
  | 6, h => pass3 (W6 m ρ c) r h
  | 7, h => keep_of (Pipeline.arrRef spec3) _ (W8_of_ne m ρ c) (fun w hw => (W8_arr m ρ c w).trans
      (((dat3 (V7 m ρ) c).arrAt_in w ((by decide : ∀ w, Pipeline.arrRef spec3 w ∉ [main_v88] → (cfg3.win w).isOut = false) w hw) _).trans
        (A_eq3 (V7 m ρ) c w))) r h
  | 8, h => pass4 (W8 m ρ c) r h
  | 9, h => keep_of (Pipeline.arrRef spec4) _ (W10_of_ne m ρ c) (fun w hw => (W10_arr m ρ c w).trans
      (((dat4 (V9 m ρ) c).arrAt_in w ((by decide : ∀ w, Pipeline.arrRef spec4 w ∉ [main_v103_0, main_v103_1] → (cfg4.win w).isOut = false) w hw) _).trans
        (A_eq4 (V9 m ρ) c w))) r h
  | 10, h => pass5 (W10 m ρ c) r h
  | 11, h => keep_of (Pipeline.arrRef spec5) _ (W12_of_ne m ρ c) (fun w hw => (W12_arr m ρ c w).trans
      (((dat5 (V11 m ρ) c).arrAt_in w ((by decide : ∀ w, Pipeline.arrRef spec5 w ∉ [main_v131] → (cfg5.win w).isOut = false) w hw) _).trans
        (A_eq5 (V11 m ρ) c w))) r h
  | 12, h => pass6 (W12 m ρ c) r h
  | 13, h => keep_of (Pipeline.arrRef spec6) _ (W14_of_ne m ρ c) (fun w hw => (W14_arr m ρ c w).trans
      (((dat6 (V13 m ρ) c).arrAt_in w ((by decide : ∀ w, Pipeline.arrRef spec6 w ∉ [main_v146_0, main_v146_1] → (cfg6.win w).isOut = false) w hw) _).trans
        (A_eq6 (V13 m ρ) c w))) r h
  | _ + 14, _ => rfl

-- A buffer no step from boundary `i` to boundary `j` may change holds at `j` what it held at `i`.
theorem keep (i j : ℕ) (r : Ref sig .tc) (h : ∀ k < j, i ≤ k → r ∉ wr k) (hij : i ≤ j := by decide) :
    Wk m ρ c j r = Wk m ρ c i r := by
  induction j, hij using Nat.le_induction with
  | base => rfl
  | succ j hj ih => exact (step j r (h j j.lt_succ_self hj)).trans (ih fun k hk => h k (Nat.lt_succ_of_lt hk))

theorem arg_at (j : ℕ) (r : Ref sig .tc) (h : ∀ k < j, r ∉ wr k) : Wk m ρ c j r = aK m c r :=
  keep 0 j r (fun k hk _ => h k hk) j.zero_le

theorem pooled_step (acc : Cert.Net.Mat 50 128) (x : Cert.Net.Mat 20000 128) (gid : Cert.Net.ICol 20000) (P1 P2 : Cert.Net.Mat 128 128) :
    addf (F := Ideal) (φ := .f32) acc (Host.reduceAdd (F := Ideal) (Cert.Net.poolParts x gid P1 P2) (constant (F := Ideal) S_ .f32 0x00000000#32) reducesTo_S5x50x128_S50x128_d0 h_S_)
      = fun j => acc j + Cert.Net.poolTile (R := 20000) x gid P1 P2 j := by
  funext j
  obtain ⟨g, h, rfl⟩ : ∃ (g : Fin 50) (h : Fin 128), j = ix2 g h := ⟨j 0, j 1, eq_ix2 j⟩
  rw [poolAcc, Cert.Net.tiles_sum]

theorem zerosK_apply (j : S50x128.Idx) : zerosK j = 0 := by
  show Ideal.ofBits .f32 0x00000000#32 = 0
  exact Ideal.ofBits_zero_f32

theorem w1_v0 : Wk m ρ c 1 main_v0 = (AK m c).WembT :=
  s0_v0 (Wk m ρ c 0)
theorem w2_v1 : Wk m ρ c 2 main_v1 = x0K m c :=
  (W2_arr m ρ c 2).trans ((embed_arr (fun c b => Wk m ρ c 1 b) c).trans (by rw [arg_at 1 main_arg0 (by decide), w1_v0] <;> rfl))

theorem w3_v2 : Wk m ρ c 3 main_v2 = (AK m c).r :=
  (s1_v2 (Wk m ρ c 2)).trans (by rw [arg_at 2 main_arg3 (by decide)] <;> rfl)
theorem w3_v3 : Wk m ρ c 3 main_v3 = (AK m c).gid :=
  (s1_v3 (Wk m ρ c 2)).trans (by rw [arg_at 2 main_arg4 (by decide)] <;> rfl)
theorem w3_v4 : Wk m ρ c 3 main_v4 = zerosK :=
  s1_v4 (Wk m ρ c 2)
theorem w3_v6 : Wk m ρ c 3 main_v6 = transpose S3x384x128 [0, 2, 1] (aK m c main_arg12) transposes_S3x128x384_S3x384x128_0_2_1 :=
  (s1_v6 (Wk m ρ c 2)).trans (by rw [arg_at 2 main_arg12 (by decide)])
theorem w3_v8 : Wk m ρ c 3 main_v8 = transpose S3x384x128 [0, 2, 1] (aK m c main_arg13) transposes_S3x128x384_S3x384x128_0_2_1 :=
  (s1_v8 (Wk m ρ c 2)).trans (by rw [arg_at 2 main_arg13 (by decide)])
theorem w3_v10 : Wk m ρ c 3 main_v10 = transpose S3x64x128 [0, 2, 1] (aK m c main_arg9) transposes_S3x128x64_S3x64x128_0_2_1 :=
  (s1_v10 (Wk m ρ c 2)).trans (by rw [arg_at 2 main_arg9 (by decide)])
theorem w3_v12 : Wk m ρ c 3 main_v12 = transpose S3x64x64 [0, 2, 1] (aK m c main_arg11) transposes_S3x64x64_S3x64x64_0_2_1 :=
  (s1_v12 (Wk m ρ c 2)).trans (by rw [arg_at 2 main_arg11 (by decide)])
theorem w3_v14 : Wk m ρ c 3 main_v14 = transpose S3x64x128 [0, 2, 1] (aK m c main_arg10) transposes_S3x128x64_S3x64x128_0_2_1 :=
  (s1_v14 (Wk m ρ c 2)).trans (by rw [arg_at 2 main_arg10 (by decide)])
theorem w3_v15 : Wk m ρ c 3 main_v15 = transpose S3x128x128 [0, 2, 1] (aK m c main_arg15) transposes_S3x128x128_S3x128x128_0_2_1 :=
  (s1_v15 (Wk m ρ c 2)).trans (by rw [arg_at 2 main_arg15 (by decide)])
theorem w3_v16 : Wk m ρ c 3 main_v16 = transpose S3x128x128 [0, 2, 1] (aK m c main_arg16) transposes_S3x128x128_S3x128x128_0_2_1 :=
  (s1_v16 (Wk m ρ c 2)).trans (by rw [arg_at 2 main_arg16 (by decide)])
theorem w3_v17 : Wk m ρ c 3 main_v17 = transpose S3x128x128 [0, 2, 1] (aK m c main_arg14) transposes_S3x128x128_S3x128x128_0_2_1 :=
  (s1_v17 (Wk m ρ c 2)).trans (by rw [arg_at 2 main_arg14 (by decide)])
theorem w3_v18 : Wk m ρ c 3 main_v18 = (AK m c).comb :=
  (s1_v18 (Wk m ρ c 2)).trans (arg_at 2 main_arg6 (by decide))
theorem w3_v19 : Wk m ρ c 3 main_v19 = (AK m c).pw :=
  (s1_v19 (Wk m ρ c 2)).trans (arg_at 2 main_arg7 (by decide))
theorem w3_v27 : Wk m ρ c 3 main_v27 = gK (x0K m c) (AK m c).esN :=
  (s1_v27 (Wk m ρ c 2)).trans (by rw [w2_v1, arg_at 2 main_arg1 (by decide)] <;> rfl)
theorem w3_v34 : Wk m ρ c 3 main_v34 = gK (x0K m c) (AK m c).etN :=
  (s1_v34 (Wk m ρ c 2)).trans (by rw [w2_v1, arg_at 2 main_arg2 (by decide)] <;> rfl)
theorem w3_v36 : Wk m ρ c 3 main_v36 = (AK m c).Mg 0 :=
  (s1_v36 (Wk m ρ c 2)).trans (by rw [arg_at 2 main_arg12 (by decide)] <;> rfl)
theorem w3_v38 : Wk m ρ c 3 main_v38 = (AK m c).Mm 0 :=
  (s1_v38 (Wk m ρ c 2)).trans (by rw [arg_at 2 main_arg13 (by decide)] <;> rfl)
theorem w3_v40 : Wk m ρ c 3 main_v40 = (AK m c).M1 0 :=
  (s1_v40 (Wk m ρ c 2)).trans (by rw [arg_at 2 main_arg9 (by decide)] <;> rfl)
theorem w3_v42 : Wk m ρ c 3 main_v42 = (AK m c).M2g 0 :=
  (s1_v42 (Wk m ρ c 2)).trans (by rw [arg_at 2 main_arg11 (by decide)] <;> rfl)
theorem w3_v44 : Wk m ρ c 3 main_v44 = (AK m c).M2 0 :=
  (s1_v44 (Wk m ρ c 2)).trans (by rw [arg_at 2 main_arg10 (by decide)] <;> rfl)
theorem w4_v45 : Wk m ρ c 4 main_v45 = Cert.Net.z gK (AK m c) 0 (x0K m c) :=
  (W4_arr m ρ c 10).trans ((edge_arr1 (fun c b => Wk m ρ c 3 b) c).trans (by
    rw [w3_v27, w3_v34, w3_v2, w3_v18, w3_v19, w3_v36, w3_v38, w3_v40, w3_v42, w3_v44] <;> rfl))
theorem w5_v53 : Wk m ρ c 5 main_v53 = Cert.Net.xs gK sK (AK m c) 0 (x0K m c) :=
  (s2_v53 (Wk m ρ c 4)).trans (by rw [keep 2 4 main_v1 (by decide), w2_v1, arg_at 4 main_arg1 (by decide), w4_v45] <;> rfl)
theorem w5_v55 : Wk m ρ c 5 main_v55 = (AK m c).P1 0 :=
  (s2_v55_cut (Wk m ρ c 4)).trans (by rw [keep 3 4 main_v15 (by decide), w3_v15] <;> rfl)
theorem w5_v57 : Wk m ρ c 5 main_v57 = (AK m c).P2 0 :=
  (s2_v57_cut (Wk m ρ c 4)).trans (by rw [keep 3 4 main_v16 (by decide), w3_v16] <;> rfl)
theorem w5_v59 : Wk m ρ c 5 main_v59 = (AK m c).Ppsi 0 :=
  (s2_v59_cut (Wk m ρ c 4)).trans (by rw [keep 3 4 main_v17 (by decide), w3_v17] <;> rfl)
theorem w6_v60_0 : Wk m ρ c 6 main_v60_0 = Cert.Net.poolParts (Cert.Net.xs gK sK (AK m c) 0 (x0K m c)) (AK m c).gid ((AK m c).P1 0) ((AK m c).P2 0) :=
  (W6_arr m ρ c 5).trans ((pool_parts2 (fun c b => Wk m ρ c 5 b) c).trans (by
    rw [w5_v53, keep 3 5 main_v3 (by decide), w3_v3, w5_v55, w5_v57]))
theorem w6_v60_1 : Wk m ρ c 6 main_v60_1 = x1K m c :=
  (W6_arr m ρ c 6).trans ((pool_new2 (fun c b => Wk m ρ c 5 b) c).trans (by rw [w5_v53, w5_v59] <;> rfl))

end Cert.KernelIdeal.KVal

end
-- ==== Proof.KHostB.lean ====
import proofs.«410384_j15272903704942_3_alg».proof.Proof.KHostA

noncomputable section

namespace Cert.KernelIdeal.KVal

open Idealize.ShloMosaic Idealize.ShloMosaic.TcCoe Cert.KernelIdeal Cert.KernelIdeal.Gen

variable {m : (ℓ : Loc nD τ sig) → Buf (Elt Ideal) ℓ} {ρ : Dev nD → PrngReg} {c : Dev nD}

theorem w7_v62 : Wk m ρ c 7 main_v62 = Cert.Net.pooled0 gK sK (AK m c) :=
  (s3_v62 (Wk m ρ c 6)).trans (by rw [keep 3 6 main_v4 (by decide), w3_v4, w6_v60_0, pooled_step]; funext j; show zerosK j + _ = _; rw [zerosK_apply]; rfl)
theorem w7_v70 : Wk m ρ c 7 main_v70 = gK (x1K m c) (AK m c).esN :=
  (s3_v70 (Wk m ρ c 6)).trans (by rw [w6_v60_1, arg_at 6 main_arg1 (by decide)] <;> rfl)
theorem w7_v77 : Wk m ρ c 7 main_v77 = gK (x1K m c) (AK m c).etN :=
  (s3_v77 (Wk m ρ c 6)).trans (by rw [w6_v60_1, arg_at 6 main_arg2 (by decide)] <;> rfl)
theorem w7_v79 : Wk m ρ c 7 main_v79 = (AK m c).Mg 1 :=
  (s3_v79_cut (Wk m ρ c 6)).trans (by rw [keep 3 6 main_v6 (by decide), w3_v6] <;> rfl)
theorem w7_v81 : Wk m ρ c 7 main_v81 = (AK m c).Mm 1 :=
  (s3_v81_cut (Wk m ρ c 6)).trans (by rw [keep 3 6 main_v8 (by decide), w3_v8] <;> rfl)
theorem w7_v83 : Wk m ρ c 7 main_v83 = (AK m c).M1 1 :=
  (s3_v83_cut (Wk m ρ c 6)).trans (by rw [keep 3 6 main_v10 (by decide), w3_v10] <;> rfl)
theorem w7_v85 : Wk m ρ c 7 main_v85 = (AK m c).M2g 1 :=
  (s3_v85_cut (Wk m ρ c 6)).trans (by rw [keep 3 6 main_v12 (by decide), w3_v12] <;> rfl)
theorem w7_v87 : Wk m ρ c 7 main_v87 = (AK m c).M2 1 :=
  (s3_v87_cut (Wk m ρ c 6)).trans (by rw [keep 3 6 main_v14 (by decide), w3_v14] <;> rfl)
theorem w8_v88 : Wk m ρ c 8 main_v88 = Cert.Net.z gK (AK m c) 1 (x1K m c) :=
  (W8_arr m ρ c 10).trans ((edge_arr3 (fun c b => Wk m ρ c 7 b) c).trans (by
    rw [w7_v70, w7_v77, keep 3 7 main_v2 (by decide), w3_v2, keep 3 7 main_v18 (by decide), w3_v18, keep 3 7 main_v19 (by decide), w3_v19, w7_v79, w7_v81, w7_v83, w7_v85, w7_v87] <;> rfl))
theorem w9_v96 : Wk m ρ c 9 main_v96 = Cert.Net.xs gK sK (AK m c) 1 (x1K m c) :=
  (s4_v96 (Wk m ρ c 8)).trans (by rw [keep 6 8 main_v60_1 (by decide), w6_v60_1, arg_at 8 main_arg1 (by decide), w8_v88] <;> rfl)
theorem w9_v98 : Wk m ρ c 9 main_v98 = (AK m c).P1 1 :=
  (s4_v98_cut (Wk m ρ c 8)).trans (by rw [keep 3 8 main_v15 (by decide), w3_v15] <;> rfl)
theorem w9_v100 : Wk m ρ c 9 main_v100 = (AK m c).P2 1 :=
  (s4_v100_cut (Wk m ρ c 8)).trans (by rw [keep 3 8 main_v16 (by decide), w3_v16] <;> rfl)
theorem w9_v102 : Wk m ρ c 9 main_v102 = (AK m c).Ppsi 1 :=
  (s4_v102_cut (Wk m ρ c 8)).trans (by rw [keep 3 8 main_v17 (by decide), w3_v17] <;> rfl)
theorem w10_v103_0 : Wk m ρ c 10 main_v103_0 = Cert.Net.poolParts (Cert.Net.xs gK sK (AK m c) 1 (x1K m c)) (AK m c).gid ((AK m c).P1 1) ((AK m c).P2 1) :=
  (W10_arr m ρ c 5).trans ((pool_parts4 (fun c b => Wk m ρ c 9 b) c).trans (by
    rw [w9_v96, keep 3 9 main_v3 (by decide), w3_v3, w9_v98, w9_v100]))
theorem w10_v103_1 : Wk m ρ c 10 main_v103_1 = x2K m c :=
  (W10_arr m ρ c 6).trans ((pool_new4 (fun c b => Wk m ρ c 9 b) c).trans (by rw [w9_v96, w9_v102] <;> rfl))

end Cert.KernelIdeal.KVal

end
-- ==== Proof.KHostC.lean ====
import proofs.«410384_j15272903704942_3_alg».proof.Proof.KHostB

noncomputable section

namespace Cert.KernelIdeal.KVal

open Idealize.ShloMosaic Idealize.ShloMosaic.TcCoe Cert.KernelIdeal Cert.KernelIdeal.Gen

variable {m : (ℓ : Loc nD τ sig) → Buf (Elt Ideal) ℓ} {ρ : Dev nD → PrngReg} {c : Dev nD}

theorem w11_v105 : Wk m ρ c 11 main_v105 = Cert.Net.pooled1 gK sK (AK m c) :=
  (s5_v105 (Wk m ρ c 10)).trans (by rw [keep 7 10 main_v62 (by decide), w7_v62, w10_v103_0, pooled_step] <;> rfl)
theorem w11_v113 : Wk m ρ c 11 main_v113 = gK (x2K m c) (AK m c).esN :=
  (s5_v113 (Wk m ρ c 10)).trans (by rw [w10_v103_1, arg_at 10 main_arg1 (by decide)] <;> rfl)
theorem w11_v120 : Wk m ρ c 11 main_v120 = gK (x2K m c) (AK m c).etN :=
  (s5_v120 (Wk m ρ c 10)).trans (by rw [w10_v103_1, arg_at 10 main_arg2 (by decide)] <;> rfl)
theorem w11_v122 : Wk m ρ c 11 main_v122 = (AK m c).Mg 2 :=
  (s5_v122_cut (Wk m ρ c 10)).trans (by rw [keep 3 10 main_v6 (by decide), w3_v6] <;> rfl)
theorem w11_v124 : Wk m ρ c 11 main_v124 = (AK m c).Mm 2 :=
  (s5_v124_cut (Wk m ρ c 10)).trans (by rw [keep 3 10 main_v8 (by decide), w3_v8] <;> rfl)
theorem w11_v126 : Wk m ρ c 11 main_v126 = (AK m c).M1 2 :=
  (s5_v126_cut (Wk m ρ c 10)).trans (by rw [keep 3 10 main_v10 (by decide), w3_v10] <;> rfl)
theorem w11_v128 : Wk m ρ c 11 main_v128 = (AK m c).M2g 2 :=
  (s5_v128_cut (Wk m ρ c 10)).trans (by rw [keep 3 10 main_v12 (by decide), w3_v12] <;> rfl)
theorem w11_v130 : Wk m ρ c 11 main_v130 = (AK m c).M2 2 :=
  (s5_v130_cut (Wk m ρ c 10)).trans (by rw [keep 3 10 main_v14 (by decide), w3_v14] <;> rfl)
theorem w12_v131 : Wk m ρ c 12 main_v131 = Cert.Net.z gK (AK m c) 2 (x2K m c) :=
  (W12_arr m ρ c 10).trans ((edge_arr5 (fun c b => Wk m ρ c 11 b) c).trans (by
    rw [w11_v113, w11_v120, keep 3 11 main_v2 (by decide), w3_v2, keep 3 11 main_v18 (by decide), w3_v18, keep 3 11 main_v19 (by decide), w3_v19, w11_v122, w11_v124, w11_v126, w11_v128, w11_v130] <;> rfl))
theorem w13_v139 : Wk m ρ c 13 main_v139 = Cert.Net.xs gK sK (AK m c) 2 (x2K m c) :=
  (s6_v139 (Wk m ρ c 12)).trans (by rw [keep 10 12 main_v103_1 (by decide), w10_v103_1, arg_at 12 main_arg1 (by decide), w12_v131] <;> rfl)
theorem w13_v141 : Wk m ρ c 13 main_v141 = (AK m c).P1 2 :=
  (s6_v141_cut (Wk m ρ c 12)).trans (by rw [keep 3 12 main_v15 (by decide), w3_v15] <;> rfl)
theorem w13_v143 : Wk m ρ c 13 main_v143 = (AK m c).P2 2 :=
  (s6_v143_cut (Wk m ρ c 12)).trans (by rw [keep 3 12 main_v16 (by decide), w3_v16] <;> rfl)
theorem w14_v146_0 : Wk m ρ c 14 main_v146_0 = Cert.Net.poolParts (Cert.Net.xs gK sK (AK m c) 2 (x2K m c)) (AK m c).gid ((AK m c).P1 2) ((AK m c).P2 2) :=
  (W14_arr m ρ c 5).trans ((pool_parts6 (fun c b => Wk m ρ c 13 b) c).trans (by
    rw [w13_v139, keep 3 13 main_v3 (by decide), w3_v3, w13_v141, w13_v143]))

variable (m ρ c)

theorem kernel_value :
    Gen.W19 (F := Ideal) m ρ c (Proc.devRef .tc main_v157)
      = tailK (Cert.Net.pooled2 gK sK (argsK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))))
          (m ((c : Thread nD τ).loc main_arg17)) (m ((c : Thread nD τ).loc main_arg18)) (m ((c : Thread nD τ).loc main_arg19)) :=
  (tail_v157 (Wk m ρ c 14)).trans (by
    rw [keep 11 14 main_v105 (by decide), w11_v105, w14_v146_0, arg_at 14 main_arg17 (by decide),
      arg_at 14 main_arg18 (by decide), arg_at 14 main_arg19 (by decide), pooled_step] <;> rfl)

end Cert.KernelIdeal.KVal

end
-- ==== Proof.BridgeEdge.lean ====
import Idealize.ShloMosaic.Lib.IdealHost
import Idealize.ShloMosaic.Lib.Pipeline.Value
import proofs.«410384_j15272903704942_3_alg».proof.ReferenceIdeal
import proofs.«410384_j15272903704942_3_alg».proof.Proof.Net
import proofs.«410384_j15272903704942_3_alg».proof.Proof.LibRowDims

noncomputable section

open scoped BigOperators

namespace Cert.ReferenceIdeal.Bridge

open Idealize.ShloMosaic Idealize.ShloMosaic.ValueIdx
open Cert.ReferenceIdeal.Facts₀ Cert.ReferenceIdeal.Facts

variable [Facts]

def sigm {T : Shape} (hT : S_.BroadcastsInDim T (![] : Fin 0 → Fin T.rank)) (v : FVec Ideal T .f32) : FVec Ideal T .f32 :=
  Host.divf (broadcastInDim T ![] hT (constant (F := Ideal) S_ .f32 0x3F800000#32))
    (addf (broadcastInDim T ![] hT (constant (F := Ideal) S_ .f32 0x3F800000#32)) (Host.exp (Host.negf v)))

def eluR {T : Shape} (hT : S_.BroadcastsInDim T (![] : Fin 0 → Fin T.rank)) (v : FVec Ideal T .f32) : FVec Ideal T .f32 :=
  select (cmpf .ogt v (broadcastInDim T ![] hT (constant (F := Ideal) S_ .f32 0x00000000#32))) v
    (mulf (broadcastInDim T ![] hT (constant (F := Ideal) S_ .f32 0x3F800000#32))
      (Host.expm1
        (select (cmpf .ogt v (broadcastInDim T ![] hT (constant (F := Ideal) S_ .f32 0x00000000#32)))
          (broadcastInDim T ![] hT (id (constant (F := Ideal) S_ .f32 0x00000000#32))) v)))

def maskR (r : FVec Ideal S160000x1 .f32) : FVec Ideal S160000x1 .f32 :=
  uitofp .f32 (cmpf .olt r (broadcastInDim S160000x1 ![] bcast_S_S160000x1 (constant (F := Ideal) S_ .f32 0x41000000#32)))

def feat (ni nj : FVec Ideal S160000x128 .f32) (r : FVec Ideal S160000x1 .f32) : FVec Ideal S160000x384 .f32 :=
  concatenate S160000x384 1
    [⟨S160000x128, ni⟩, ⟨S160000x128, nj⟩,
      ⟨S160000x128, Host.divf (subf ni nj) (broadcastInDim S160000x128 ![0, 1] bcast_S160000x1_S160000x128_0_1 r)⟩]
    concatenates_S160000x128_S160000x128_S160000x128_S160000x384_d1

def refEdge (ni nj : FVec Ideal S160000x128 .f32) (r : FVec Ideal S160000x1 .f32) (comb pw : FVec Ideal S160000x64 .f32)
    (Mg Mm : FVec Ideal S384x128 .f32) (M1 : FVec Ideal S64x128 .f32) (M2g : FVec Ideal S64x64 .f32)
    (M2 : FVec Ideal S64x128 .f32) : FVec Ideal S160000x128 .f32 :=
  mulf
    (mulf
      (mulf
        (sigm bcast_S_S160000x128 (Host.dotGeneral dot_S160000x384_S384x128_S160000x128_1_0_0_1_n_n none (feat ni nj r) Mg))
        (eluR bcast_S_S160000x128 (Host.dotGeneral dot_S160000x384_S384x128_S160000x128_1_0_0_1_n_n none (feat ni nj r) Mm)))
      (addf
        (Host.dotGeneral dot_S160000x64_S64x128_S160000x128_1_0_0_1_n_n none comb M1)
        (Host.dotGeneral dot_S160000x64_S64x128_S160000x128_1_0_0_1_n_n none
          (mulf pw (sigm bcast_S_S160000x64 (Host.dotGeneral dot_S160000x64_S64x64_S160000x64_1_0_0_1_n_n none pw M2g))) M2)))
    (broadcastInDim S160000x128 ![0, 1] bcast_S160000x1_S160000x128_0_1 (maskR r))

theorem sigm_apply {T : Shape} (hT : S_.BroadcastsInDim T (![] : Fin 0 → Fin T.rank)) (v : FVec Ideal T .f32) (j : T.Idx) :
    sigm hT v j = Net.sig (v j) := by
  unfold sigm
  rw [hostDivf_apply, addf_apply, broadcastInDim_scalar_apply, constant_apply, Ideal.ofBits_one_f32]
  rfl

-- Where 0 < v both selects take their first branch; elsewhere the inner one returns v, and 1 · (eᵛ − 1) = eᵛ − 1.
theorem eluR_apply {T : Shape} (hT : S_.BroadcastsInDim T (![] : Fin 0 → Fin T.rank)) (v : FVec Ideal T .f32) (j : T.Idx) :
    eluR hT v j = Net.elu (v j) := by
  show Scalar.select (Ideal.cmp .ogt (v j) _) (v j) (_ * (Ideal.exp (Scalar.select (Ideal.cmp .ogt (v j) _) _ (v j)) - 1)) = _
  simp only [broadcastInDim_scalar_apply, constant_apply, id_eq, Ideal.ofBits_one_f32, Ideal.ofBits_zero_f32]
  unfold Net.elu Ideal.cmp Scalar.select
  by_cases h0 : 0 < v j <;> simp [h0]

theorem maskR_apply (r : FVec Ideal S160000x1 .f32) (j : S160000x1.Idx) : maskR r j = Net.mask (r j) := by
  show (((Ideal.cmp .olt (r j) _).toNat : ℝ) : EReal) = _
  rw [broadcastInDim_scalar_apply, constant_apply]
  unfold Net.mask Net.cutoff Ideal.cmp
  by_cases h0 : r j < Ideal.ofBits .f32 0x41000000#32 <;> simp [h0]

theorem dot_apply {M K N : Nat} (d : DotDims ⟨2, ![M, K]⟩ ⟨2, ![K, N]⟩ ⟨2, ![M, N]⟩) (hd : d = DotDims.plain M K N)
    (x : FVec Ideal ⟨2, ![M, K]⟩ .f32) (W : FVec Ideal ⟨2, ![K, N]⟩ .f32) (e : Fin M) (h : Fin N) :
    Host.dotGeneral d none x W (ix2 e h) = ∑ k : Fin K, x (ix2 e k) * W (ix2 k h) := by
  subst hd
  exact RowDims.dotGeneral_plain_apply none .single x W e h

theorem bcastCol_apply {α : Type} (x : S160000x1.Idx → α) (e : Fin 160000) (h : Fin 128) :
    broadcastInDim S160000x128 ![0, 1] bcast_S160000x1_S160000x128_0_1 x (ix2 e h) = x (ix2 e 0) :=
  broadcastInDim_apply _ _ x (ix2 e h) (ix2 e 0) (fun a => by match a with | ⟨0, _⟩ => rfl | ⟨1, _⟩ => rfl)

variable (ni nj : FVec Ideal S160000x128 .f32) (r : FVec Ideal S160000x1 .f32)

theorem feat_lo (e : Fin 160000) (k : Fin 128) :
    feat ni nj r (ix2 e (Net.lo k)) = ni (ix2 e k) := by
  unfold feat
  exact concatenate_apply_piece (t := S160000x384) 1 _ _ (ix2 e (Net.lo k)) 0 (by show (0 : ℕ) < 3; decide) S160000x128 ni rfl rfl 0 rfl
    (ix2 e k) (fun b hb => by match b with | ⟨0, _⟩ => rfl | ⟨1, _⟩ => exact absurd rfl hb) (Nat.zero_add _)

theorem feat_mid (e : Fin 160000) (k : Fin 128) :
    feat ni nj r (ix2 e (Net.mid k)) = nj (ix2 e k) := by
  unfold feat
  exact concatenate_apply_piece (t := S160000x384) 1 _ _ (ix2 e (Net.mid k)) 1 (by show (1 : ℕ) < 3; decide) S160000x128 nj rfl rfl 128 rfl
    (ix2 e k) (fun b hb => by match b with | ⟨0, _⟩ => rfl | ⟨1, _⟩ => exact absurd rfl hb) rfl

theorem feat_hi (e : Fin 160000) (k : Fin 128)
    (hr : r (ix2 e 0) ≠ 0) : feat ni nj r (ix2 e (Net.hi k)) = Net.diff (R := 160000) ni nj r e k := by
  unfold feat
  rw [concatenate_apply_piece (t := S160000x384) 1 _ _ (ix2 e (Net.hi k)) 2 (by show (2 : ℕ) < 3; decide) S160000x128 _ rfl rfl 256 rfl
    (ix2 e k) (fun b hb => by match b with | ⟨0, _⟩ => rfl | ⟨1, _⟩ => exact absurd rfl hb) rfl]
  rw [hostDivf_apply, subf_apply, bcastCol_apply]
  exact (Ideal.mul_one_div hr).symm

theorem sum_fin384 {M : Type*} [AddCommMonoid M] (f : Fin 384 → M) :
    ∑ k : Fin 384, f k
      = (∑ k : Fin 128, f (Net.lo k)) + (∑ k : Fin 128, f (Net.mid k)) + ∑ k : Fin 128, f (Net.hi k) := by
  have h1 := Fin.sum_univ_add (a := 256) (b := 128) f
  have h2 := Fin.sum_univ_add (a := 128) (b := 128) (fun i : Fin (128 + 128) => f (Fin.castAdd 128 i))
  refine h1.trans ?_
  rw [h2]
  rfl

theorem dot384_feat (M : FVec Ideal S384x128 .f32)
    (e : Fin 160000) (h : Fin 128) (hr : r (ix2 e 0) ≠ 0) :
    Host.dotGeneral dot_S160000x384_S384x128_S160000x128_1_0_0_1_n_n none (feat ni nj r) M (ix2 e h)
      = Net.pre3 (R := 160000) ni nj r M e h := by
  rw [dot_apply dot_S160000x384_S384x128_S160000x128_1_0_0_1_n_n rfl, sum_fin384]
  unfold Net.pre3
  simp only [feat_lo, feat_mid, feat_hi ni nj r e _ hr]

theorem pwScaled_eq (pw : FVec Ideal S160000x64 .f32) (M2g : FVec Ideal S64x64 .f32) :
    mulf pw (sigm bcast_S_S160000x64 (Host.dotGeneral dot_S160000x64_S64x64_S160000x64_1_0_0_1_n_n none pw M2g))
      = Net.pwScaled (R := 160000) pw M2g := by
  funext j
  obtain ⟨e, k, rfl⟩ : ∃ (e : Fin 160000) (k : Fin 64), j = ix2 e k := ⟨j 0, j 1, eq_ix2 j⟩
  rw [mulf_apply, sigm_apply, dot_apply dot_S160000x64_S64x64_S160000x64_1_0_0_1_n_n rfl]
  rfl

theorem refEdge_eq (comb pw : FVec Ideal S160000x64 .f32)
    (Mg Mm : FVec Ideal S384x128 .f32) (M1 : FVec Ideal S64x128 .f32) (M2g : FVec Ideal S64x64 .f32)
    (M2 : FVec Ideal S64x128 .f32) (hr : ∀ e : Fin 160000, r (ix2 e 0) ≠ 0) :
    refEdge ni nj r comb pw Mg Mm M1 M2g M2 = Net.edge (R := 160000) ni nj r comb pw Mg Mm M1 M2g M2 := by
  funext j
  obtain ⟨e, h, rfl⟩ : ∃ (e : Fin 160000) (h : Fin 128), j = ix2 e h := ⟨j 0, j 1, eq_ix2 j⟩
  unfold refEdge
  rw [mulf_apply, mulf_apply, mulf_apply, addf_apply, sigm_apply, eluR_apply, dot384_feat ni nj r Mg e h (hr e),
    dot384_feat ni nj r Mm e h (hr e), dot_apply dot_S160000x64_S64x128_S160000x128_1_0_0_1_n_n rfl,
    dot_apply dot_S160000x64_S64x128_S160000x128_1_0_0_1_n_n rfl, pwScaled_eq, bcastCol_apply, maskR_apply]
  rfl

end Cert.ReferenceIdeal.Bridge

end
-- ==== Proof.RPreHead.lean ====
import proofs.«410384_j15272903704942_3_alg».proof.Proof.RDefs
import proofs.«410384_j15272903704942_3_alg».proof.Proof.RRunOps
import proofs.«410384_j15272903704942_3_alg».proof.Proof.BridgeEdge
import Idealize.ShloMosaic.Lib.StableHlo.Run

noncomputable section

namespace Cert.ReferenceIdeal.RVal

open Cert.ReferenceIdeal Cert.ReferenceIdeal.Gen Idealize.ShloMosaic Idealize.ShloMosaic.TcCoe Idealize.SL.Sem Idealize.ShloMosaic.StableHlo

variable (W : Valuation τ sig (Elt Ideal))

theorem pre_v7 :
    after (Run.opsPre (F := Ideal)) W (main_v7 : DevRef τ sig)
      = Bridge.sigm bcast_S_S20000x128
          (Host.dotGeneral (F := Ideal) (φ₁ := .f32) (φ₂ := .f32) dot_S20000x98_S98x128_S20000x128_1_0_0_1_n_n none (W (main_arg0 : DevRef τ sig))
            (transpose S98x128 [1, 0] (W (main_arg8 : DevRef τ sig)) transposes_S128x98_S98x128_1_0)) := by
  simp only [after_cons, after_nil]
  rfl

theorem pre_v8 :
    after (Run.opsPre (F := Ideal)) W (main_v8 : DevRef τ sig)
      = broadcastInDim S160000x1 ![0] bcast_S160000_S160000x1_0 (W (main_arg3 : DevRef τ sig)) := by
  simp only [after_cons, after_nil]
  rfl

theorem pre_v11 :
    after (Run.opsPre (F := Ideal)) W (main_v11 : DevRef τ sig)
      = Bridge.maskR (broadcastInDim S160000x1 ![0] bcast_S160000_S160000x1_0 (W (main_arg3 : DevRef τ sig))) := by
  simp only [after_cons, after_nil]
  rfl

theorem pre_v12 :
    after (Run.opsPre (F := Ideal)) W (main_v12 : DevRef τ sig)
      = broadcastInDim S50x128 ![] bcast_S_S50x128 (constant (F := Ideal) S_ .f32 0x00000000#32) := by
  simp only [after_cons, after_nil]
  rfl

theorem head_val :
    after (Run.opsHead (F := Ideal)) W (main_v270 : DevRef τ sig)
      = tailR (W (main_v256 : DevRef τ sig)) (W (main_arg17 : DevRef τ sig)) (W (main_arg18 : DevRef τ sig)) (W (main_arg19 : DevRef τ sig)) := by
  simp only [after_cons, after_nil]
  rfl

end Cert.ReferenceIdeal.RVal

end
-- ==== Proof.REdge.lean ====
import proofs.«410384_j15272903704942_3_alg».proof.Proof.RRunOps
import proofs.«410384_j15272903704942_3_alg».proof.Proof.RDefs
import proofs.«410384_j15272903704942_3_alg».proof.Proof.BridgeEdge

noncomputable section

namespace Cert.ReferenceIdeal.RVal

open Cert.ReferenceIdeal Cert.ReferenceIdeal.Gen Idealize.ShloMosaic Idealize.ShloMosaic.TcCoe Idealize.SL.Sem
  Idealize.ShloMosaic.StableHlo

/-- Block `b`'s edge message of the node state `x`, at the arguments, distance column and weights `W` holds. -/
abbrev edgeOf (W : Valuation τ sig (Elt Ideal)) (x : Net.Mat 20000 128) (b : Fin 3) : Net.Mat 160000 128 :=
  Bridge.refEdge (gR x (normColR (W (main_arg1 : DevRef τ sig)))) (gR x (normColR (W (main_arg2 : DevRef τ sig)))) (W (main_v8 : DevRef τ sig))
    (W (main_arg6 : DevRef τ sig)) (W (main_arg7 : DevRef τ sig)) (MgR (W (main_arg12 : DevRef τ sig)) b) (MmR (W (main_arg13 : DevRef τ sig)) b)
    (M1R (W (main_arg9 : DevRef τ sig)) b) (M2gR (W (main_arg11 : DevRef τ sig)) b) (M2R (W (main_arg10 : DevRef τ sig)) b)

variable (W : Valuation τ sig (Elt Ideal)) (h11 : W (main_v11 : DevRef τ sig) = Bridge.maskR (W (main_v8 : DevRef τ sig)))
include h11

set_option maxRecDepth 8192 in
set_option maxHeartbeats 1000000 in
theorem edge0_val : after (Run.opsEdge0 (F := Ideal)) W (main_v69 : DevRef τ sig) = edgeOf W (W (main_v7 : DevRef τ sig)) 0 := by
  unfold edgeOf Bridge.refEdge
  rw [← h11]
  after_results_simp
  rfl

set_option maxRecDepth 8192 in
set_option maxHeartbeats 1000000 in
theorem edge1_val : after (Run.opsEdge1 (F := Ideal)) W (main_v152 : DevRef τ sig) = edgeOf W (W (main_v95 : DevRef τ sig)) 1 := by
  unfold edgeOf Bridge.refEdge
  rw [← h11]
  after_results_simp
  rfl

set_option maxRecDepth 8192 in
set_option maxHeartbeats 1000000 in
theorem edge2_val : after (Run.opsEdge2 (F := Ideal)) W (main_v235 : DevRef τ sig) = edgeOf W (W (main_v178 : DevRef τ sig)) 2 := by
  unfold edgeOf Bridge.refEdge
  rw [← h11]
  after_results_simp
  rfl

end Cert.ReferenceIdeal.RVal

end
-- ==== Proof.BridgeNode.lean ====
import proofs.«410384_j15272903704942_3_alg».proof.Proof.BridgeEdge

noncomputable section

open scoped BigOperators

namespace Cert.ReferenceIdeal.Bridge

open Idealize.ShloMosaic Idealize.SL.Sem Idealize.ShloMosaic.ValueIdx
open Cert.ReferenceIdeal Cert.ReferenceIdeal.Facts₀ Cert.ReferenceIdeal.Facts

variable [Facts]

theorem bzero_apply {T : Shape} (hT : S_.BroadcastsInDim T ![]) (j : T.Idx) :
    broadcastInDim T ![] hT (constant (F := Ideal) S_ .f32 0x00000000#32) j = 0 :=
  (broadcastInDim_scalar_apply hT _ j).trans Ideal.ofBits_zero_f32

-- A word read signed is the graph number `g < 50` exactly when it is the word of `g`.
theorem toInt_eq_iff (v : BitVec 32) (g : Nat) (hg : g < 50) : v.toInt = (g : Int) ↔ v = BitVec.ofNat 32 g := by
  have hsmall : (BitVec.ofNat 32 g).toInt = (g : Int) := by
    rw [BitVec.toInt_eq_toNat_cond, BitVec.toNat_ofNat, Nat.mod_eq_of_lt (by omega), if_pos (by omega)]
  exact ⟨fun h => BitVec.eq_of_toInt_eq (h.trans hsmall.symm), fun h => h ▸ hsmall⟩

theorem refEmbed_eq (nodes : FVec Ideal S20000x98 .f32) (WT : FVec Ideal S98x128 .f32) :
    sigm bcast_S_S20000x128 (Host.dotGeneral dot_S20000x98_S98x128_S20000x128_1_0_0_1_n_n none nodes WT)
      = Cert.Net.embed (R := 20000) nodes WT := by
  funext j
  obtain ⟨n, h, rfl⟩ : ∃ n h, j = ix2 n h := ⟨j 0, j 1, eq_ix2 j⟩
  rw [sigm_apply, dot_apply dot_S20000x98_S98x128_S20000x128_1_0_0_1_n_n rfl]
  rfl

theorem refNew_eq (x : FVec Ideal S20000x128 .f32) (P : FVec Ideal S128x128 .f32) :
    eluR bcast_S_S20000x128 (Host.dotGeneral dot_S20000x128_S128x128_S20000x128_1_0_0_1_n_n none x P)
      = Cert.Net.poolNew (R := 20000) x P := by
  funext j
  obtain ⟨n, h, rfl⟩ : ∃ n h, j = ix2 n h := ⟨j 0, j 1, eq_ix2 j⟩
  rw [eluR_apply, dot_apply dot_S20000x128_S128x128_S20000x128_1_0_0_1_n_n rfl]
  rfl

theorem seg_apply (z : FVec Ideal S50x128 .f32) (gid : IVec S20000x1 32) (u : FVec Ideal S20000x128 .f32)
    (g : Fin 50) (h : Fin 128) :
    Host.scatterAdd scatter_S50x128_S20000x1_S20000x128_1_0_0_1 z gid u (ix2 g h)
      = z (ix2 g h) + ∑ r : Fin 20000, if (gid (ix2 r 0)).toInt = (g.val : Int) then u (ix2 r h) else 0 :=
  RowDims.rowScatterAdd_apply scatter_S50x128_S20000x1_S20000x128_1_0_0_1_wf z gid u g h

-- A scatter-add of the gated rows into the zero table at the rows' graph ids is the contraction with the one-hot matrix.
theorem refSeg_eq (x : FVec Ideal S20000x128 .f32) (gid : IVec S20000x1 32) (P1 P2 : FVec Ideal S128x128 .f32) :
    Host.scatterAdd scatter_S50x128_S20000x1_S20000x128_1_0_0_1
        (broadcastInDim S50x128 ![] bcast_S_S50x128 (constant S_ .f32 0x00000000#32)) gid
        (mulf (eluR bcast_S_S20000x128 (Host.dotGeneral dot_S20000x128_S128x128_S20000x128_1_0_0_1_n_n none x P1))
          (Host.dotGeneral dot_S20000x128_S128x128_S20000x128_1_0_0_1_n_n none x P2))
      = Cert.Net.poolTile (R := 20000) x gid P1 P2 := by
  funext j
  obtain ⟨g, h, rfl⟩ : ∃ g h, j = ix2 g h := ⟨j 0, j 1, eq_ix2 j⟩
  rw [seg_apply, bzero_apply, zero_add]
  show _ = ∑ n : Fin 20000, Cert.Net.onehot gid n g * Cert.Net.zp x P1 P2 (ix2 n h)
  refine Finset.sum_congr rfl fun n _ => ?_
  rw [mulf_apply, eluR_apply, dot_apply dot_S20000x128_S128x128_S20000x128_1_0_0_1_n_n rfl,
    dot_apply dot_S20000x128_S128x128_S20000x128_1_0_0_1_n_n rfl]
  unfold Cert.Net.onehot
  by_cases hv : gid (ix2 n 0) = BitVec.ofNat 32 g.val
  · rw [if_pos ((toInt_eq_iff _ g.val g.isLt).2 hv), if_pos hv, one_mul]
    rfl
  · rw [if_neg (fun hh => hv ((toInt_eq_iff _ g.val g.isLt).1 hh)), if_neg hv, zero_mul]

end Cert.ReferenceIdeal.Bridge

end
-- ==== Proof.RNode.lean ====
import proofs.«410384_j15272903704942_3_alg».proof.Proof.RRunOps
import proofs.«410384_j15272903704942_3_alg».proof.Proof.RDefs
import proofs.«410384_j15272903704942_3_alg».proof.Proof.BridgeNode

noncomputable section

namespace Cert.ReferenceIdeal.RVal

open Cert.ReferenceIdeal Cert.ReferenceIdeal.Gen Idealize.ShloMosaic Idealize.ShloMosaic.TcCoe Idealize.SL.Sem
  Idealize.ShloMosaic.StableHlo

variable (W : Valuation τ sig (Elt Ideal))

/-- The node state `x` with the edge messages `z` added at their source rows. -/
abbrev xsOf (x : Net.Mat 20000 128) (z : Net.Mat 160000 128) : Net.Mat 20000 128 :=
  sR x (normColR (W (main_arg1 : DevRef τ sig))) z

/-- The pooled sum `p` plus block `b`'s segment sum over the node state `y`. -/
abbrev poolOf (p : Net.Mat 50 128) (y : Net.Mat 20000 128) (b : Fin 3) : Net.Mat 50 128 :=
  fun j => p j + Net.poolTile (R := 20000) y (broadcastInDim S20000x1 ![0] bcast_S20000_S20000x1_0 (W (main_arg4 : DevRef τ sig)))
    (P1R (W (main_arg15 : DevRef τ sig)) b) (P2R (W (main_arg16 : DevRef τ sig)) b) j

/-- Block `b`'s update of the node state `y`. -/
abbrev newOf (y : Net.Mat 20000 128) (b : Fin 3) : Net.Mat 20000 128 :=
  Net.poolNew (R := 20000) y (PpsiR (W (main_arg14 : DevRef τ sig)) b)

theorem pool_eq (p : Net.Mat 50 128) {q q' : Net.Mat 50 128} (h : q = q') :
    addf (F := Ideal) (s := S50x128) (φ := .f32) p q = fun j => p j + q' j := h ▸ rfl

set_option maxRecDepth 8192 in
theorem node0_pool : after (Run.opsNode0 (F := Ideal)) W (main_v90 : DevRef τ sig)
    = poolOf W (W (main_v12 : DevRef τ sig)) (xsOf W (W (main_v7 : DevRef τ sig)) (W (main_v69 : DevRef τ sig))) 0 := by
  refine Eq.trans ?_ (pool_eq _ (Bridge.refSeg_eq _ _ _ _))
  simp only [after_cons, after_nil]
  rfl

set_option maxRecDepth 8192 in
theorem node0_new : after (Run.opsNode0 (F := Ideal)) W (main_v95 : DevRef τ sig)
    = newOf W (xsOf W (W (main_v7 : DevRef τ sig)) (W (main_v69 : DevRef τ sig))) 0 := by
  refine Eq.trans ?_ (Bridge.refNew_eq _ _)
  simp only [after_cons, after_nil]
  rfl

set_option maxRecDepth 8192 in
theorem node1_pool : after (Run.opsNode1 (F := Ideal)) W (main_v173 : DevRef τ sig)
    = poolOf W (W (main_v90 : DevRef τ sig)) (xsOf W (W (main_v95 : DevRef τ sig)) (W (main_v152 : DevRef τ sig))) 1 := by
  refine Eq.trans ?_ (pool_eq _ (Bridge.refSeg_eq _ _ _ _))
  simp only [after_cons, after_nil]
  rfl

set_option maxRecDepth 8192 in
theorem node1_new : after (Run.opsNode1 (F := Ideal)) W (main_v178 : DevRef τ sig)
    = newOf W (xsOf W (W (main_v95 : DevRef τ sig)) (W (main_v152 : DevRef τ sig))) 1 := by
  refine Eq.trans ?_ (Bridge.refNew_eq _ _)
  simp only [after_cons, after_nil]
  rfl

set_option maxRecDepth 8192 in
theorem node2_pool : after (Run.opsNode2 (F := Ideal)) W (main_v256 : DevRef τ sig)
    = poolOf W (W (main_v173 : DevRef τ sig)) (xsOf W (W (main_v178 : DevRef τ sig)) (W (main_v235 : DevRef τ sig))) 2 := by
  refine Eq.trans ?_ (pool_eq _ (Bridge.refSeg_eq _ _ _ _))
  simp only [after_cons, after_nil]
  rfl

end Cert.ReferenceIdeal.RVal

end
-- ==== Proof.RValue.lean ====
import proofs.«410384_j15272903704942_3_alg».proof.Proof.RRunTab
import proofs.«410384_j15272903704942_3_alg».proof.Proof.RRunKeep
import proofs.«410384_j15272903704942_3_alg».proof.Proof.RPreHead
import proofs.«410384_j15272903704942_3_alg».proof.Proof.REdge
import proofs.«410384_j15272903704942_3_alg».proof.Proof.RNode
import Idealize.ShloMosaic.Lib.Pipeline.Frame

noncomputable section

namespace Cert.ReferenceIdeal.RVal

open Cert.ReferenceIdeal Cert.ReferenceIdeal.Gen Idealize.ShloMosaic Idealize.ShloMosaic.TcCoe Idealize.SL.Sem Idealize.ShloMosaic.StableHlo

variable (V : Valuation τ sig (Elt Ideal))

abbrev argsOf : Net.Args :=
  argsR (V (main_arg0 : DevRef τ sig)) (V (main_arg1 : DevRef τ sig)) (V (main_arg2 : DevRef τ sig)) (V (main_arg3 : DevRef τ sig)) (V (main_arg4 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig))

abbrev NoZero : Prop := ∀ e : Fin 160000, (argsOf V).r (ValueIdx.ix2 e 0) ≠ 0

def W1 : Valuation τ sig (Elt Ideal) := after (Run.opsPre (F := Ideal)) V
def W2 : Valuation τ sig (Elt Ideal) := after (Run.opsEdge0 (F := Ideal)) (W1 V)
def W3 : Valuation τ sig (Elt Ideal) := after (Run.opsNode0 (F := Ideal)) (W2 V)
def W4 : Valuation τ sig (Elt Ideal) := after (Run.opsEdge1 (F := Ideal)) (W3 V)
def W5 : Valuation τ sig (Elt Ideal) := after (Run.opsNode1 (F := Ideal)) (W4 V)
def W6 : Valuation τ sig (Elt Ideal) := after (Run.opsEdge2 (F := Ideal)) (W5 V)
def W7 : Valuation τ sig (Elt Ideal) := after (Run.opsNode2 (F := Ideal)) (W6 V)

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19]

/-- `W` holds `V`'s arguments, the distance column and its cutoff mask: what no stretch after the first writes. -/
structure Inv (W : Valuation τ sig (Elt Ideal)) : Prop where
  arg : ∀ r ∈ argRefs, W (Proc.devRef .tc r) = V (Proc.devRef .tc r)
  v8 : W (main_v8 : DevRef τ sig) = (argsOf V).r
  v11 : W (main_v11 : DevRef τ sig) = Bridge.maskR (argsOf V).r

variable {V}

theorem Inv.keep {W W' : Valuation τ sig (Elt Ideal)} {ws : List (Ref sig .tc)} (h : Inv V W)
    (hk : ∀ r, r ∉ ws → W' (Proc.devRef .tc r) = W (Proc.devRef .tc r))
    (hn : ∀ r ∈ main_v8 :: main_v11 :: argRefs, r ∉ ws) : Inv V W' :=
  ⟨fun r hr => (hk r (hn r (List.mem_cons_of_mem _ (List.mem_cons_of_mem _ hr)))).trans (h.arg r hr),
    (hk main_v8 (hn _ (by decide))).trans h.v8, (hk main_v11 (hn _ (by decide))).trans h.v11⟩

/-- The reference divides by the distance where the network multiplies by its reciprocal: equal where no distance is zero. -/
theorem edgeOf_eq {W : Valuation τ sig (Elt Ideal)} (h : Inv V W) (hr : NoZero V) {X : Net.Mat 20000 128} (x : Net.Mat 20000 128) (hx : x = X)
    (b : Fin 3) : edgeOf W x b = Net.z gR (argsOf V) b X := by
  subst hx
  unfold edgeOf
  rw [h.v8, h.arg main_arg1 (by decide), h.arg main_arg2 (by decide), h.arg main_arg6 (by decide), h.arg main_arg7 (by decide),
    h.arg main_arg12 (by decide), h.arg main_arg13 (by decide), h.arg main_arg9 (by decide), h.arg main_arg11 (by decide),
    h.arg main_arg10 (by decide)]
  exact Bridge.refEdge_eq _ _ _ _ _ _ _ _ _ _ hr

theorem nodeOf_eq {W : Valuation τ sig (Elt Ideal)} (h : Inv V W) (b : Fin 3) {P : Net.Mat 50 128} {X : Net.Mat 20000 128} (p : Net.Mat 50 128)
    (x : Net.Mat 20000 128) (z : Net.Mat 160000 128) (hp : p = P) (hx : x = X) (hz : z = Net.z gR (argsOf V) b X) :
    poolOf W p (xsOf W x z) b = (fun j => P j + Net.pooledOf gR sR (argsOf V) b X j)
      ∧ newOf W (xsOf W x z) b = Net.xn gR sR (argsOf V) b X := by
  subst hp hx hz
  unfold poolOf newOf xsOf
  rw [h.arg main_arg1 (by decide), h.arg main_arg4 (by decide), h.arg main_arg15 (by decide), h.arg main_arg16 (by decide),
    h.arg main_arg14 (by decide)]
  exact ⟨rfl, rfl⟩

variable (V)

theorem st1 : Inv V (W1 V) ∧ W1 V (main_v7 : DevRef τ sig) = Net.x0 (argsOf V) ∧ W1 V (main_v12 : DevRef τ sig) = (fun _ => 0 : Net.Mat 50 128) :=
  ⟨⟨fun r hr => Run.opsPre_keep V r ((by decide : ∀ r ∈ argRefs, r ∉ Run.opsPre_W) r hr), pre_v8 V, pre_v11 V⟩,
    (pre_v7 V).trans (Bridge.refEmbed_eq _ _), (pre_v12 V).trans (funext fun j => Bridge.bzero_apply _ j)⟩

theorem st3 (hr : NoZero V) : Inv V (W3 V) ∧ W3 V (main_v95 : DevRef τ sig) = Net.x1 gR sR (argsOf V)
    ∧ W3 V (main_v90 : DevRef τ sig) = Net.pooled0 gR sR (argsOf V) := by
  obtain ⟨h, hx, hp⟩ := st1 V
  have hE : Inv V (W2 V) := h.keep (Run.opsEdge0_keep _) (by decide)
  have hn := nodeOf_eq hE 0 _ _ _ ((Run.opsEdge0_keep _ main_v12 (by decide)).trans hp) ((Run.opsEdge0_keep _ main_v7 (by decide)).trans hx)
    ((edge0_val (W1 V) (h.v11.trans (congrArg Bridge.maskR h.v8.symm))).trans (edgeOf_eq h hr _ hx 0))
  exact ⟨hE.keep (Run.opsNode0_keep _) (by decide), (node0_new (W2 V)).trans hn.2, (node0_pool (W2 V)).trans hn.1⟩

theorem st5 (hr : NoZero V) : Inv V (W5 V) ∧ W5 V (main_v178 : DevRef τ sig) = Net.x2 gR sR (argsOf V)
    ∧ W5 V (main_v173 : DevRef τ sig) = Net.pooled1 gR sR (argsOf V) := by
  obtain ⟨h, hx, hp⟩ := st3 V hr
  have hE : Inv V (W4 V) := h.keep (Run.opsEdge1_keep _) (by decide)
  have hn := nodeOf_eq hE 1 _ _ _ ((Run.opsEdge1_keep _ main_v90 (by decide)).trans hp) ((Run.opsEdge1_keep _ main_v95 (by decide)).trans hx)
    ((edge1_val (W3 V) (h.v11.trans (congrArg Bridge.maskR h.v8.symm))).trans (edgeOf_eq h hr _ hx 1))
  exact ⟨hE.keep (Run.opsNode1_keep _) (by decide), (node1_new (W4 V)).trans hn.2, (node1_pool (W4 V)).trans hn.1⟩

theorem st7 (hr : NoZero V) : Inv V (W7 V) ∧ W7 V (main_v256 : DevRef τ sig) = Net.pooled2 gR sR (argsOf V) := by
  obtain ⟨h, hx, hp⟩ := st5 V hr
  have hE : Inv V (W6 V) := h.keep (Run.opsEdge2_keep _) (by decide)
  have hn := nodeOf_eq hE 2 _ _ _ ((Run.opsEdge2_keep _ main_v173 (by decide)).trans hp) ((Run.opsEdge2_keep _ main_v178 (by decide)).trans hx)
    ((edge2_val (W5 V) (h.v11.trans (congrArg Bridge.maskR h.v8.symm))).trans (edgeOf_eq h hr _ hx 2))
  exact ⟨hE.keep (Run.opsNode2_keep _) (by decide), (node2_pool (W6 V)).trans hn.1⟩

theorem after_ops : after (Run.ops (F := Ideal)) V = after (Run.opsHead (F := Ideal)) (W7 V) := by
  unfold Run.ops
  rw [StableHlo.after_append, StableHlo.after_append, StableHlo.after_append, StableHlo.after_append, StableHlo.after_append,
    StableHlo.after_append, StableHlo.after_append]
  rfl

theorem ref_value (hr : ∀ e : Fin 160000, (argsOf V).r (ValueIdx.ix2 e 0) ≠ 0) :
    after (Run.ops (F := Ideal)) V (Proc.devRef .tc main_v270)
      = tailR (Net.pooled2 gR sR (argsOf V)) (V (main_arg17 : DevRef τ sig)) (V (main_arg18 : DevRef τ sig)) (V (main_arg19 : DevRef τ sig)) := by
  obtain ⟨h, hp⟩ := st7 V hr
  rw [after_ops V]
  refine (head_val (W7 V)).trans ?_
  rw [hp, h.arg main_arg17 (by decide), h.arg main_arg18 (by decide), h.arg main_arg19 (by decide)]

end Cert.ReferenceIdeal.RVal

end
-- ==== Proof.lean ====
import proofs.«410384_j15272903704942_3_alg».proof.Proof.Claims
import proofs.«410384_j15272903704942_3_alg».proof.Proof.KHostC
import proofs.«410384_j15272903704942_3_alg».proof.Proof.RValue

noncomputable section

namespace Cert.Proof

/-- Both programs compute one three-block graph network and regression head of the argument arrays. -/
theorem claim : Cert.Claim :=
  Cert.Proof.Claims.claim_of Cert.KernelIdeal.KVal.kernel_value Cert.ReferenceIdeal.RVal.ref_value

end Cert.Proof

end
